-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1 : Shape := ⟨2, ![100000, 1]⟩
abbrev S2x3200000 : Shape := ⟨2, ![2, 3200000]⟩
abbrev S100000 : Shape := ⟨1, ![100000]⟩
abbrev S1x50 : Shape := ⟨2, ![1, 50]⟩
abbrev S50 : Shape := ⟨1, ![50]⟩
abbrev S50x50 : Shape := ⟨2, ![50, 50]⟩
abbrev S50x2 : Shape := ⟨2, ![50, 2]⟩
abbrev S2 : Shape := ⟨1, ![2]⟩
abbrev S_ : Shape := ⟨0, ![]⟩

class Facts : Prop where
  bcast_S_S100000x1 : S_.BroadcastsInDim S100000x1 (![] : Fin 0 → Fin S100000x1.rank)
  reducesTo_S100000x1_S_d0_1 : S100000x1.ReducesTo [0, 1] S_
  h_S_ : 0 < S_.numel
  bcast_S_S1x50 : S_.BroadcastsInDim S1x50 (![] : Fin 0 → Fin S1x50.rank)
  reducesTo_S1x50_S_d0_1 : S1x50.ReducesTo [0, 1] S_
  bcast_S_S50 : S_.BroadcastsInDim S50 (![] : Fin 0 → Fin S50.rank)
  reducesTo_S50_S_d0 : S50.ReducesTo [0] S_
  bcast_S_S50x50 : S_.BroadcastsInDim S50x50 (![] : Fin 0 → Fin S50x50.rank)
  reducesTo_S50x50_S_d0_1 : S50x50.ReducesTo [0, 1] S_
  bcast_S_S50x2 : S_.BroadcastsInDim S50x2 (![] : Fin 0 → Fin S50x2.rank)
  reducesTo_S50x2_S_d0_1 : S50x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg6 : FVec F S50 .f32) (main_arg7 : FVec F S50x2 .f32) (main_arg8 : FVec F S2 .f32) (main_v13 : IVec S_ 1) (main_v16 : IVec S50x50 1) : IVec S_ 1 :=
  let main_c_5 : IVec S_ 1 := constantI S_ 1 1#1
  let main_v17 : IVec S_ 1 := (fun x v => Host.reduce IntOp.andi x v reducesTo_S50x50_S_d0_1 h_S_) main_v16 main_c_5
  let main_v18 : IVec S_ 1 := andi main_v13 main_v17
  let main_v19 : FVec F S50 .f32 := Host.absf main_arg6
  let main_cst_6 : FVec F S_ .f32 := constant S_ .f32 0x7F800000#32
  let main_v20 : FVec F S50 .f32 := broadcastInDim S50 ![] bcast_S_S50 main_cst_6
  let main_v21 : IVec S50 1 := cmpf .olt main_v19 main_v20
  let main_c_7 : IVec S_ 1 := constantI S_ 1 1#1
  let main_v22 : IVec S_ 1 := (fun x v => Host.reduce IntOp.andi x v reducesTo_S50_S_d0 h_S_) main_v21 main_c_7
  let main_v23 : IVec S_ 1 := andi main_v18 main_v22
  let main_v24 : FVec F S50x2 .f32 := Host.absf main_arg7
  let main_cst_8 : FVec F S_ .f32 := constant S_ .f32 0x7F800000#32
  let main_v25 : FVec F S50x2 .f32 := broadcastInDim S50x2 ![] bcast_S_S50x2 main_cst_8
  let main_v26 : IVec S50x2 1 := cmpf .olt main_v24 main_v25
  let main_c_9 : IVec S_ 1 := constantI S_ 1 1#1
  let main_v27 : IVec S_ 1 := (fun x v => Host.reduce IntOp.andi x v reducesTo_S50x2_S_d0_1 h_S_) main_v26 main_c_9
  let main_v28 : IVec S_ 1 := andi main_v23 main_v27
  let main_v29 : FVec F S2 .f32 := Host.absf main_arg8
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S100000x1 .f32) (main_arg1 : IVec S2x3200000 32) (main_arg2 : IVec S100000 32) (main_arg3 : FVec F S1x50 .f32) (main_arg4 : FVec F S50 .f32) (main_arg5 : FVec F S50x50 .f32) (main_arg6 : FVec F S50 .f32) (main_arg7 : FVec F S50x2 .f32) (main_arg8 : FVec F S2 .f32) : IVec S_ 1 :=
  let main_v0 : FVec F S100000x1 .f32 := Host.absf main_arg0
  let main_cst : FVec F S_ .f32 := constant S_ .f32 0x7F800000#32
  let main_v1 : FVec F S100000x1 .f32 := broadcastInDim S100000x1 ![] bcast_S_S100000x1 main_cst
  let main_v2 : IVec S100000x1 1 := cmpf .olt main_v0 main_v1
  let main_c : IVec S_ 1 := constantI S_ 1 1#1
  let main_v3 : IVec S_ 1 := (fun x v => Host.reduce IntOp.andi x v reducesTo_S100000x1_S_d0_1 h_S_) main_v2 main_c
  let main_v4 : FVec F S1x50 .f32 := Host.absf main_arg3
  let main_cst_0 : FVec F S_ .f32 := constant S_ .f32 0x7F800000#32
  let main_v5 : FVec F S1x50 .f32 := broadcastInDim S1x50 ![] bcast_S_S1x50 main_cst_0
  let main_v6 : IVec S1x50 1 := cmpf .olt main_v4 main_v5
  let main_c_1 : IVec S_ 1 := constantI S_ 1 1#1
  let main_v7 : IVec S_ 1 := (fun x v => Host.reduce IntOp.andi x v reducesTo_S1x50_S_d0_1 h_S_) main_v6 main_c_1
  let main_v8 : IVec S_ 1 := andi main_v3 main_v7
  let main_v9 : FVec F S50 .f32 := Host.absf main_arg4
  let main_cst_2 : FVec F S_ .f32 := constant S_ .f32 0x7F800000#32
  let main_v10 : FVec F S50 .f32 := broadcastInDim S50 ![] bcast_S_S50 main_cst_2
  let main_v11 : IVec S50 1 := cmpf .olt main_v9 main_v10
  let main_c_3 : IVec S_ 1 := constantI S_ 1 1#1
  let main_v12 : IVec S_ 1 := (fun x v => Host.reduce IntOp.andi x v reducesTo_S50_S_d0 h_S_) main_v11 main_c_3
  let main_v13 : IVec S_ 1 := andi main_v8 main_v12
  let main_v14 : FVec F S50x50 .f32 := Host.absf main_arg5
  let main_cst_4 : FVec F S_ .f32 := constant S_ .f32 0x7F800000#32
  let main_v15 : FVec F S50x50 .f32 := broadcastInDim S50x50 ![] bcast_S_S50x50 main_cst_4
  let main_v16 : IVec S50x50 1 := cmpf .olt main_v14 main_v15
  fn_part1 (F := F) main_arg6 main_arg7 main_arg8 main_v13 main_v16
-- ==== Kernel.lean ====
abbrev S100000x1 : Shape := ⟨2, ![100000, 1]⟩
abbrev S2x3200000 : Shape := ⟨2, ![2, 3200000]⟩
abbrev S100000 : Shape := ⟨1, ![100000]⟩
abbrev S1x50 : Shape := ⟨2, ![1, 50]⟩
abbrev S50 : Shape := ⟨1, ![50]⟩
abbrev S50x50 : Shape := ⟨2, ![50, 50]⟩
abbrev S50x2 : Shape := ⟨2, ![50, 2]⟩
abbrev S2 : Shape := ⟨1, ![2]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x50 : Shape := ⟨2, ![100000, 50]⟩
abbrev S5000x1 : Shape := ⟨2, ![5000, 1]⟩
abbrev S5000x50 : Shape := ⟨2, ![5000, 50]⟩
abbrev S10000x50 : Shape := ⟨2, ![10000, 50]⟩
abbrev S10000x1 : Shape := ⟨2, ![10000, 1]⟩
abbrev S3300000x50 : Shape := ⟨2, ![3300000, 50]⟩
abbrev S128 : Shape := ⟨1, ![128]⟩
abbrev S128x1 : Shape := ⟨2, ![128, 1]⟩
abbrev S1x2 : Shape := ⟨2, ![1, 2]⟩
abbrev S128x2 : Shape := ⟨2, ![128, 2]⟩
abbrev S128x50 : Shape := ⟨2, ![128, 50]⟩
abbrev S10000x128 : Shape := ⟨2, ![10000, 128]⟩

abbrev nBuf : Space → Nat
  | .hbm => 75
  | .vmem => 31
  | .smem => 0
  | _ => 0

abbrev bufTy : (tb : Table) → Fin (tcTables nBuf tb) → BufTy
  | .hbm, ⟨0, _⟩ => ⟨S100000x1, .f32⟩
  | .hbm, ⟨1, _⟩ => ⟨S2x3200000, .i32⟩
  | .hbm, ⟨2, _⟩ => ⟨S100000, .i32⟩
  | .hbm, ⟨3, _⟩ => ⟨S1x50, .f32⟩
  | .hbm, ⟨4, _⟩ => ⟨S50, .f32⟩
  | .hbm, ⟨5, _⟩ => ⟨S50x50, .f32⟩
  | .hbm, ⟨6, _⟩ => ⟨S50, .f32⟩
  | .hbm, ⟨7, _⟩ => ⟨S50x2, .f32⟩
  | .hbm, ⟨8, _⟩ => ⟨S2, .f32⟩
  | .hbm, ⟨9, _⟩ => ⟨S1x3200000, .i32⟩
  | .hbm, ⟨10, _⟩ => ⟨S3200000, .i32⟩
  | .hbm, ⟨11, _⟩ => ⟨S1x3200000, .i32⟩
  | .hbm, ⟨12, _⟩ => ⟨S3200000, .i32⟩
  | .hbm, ⟨13, _⟩ => ⟨S100000, .i32⟩
  | .hbm, ⟨14, _⟩ => ⟨S3300000, .i32⟩
  | .hbm, ⟨15, _⟩ => ⟨S3300000, .i32⟩
  | .hbm, ⟨16, _⟩ => ⟨S_, .f32⟩
  | .hbm, ⟨17, _⟩ => ⟨S3300000, .f32⟩
  | .hbm, ⟨18, _⟩ => ⟨S_, .f32⟩
  | .hbm, ⟨19, _⟩ => ⟨S100000, .f32⟩
  | .hbm, ⟨20, _⟩ => ⟨S3300000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000x1, .f32⟩
  | .hbm, ⟨31, _⟩ => ⟨S100000, .f32⟩
  | .hbm, ⟨32, _⟩ => ⟨S100000, .f32⟩
  | .hbm, ⟨33, _⟩ => ⟨S_, .i32⟩
  | .hbm, ⟨34, _⟩ => ⟨S3300000, .i32⟩
  | .hbm, ⟨35, _⟩ => ⟨S3300000, .i1⟩
  | .hbm, ⟨36, _⟩ => ⟨S_, .i32⟩
  | .hbm, ⟨37, _⟩ => ⟨S3300000, .i32⟩
  | .hbm, ⟨38, _⟩ => ⟨S3300000, .i32⟩
  | .hbm, ⟨39, _⟩ => ⟨S3300000, .i32⟩
  | .hbm, ⟨40, _⟩ => ⟨S3300000x1, .i32⟩
  | .hbm, ⟨41, _⟩ => ⟨S3300000, .f32⟩
  | .hbm, ⟨42, _⟩ => ⟨S_, .f32⟩
  | .hbm, ⟨43, _⟩ => ⟨S100000, .f32⟩
  | .hbm, ⟨44, _⟩ => ⟨S3300000x1, .i32⟩
  | .hbm, ⟨45, _⟩ => ⟨S100000, .f32⟩
  | .hbm, ⟨46, _⟩ => ⟨S100000x1, .f32⟩
  | .hbm, ⟨47, _⟩ => ⟨S1x50, .f32⟩
  | .hbm, ⟨48, _⟩ => ⟨S100000x50, .f32⟩
  | .hbm, ⟨49, _⟩ => ⟨S100000x50, .f32⟩
  | .hbm, ⟨50, _⟩ => ⟨S_, .i32⟩
  | .hbm, ⟨51, _⟩ => ⟨S3300000, .i32⟩
  | .hbm, ⟨52, _⟩ => ⟨S3300000, .i1⟩
  | .hbm, ⟨53, _⟩ => ⟨S_, .i32⟩
  | .hbm, ⟨54, _⟩ => ⟨S3300000, .i32⟩
  | .hbm, ⟨55, _⟩ => ⟨S3300000, .i32⟩
  | .hbm, ⟨56, _⟩ => ⟨S3300000, .i32⟩
  | .hbm, ⟨57, _⟩ => ⟨S3300000x1, .i32⟩
  | .hbm, ⟨58, _⟩ => ⟨S3300000x50, .f32⟩
  | .hbm, ⟨59, _⟩ => ⟨S_, .f32⟩
  | .hbm, ⟨60, _⟩ => ⟨S100000x50, .f32⟩
  | .hbm, ⟨61, _⟩ => ⟨S3300000x1, .i32⟩
  | .hbm, ⟨62, _⟩ => ⟨S100000x50, .f32⟩
  | .hbm, ⟨63, _⟩ => ⟨S1x50, .f32⟩
  | .hbm, ⟨64, _⟩ => ⟨S100000x50, .f32⟩
  | .hbm, ⟨65, _⟩ => ⟨S_, .f32⟩
  | .hbm, ⟨66, _⟩ => ⟨S100000, .f32⟩
  | .hbm, ⟨67, _⟩ => ⟨S_, .f32⟩
  | .hbm, ⟨68, _⟩ => ⟨S128, .f32⟩
  | .hbm, ⟨69, _⟩ => ⟨S100000x1, .i32⟩
  | .hbm, ⟨70, _⟩ => ⟨S128, .f32⟩
  | .hbm, ⟨71, _⟩ => ⟨S128x1, .f32⟩
  | .hbm, ⟨72, _⟩ => ⟨S100000x1, .i32⟩
  | .hbm, ⟨73, _⟩ => ⟨S1x2, .f32⟩
  | .hbm, ⟨74, _⟩ => ⟨S128x2, .f32⟩
  | .local _ .vmem, ⟨0, _⟩ => ⟨S5000x1, .f32⟩
  | .local _ .vmem, ⟨1, _⟩ => ⟨S5000x1, .f32⟩
  | .local _ .vmem, ⟨2, _⟩ => ⟨S5000x1, .f32⟩
  | .local _ .vmem, ⟨3, _⟩ => ⟨S5000x1, .f32⟩
  | .local _ .vmem, ⟨4, _⟩ => ⟨S1x50, .f32⟩
  | .local _ .vmem, ⟨5, _⟩ => ⟨S1x50, .f32⟩
  | .local _ .vmem, ⟨6, _⟩ => ⟨S5000x50, .f32⟩
  | .local _ .vmem, ⟨7, _⟩ => ⟨S5000x50, .f32⟩
  | .local _ .vmem, ⟨8, _⟩ => ⟨S10000x50, .f32⟩
  | .local _ .vmem, ⟨9, _⟩ => ⟨S10000x50, .f32⟩
  | .local _ .vmem, ⟨10, _⟩ => ⟨S50x50, .f32⟩
  | .local _ .vmem, ⟨11, _⟩ => ⟨S10000x1, .f32⟩
  | .local _ .vmem, ⟨12, _⟩ => ⟨S10000x1, .f32⟩
  | .local _ .vmem, ⟨13, _⟩ => ⟨S10000x50, .f32⟩
  | .local _ .vmem, ⟨14, _⟩ => ⟨S10000x50, .f32⟩
  | .local _ .vmem, ⟨15, _⟩ => ⟨S10000x50, .f32⟩
  | .local _ .vmem, ⟨16, _⟩ => ⟨S10000x50, .f32⟩
  | .local _ .vmem, ⟨17, _⟩ => ⟨S1x50, .f32⟩
  | .local _ .vmem, ⟨18, _⟩ => ⟨S10000x1, .f32⟩
  | .local _ .vmem, ⟨19, _⟩ => ⟨S10000x1, .f32⟩
  | .local _ .vmem, ⟨20, _⟩ => ⟨S10000x50, .f32⟩
  | .local _ .vmem, ⟨21, _⟩ => ⟨S10000x50, .f32⟩
  | .local _ .vmem, ⟨22, _⟩ => ⟨S10000x50, .f32⟩
  | .local _ .vmem, ⟨23, _⟩ => ⟨S10000x50, .f32⟩
  | .local _ .vmem, ⟨24, _⟩ => ⟨S10000x1, .i32⟩
  | .local _ .vmem, ⟨25, _⟩ => ⟨S10000x1, .i32⟩
  | .local _ .vmem, ⟨26, _⟩ => ⟨S128x1, .f32⟩
  | .local _ .vmem, ⟨27, _⟩ => ⟨S50x2, .f32⟩
  | .local _ .vmem, ⟨28, _⟩ => ⟨S1x2, .f32⟩
  | .local _ .vmem, ⟨29, _⟩ => ⟨S128x2, .f32⟩
  | .local _ .vmem, ⟨30, _⟩ => ⟨S128x50, .f32⟩
  | _, _ => ⟨S100000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c : Ref sig .tc := ⟨.hbm, 33, rfl⟩
abbrev main_v18 : Ref sig .tc := ⟨.hbm, 34, rfl⟩
abbrev main_v19 : Ref sig .tc := ⟨.hbm, 35, rfl⟩
abbrev main_c_3 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_4 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_5 : Ref sig .tc := ⟨.hbm, 50, rfl⟩
abbrev main_v32 : Ref sig .tc := ⟨.hbm, 51, rfl⟩
abbrev main_v33 : Ref sig .tc := ⟨.hbm, 52, rfl⟩
abbrev main_c_6 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_7 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_8 : Ref sig .tc := ⟨.hbm, 65, rfl⟩
abbrev main_v44 : Ref sig .tc := ⟨.hbm, 66, rfl⟩
abbrev main_cst_9 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg3_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg5_0 : Ref sig .tc := ⟨.vmem, 29, rfl⟩
abbrev cc3_scratch0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc1_sem3_0 : DmaSem sig := 13
abbrev cc1_sem3_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem2_1 : DmaSem sig := 19
abbrev cc2_sem3_0 : DmaSem sig := 20
abbrev cc2_sem3_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem3_0 : DmaSem sig := 27
abbrev cc3_sem4_0 : DmaSem sig := 28
abbrev cc3_sem5_0 : DmaSem sig := 29

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x50 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x50 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x50 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x50 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S50x50 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S10000x50 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x50 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x50 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S10000x50 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def k3_cond2 (i : grid3.Coords) : BitVec 1 :=
  let arg0 : BitVec 32 := BitVec.ofNat 32 (i 0).val
  let c9_i32 : BitVec 32 := 9#32
  let v18 : BitVec 1 := Scalar.cmpi .eq arg0 c9_i32
  let v19 : BitVec 32 := Scalar.extui v18
  let c0_i32_8 : BitVec 32 := 0#32
  let v20 : BitVec 1 := Scalar.cmpi .ne v19 c0_i32_8
  v20

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S10000x50 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x1 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S50x2 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x2 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x2 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S100000_S100000x1_0 : S100000.BroadcastsInDim S100000x1 (![0] : Fin 1 → Fin S100000x1.rank)
  shapeCasts_S100000x1_S100000 : S100000x1.ShapeCasts S100000
  shapeCasts_S50_S1x50 : S50.ShapeCasts S1x50
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x50 : S5000x1.Broadcasts S5000x50
  inb_S1x50_S1x50_0_0 : ∀ a, (![0, 0] : Fin 2 → Nat) a + S1x50.size a ≤ S1x50.size a
  h_S1x50 : 0 < S1x50.numel
  shapeCasts_S1x50_S1x50 : S1x50.ShapeCasts S1x50
  broadcasts_S1x50_S5000x50 : S1x50.Broadcasts S5000x50
  inb_S5000x50_S5000x50_0_0 : ∀ a, (![0, 0] : Fin 2 → Nat) a + S5000x50.size a ≤ S5000x50.size a
  h_S5000x50 : 0 < S5000x50.numel
  inb_S10000x50_S10000x50_0_0 : ∀ a, (![0, 0] : Fin 2 → Nat) a + S10000x50.size a ≤ S10000x50.size a
  h_S10000x50 : 0 < S10000x50.numel
  shapeCasts_S10000x50_S10000x50 : S10000x50.ShapeCasts S10000x50
  inb_S50x50_S50x50_0_0 : ∀ a, (![0, 0] : Fin 2 → Nat) a + S50x50.size a ≤ S50x50.size a
  h_S50x50 : 0 < S50x50.numel
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x50 : S10000x1.Broadcasts S10000x50
  bcast_S_S100000x50 : S_.BroadcastsInDim S100000x50 (![] : Fin 0 → Fin S100000x50.rank)
  broadcasts_S1x50_S10000x50 : S1x50.Broadcasts S10000x50
  bcast_S_S128 : S_.BroadcastsInDim S128 (![] : Fin 0 → Fin S128.rank)
  bcast_S128_S128x1_0 : S128.BroadcastsInDim S128x1 (![0] : Fin 1 → Fin S128x1.rank)
  shapeCasts_S2_S1x2 : S2.ShapeCasts S1x2
  inb_S128x50_S128x50_0_0 : ∀ a, (![0, 0] : Fin 2 → Nat) a + S128x50.size a ≤ S128x50.size a
  h_S128x50 : 0 < S128x50.numel
  shapeCasts_S128x50_S128x50 : S128x50.ShapeCasts S128x50
  iota_S10000x128_d1_w32 : S10000x128.Iotas .tc 32 [1]
  broadcasts_S10000x1_S10000x128 : S10000x1.Broadcasts S10000x128
  natLt_1_32 : 1 < 32
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x50 : S128x1.Broadcasts S128x50
  inb_S50x2_S50x2_0_0 : ∀ a, (![0, 0] : Fin 2 → Nat) a + S50x2.size a ≤ S50x2.size a
  h_S50x2 : 0 < S50x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S128x2 : S1x2.Broadcasts S128x2
  inb_S128x2_S128x2_0_0 : ∀ a, (![0, 0] : Fin 2 → Nat) a + S128x2.size a ≤ S128x2.size a
  h_S128x2 : 0 < S128x2.numel
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x50_S50x50_S10000x50_1_0_0_1_n_n_wf : DotDims.WF S10000x50 S50x50 S10000x50 [1] [0] [0] [1] [] []
  gather_S100000x50_S3300000x1_S3300000x50_1_0_n_n_0_1_150_wf : GatherDims.WF S100000x50 S3300000x1 S3300000x50 [1] [0] [] [0] [] 1 ![1, 50]
  scatter_S100000x50_S3300000x1_S3300000x50_1_0_0_1_wf : ScatterDims.WF S100000x50 S3300000x1 S3300000x50 [1] [0] [0] 1
  scatter_S128_S100000x1_S100000_n_0_0_1_wf : ScatterDims.WF S128 S100000x1 S100000 [] [0] [0] 1
  dot_S10000x128_S10000x50_S128x50_0_0_1_1_n_n_wf : DotDims.WF S10000x128 S10000x50 S128x50 [0] [0] [1] [1] [] []
  dot_S128x50_S50x2_S128x2_1_0_0_1_n_n_wf : DotDims.WF S128x50 S50x2 S128x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x1.size a ≤ S100000x1.size a
  hwx0_0 : ∀ i : grid0.Coords, EltTy.bits .f32 = 32 ∨ (Rect.block (s := S100000x1) S5000x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x50.size a ≤ S1x50.size a
  hwx0_2 : ∀ i : grid0.Coords, EltTy.bits .f32 = 32 ∨ (Rect.block (s := S1x50) S1x50.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x50.size a ≤ S1x50.size a
  hwx0_3 : ∀ i : grid0.Coords, EltTy.bits .f32 = 32 ∨ (Rect.block (s := S1x50) S1x50.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x50.size a ≤ S100000x50.size a
  hwx0_4 : ∀ i : grid0.Coords, EltTy.bits .f32 = 32 ∨ (Rect.block (s := S100000x50) S5000x50.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x50.size a ≤ S100000x50.size a
  hwx1_0 : ∀ i : grid1.Coords, EltTy.bits .f32 = 32 ∨ (Rect.block (s := S100000x50) S10000x50.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S50x50.size a ≤ S50x50.size a
  hwx1_1 : ∀ i : grid1.Coords, EltTy.bits .f32 = 32 ∨ (Rect.block (s := S50x50) S50x50.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S100000x1.size a
  hwx1_2 : ∀ i : grid1.Coords, EltTy.bits .f32 = 32 ∨ (Rect.block (s := S100000x1) S10000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x50.size a ≤ S100000x50.size a
  hwx1_3 : ∀ i : grid1.Coords, EltTy.bits .f32 = 32 ∨ (Rect.block (s := S100000x50) S10000x50.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x50.size a ≤ S100000x50.size a
  hwx2_0 : ∀ i : grid2.Coords, EltTy.bits .f32 = 32 ∨ (Rect.block (s := S100000x50) S10000x50.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x50.size a ≤ S1x50.size a
  hwx2_1 : ∀ i : grid2.Coords, EltTy.bits .f32 = 32 ∨ (Rect.block (s := S1x50) S1x50.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x1.size a ≤ S100000x1.size a
  hwx2_2 : ∀ i : grid2.Coords, EltTy.bits .f32 = 32 ∨ (Rect.block (s := S100000x1) S10000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x50.size a ≤ S100000x50.size a
  hwx2_3 : ∀ i : grid2.Coords, EltTy.bits .f32 = 32 ∨ (Rect.block (s := S100000x50) S10000x50.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x50.size a ≤ S100000x50.size a
  hwx3_0 : ∀ i : grid3.Coords, EltTy.bits .f32 = 32 ∨ (Rect.block (s := S100000x50) S10000x50.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x1.size a ≤ S100000x1.size a
  hwx3_1 : ∀ i : grid3.Coords, EltTy.bits .i32 = 32 ∨ (Rect.block (s := S100000x1) S10000x1.size (cc3_transform_1 i) (hinb3_1 i)).WholeWords (EltTy.packing .i32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x1.size a ≤ S128x1.size a
  hwx3_2 : ∀ i : grid3.Coords, EltTy.bits .f32 = 32 ∨ (Rect.block (s := S128x1) S128x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S50x2.size a ≤ S50x2.size a
  hwx3_3 : ∀ i : grid3.Coords, EltTy.bits .f32 = 32 ∨ (Rect.block (s := S50x2) S50x2.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x2.size a ≤ S1x2.size a
  hwx3_4 : ∀ i : grid3.Coords, EltTy.bits .f32 = 32 ∨ (Rect.block (s := S1x2) S1x2.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x2.size a ≤ S128x2.size a
  hwx3_5 : ∀ i : grid3.Coords, EltTy.bits .f32 = 32 ∨ (Rect.block (s := S128x2) S128x2.size (cc3_transform_5 i) (hinb3_5 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x50_S50x50_S10000x50_1_0_0_1_n_n : DotDims S10000x50 S50x50 S10000x50 where
  lhsContracting := [1]
  rhsContracting := [0]
  lhsNonContracting := [0]
  rhsNonContracting := [1]
  lhsBatch := []
  rhsBatch := []
  wf := dot_S10000x50_S50x50_S10000x50_1_0_0_1_n_n_wf
def gather_S100000x50_S3300000x1_S3300000x50_1_0_n_n_0_1_150 : GatherDims S100000x50 S3300000x1 S3300000x50 where
  offsetDims := [1]
  collapsedSliceDims := [0]
  operandBatchingDims := []
  startIndicesBatchingDims := []
  startIndexMap := [0]
  indexVectorDim := 1
  sliceSizes := ![1, 50]
  wf := gather_S100000x50_S3300000x1_S3300000x50_1_0_n_n_0_1_150_wf
def scatter_S100000x50_S3300000x1_S3300000x50_1_0_0_1 : ScatterDims S100000x50 S3300000x1 S3300000x50 where
  updateWindowDims := [1]
  insertedWindowDims := [0]
  scatterDimsToOperandDims := [0]
  indexVectorDim := 1
  wf := scatter_S100000x50_S3300000x1_S3300000x50_1_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def dot_S10000x128_S10000x50_S128x50_0_0_1_1_n_n : DotDims S10000x128 S10000x50 S128x50 where
  lhsContracting := [0]
  rhsContracting := [0]
  lhsNonContracting := [1]
  rhsNonContracting := [1]
  lhsBatch := []
  rhsBatch := []
  wf := dot_S10000x128_S10000x50_S128x50_0_0_1_1_n_n_wf
def dot_S128x50_S50x2_S128x2_1_0_0_1_n_n : DotDims S128x50 S50x2 S128x2 where
  lhsContracting := [1]
  rhsContracting := [0]
  lhsNonContracting := [0]
  rhsNonContracting := [1]
  lhsBatch := []
  rhsBatch := []
  wf := dot_S128x50_S50x2_S128x2_1_0_0_1_n_n_wf

abbrev win0_0 : Pipeline.Window sig grid0 :=
  Pipeline.Window.ofSpec (Memref.whole main_v28) S5000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1x50.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v29) S1x50.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v30) S5000x50.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v30) S10000x50.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S50x50.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S10000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v31) S10000x50.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v41) S10000x50.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v42) S1x50.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v15) S10000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v43) S10000x50.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v43) S10000x50.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v49) S10000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v48) S128x1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg7) S50x2.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v50) S1x2.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v51) S128x2.size cc3_transform_5 reads3_5 true true 1 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev idle3 : Fin 6 → grid3.Coords → Bool := fun | 0 => fun _ => false | 1 => fun _ => false | 2 => fun _ => false | 3 => fun _ => false | 4 => fun _ => false | 5 => fun i => !(k3_cond2 i == 1#1) | ⟨_ + 6, h⟩ => absurd h (Nat.not_lt.2 (Nat.le_add_left _ _))

class Facts : Prop extends Facts₀ where

variable [Facts]
-- ==== ReferenceIdeal.lean ====
abbrev S100000x1 : Shape := ⟨2, ![100000, 1]⟩
abbrev S2x3200000 : Shape := ⟨2, ![2, 3200000]⟩
abbrev S100000 : Shape := ⟨1, ![100000]⟩
abbrev S1x50 : Shape := ⟨2, ![1, 50]⟩
abbrev S50 : Shape := ⟨1, ![50]⟩
abbrev S50x50 : Shape := ⟨2, ![50, 50]⟩
abbrev S50x2 : Shape := ⟨2, ![50, 2]⟩
abbrev S2 : Shape := ⟨1, ![2]⟩
abbrev S1x3200000 : Shape := ⟨2, ![1, 3200000]⟩
abbrev S3200000 : Shape := ⟨1, ![3200000]⟩
abbrev S100000x50 : Shape := ⟨2, ![100000, 50]⟩
abbrev S3300000 : Shape := ⟨1, ![3300000]⟩
abbrev S_ : Shape := ⟨0, ![]⟩
abbrev S3300000x1 : Shape := ⟨2, ![3300000, 1]⟩
abbrev S3300000x50 : Shape := ⟨2, ![3300000, 50]⟩
abbrev S128x50 : Shape := ⟨2, ![128, 50]⟩
abbrev S128 : Shape := ⟨1, ![128]⟩
abbrev S128x1 : Shape := ⟨2, ![128, 1]⟩
abbrev S128x2 : Shape := ⟨2, ![128, 2]⟩
abbrev S1x2 : Shape := ⟨2, ![1, 2]⟩

abbrev nBuf : Space → Nat
  | .hbm => 151
  | .vmem => 0
  | .smem => 0
  | _ => 0

abbrev hbmTy0_0 (i : Nat) : BufTy := match i % 128 with
  | 0 => ⟨S100000x1, .f32⟩
  | 1 => ⟨S2x3200000, .i32⟩
  | 2 => ⟨S100000, .i32⟩
  | 3 => ⟨S1x50, .f32⟩
  | 4 => ⟨S50, .f32⟩
  | 5 => ⟨S50x50, .f32⟩
  | 6 => ⟨S50, .f32⟩
  | 7 => ⟨S50x2, .f32⟩
  | 8 => ⟨S2, .f32⟩
  | 9 => ⟨S1x3200000, .i32⟩
  | 10 => ⟨S3200000, .i32⟩
  | 11 => ⟨S1x3200000, .i32⟩
  | 12 => ⟨S3200000, .i32⟩
  | 13 => ⟨S100000x50, .f32⟩
  | 14 => ⟨S100000, .i32⟩
  | 15 => ⟨S3300000, .i32⟩
  | 16 => ⟨S3300000, .i32⟩
  | 17 => ⟨S_, .f32⟩
  | 18 => ⟨S3300000, .f32⟩
  | 19 => ⟨S_, .f32⟩
  | 20 => ⟨S100000, .f32⟩
  | 21 => ⟨S3300000x1, .i32⟩
  | 22 => ⟨S100000, .f32⟩
  | 23 => ⟨S_, .f32⟩
  | 24 => ⟨S100000, .f32⟩
  | 25 => ⟨S100000, .i1⟩
  | 26 => ⟨S100000, .f32⟩
  | 27 => ⟨S_, .f32⟩
  | 28 => ⟨S_, .f32⟩
  | 29 => ⟨S100000, .f32⟩
  | 30 => ⟨S100000, .f32⟩
  | 31 => ⟨S_, .i32⟩
  | 32 => ⟨S3300000, .i32⟩
  | 33 => ⟨S3300000, .i1⟩
  | 34 => ⟨S_, .i32⟩
  | 35 => ⟨S3300000, .i32⟩
  | 36 => ⟨S3300000, .i32⟩
  | 37 => ⟨S3300000, .i32⟩
  | 38 => ⟨S3300000x1, .i32⟩
  | 39 => ⟨S3300000, .f32⟩
  | 40 => ⟨S_, .i32⟩
  | 41 => ⟨S3300000, .i32⟩
  | 42 => ⟨S3300000, .i1⟩
  | 43 => ⟨S_, .i32⟩
  | 44 => ⟨S3300000, .i32⟩
  | 45 => ⟨S3300000, .i32⟩
  | 46 => ⟨S3300000, .i32⟩
  | 47 => ⟨S3300000x1, .i32⟩
  | 48 => ⟨S3300000, .f32⟩
  | 49 => ⟨S3300000, .f32⟩
  | 50 => ⟨S_, .i32⟩
  | 51 => ⟨S3300000, .i32⟩
  | 52 => ⟨S3300000, .i1⟩
  | 53 => ⟨S_, .i32⟩
  | 54 => ⟨S3300000, .i32⟩
  | 55 => ⟨S3300000, .i32⟩
  | 56 => ⟨S3300000, .i32⟩
  | 57 => ⟨S3300000x1, .i32⟩
  | 58 => ⟨S3300000x50, .f32⟩
  | 59 => ⟨S3300000x1, .f32⟩
  | 60 => ⟨S3300000x50, .f32⟩
  | 61 => ⟨S3300000x50, .f32⟩
  | 62 => ⟨S_, .f32⟩
  | 63 => ⟨S100000x50, .f32⟩
  | 64 => ⟨S3300000x1, .i32⟩
  | 65 => ⟨S100000x50, .f32⟩
  | 66 => ⟨S1x50, .f32⟩
  | 67 => ⟨S100000x50, .f32⟩
  | 68 => ⟨S100000x50, .f32⟩
  | 69 => ⟨S_, .f32⟩
  | 70 => ⟨S100000x50, .f32⟩
  | 71 => ⟨S100000x50, .f32⟩
  | 72 => ⟨S100000x50, .f32⟩
  | 73 => ⟨S100000, .i32⟩
  | 74 => ⟨S3300000, .i32⟩
  | 75 => ⟨S3300000, .i32⟩
  | 76 => ⟨S_, .f32⟩
  | 77 => ⟨S3300000, .f32⟩
  | 78 => ⟨S_, .f32⟩
  | 79 => ⟨S100000, .f32⟩
  | 80 => ⟨S3300000x1, .i32⟩
  | 81 => ⟨S100000, .f32⟩
  | 82 => ⟨S_, .f32⟩
  | 83 => ⟨S100000, .f32⟩
  | 84 => ⟨S100000, .i1⟩
  | 85 => ⟨S100000, .f32⟩
  | 86 => ⟨S_, .f32⟩
  | 87 => ⟨S_, .f32⟩
  | 88 => ⟨S100000, .f32⟩
  | 89 => ⟨S100000, .f32⟩
  | 90 => ⟨S_, .i32⟩
  | 91 => ⟨S3300000, .i32⟩
  | 92 => ⟨S3300000, .i1⟩
  | 93 => ⟨S_, .i32⟩
  | 94 => ⟨S3300000, .i32⟩
  | 95 => ⟨S3300000, .i32⟩
  | 96 => ⟨S3300000, .i32⟩
  | 97 => ⟨S3300000x1, .i32⟩
  | 98 => ⟨S3300000, .f32⟩
  | 99 => ⟨S_, .i32⟩
  | 100 => ⟨S3300000, .i32⟩
  | 101 => ⟨S3300000, .i1⟩
  | 102 => ⟨S_, .i32⟩
  | 103 => ⟨S3300000, .i32⟩
  | 104 => ⟨S3300000, .i32⟩
  | 105 => ⟨S3300000, .i32⟩
  | 106 => ⟨S3300000x1, .i32⟩
  | 107 => ⟨S3300000, .f32⟩
  | 108 => ⟨S3300000, .f32⟩
  | 109 => ⟨S_, .i32⟩
  | 110 => ⟨S3300000, .i32⟩
  | 111 => ⟨S3300000, .i1⟩
  | 112 => ⟨S_, .i32⟩
  | 113 => ⟨S3300000, .i32⟩
  | 114 => ⟨S3300000, .i32⟩
  | 115 => ⟨S3300000, .i32⟩
  | 116 => ⟨S3300000x1, .i32⟩
  | 117 => ⟨S3300000x50, .f32⟩
  | 118 => ⟨S3300000x1, .f32⟩
  | 119 => ⟨S3300000x50, .f32⟩
  | 120 => ⟨S3300000x50, .f32⟩
  | 121 => ⟨S_, .f32⟩
  | 122 => ⟨S100000x50, .f32⟩
  | 123 => ⟨S3300000x1, .i32⟩
  | 124 => ⟨S100000x50, .f32⟩
  | 125 => ⟨S1x50, .f32⟩
  | 126 => ⟨S100000x50, .f32⟩
  | 127 => ⟨S100000x50, .f32⟩
  | _ => ⟨S100000x1, .f32⟩

abbrev hbmTy0_1 (i : Nat) : BufTy := match i % 128 with
  | 0 => ⟨S_, .f32⟩
  | 1 => ⟨S100000x50, .f32⟩
  | 2 => ⟨S100000x50, .f32⟩
  | 3 => ⟨S_, .f32⟩
  | 4 => ⟨S128x50, .f32⟩
  | 5 => ⟨S100000x1, .i32⟩
  | 6 => ⟨S128x50, .f32⟩
  | 7 => ⟨S_, .f32⟩
  | 8 => ⟨S100000, .f32⟩
  | 9 => ⟨S_, .f32⟩
  | 10 => ⟨S128, .f32⟩
  | 11 => ⟨S100000x1, .i32⟩
  | 12 => ⟨S128, .f32⟩
  | 13 => ⟨S_, .f32⟩
  | 14 => ⟨S128, .f32⟩
  | 15 => ⟨S128, .f32⟩
  | 16 => ⟨S128x1, .f32⟩
  | 17 => ⟨S128x50, .f32⟩
  | 18 => ⟨S128x50, .f32⟩
  | 19 => ⟨S128x2, .f32⟩
  | 20 => ⟨S1x2, .f32⟩
  | 21 => ⟨S128x2, .f32⟩
  | 22 => ⟨S128x2, .f32⟩
  | _ => ⟨S100000x1, .f32⟩

abbrev hbmTy (i : Nat) : BufTy := match i / 128 with
  | 0 => hbmTy0_0 i
  | 1 => hbmTy0_1 i
  | _ => ⟨S100000x1, .f32⟩

abbrev bufTy : (tb : Table) → Fin (tcTables nBuf tb) → BufTy
  | .hbm, ⟨i, _⟩ => hbmTy i
  | _, _ => ⟨S100000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call1_cst : Ref sig .tc := ⟨.hbm, 69, rfl⟩
abbrev main_call1_v0 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_9 : Ref sig .tc := ⟨.hbm, 76, rfl⟩
abbrev main_v52 : Ref sig .tc := ⟨.hbm, 77, rfl⟩
abbrev main_cst_10 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_11 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_12 : Ref sig .tc := ⟨.hbm, 86, rfl⟩
abbrev main_call2_v0 : Ref sig .tc := ⟨.hbm, 87, rfl⟩
abbrev main_call2_v1 : Ref sig .tc := ⟨.hbm, 88, rfl⟩
abbrev main_v59 : Ref sig .tc := ⟨.hbm, 89, rfl⟩
abbrev main_c_13 : Ref sig .tc := ⟨.hbm, 90, rfl⟩
abbrev main_v60 : Ref sig .tc := ⟨.hbm, 91, rfl⟩
abbrev main_v61 : Ref sig .tc := ⟨.hbm, 92, rfl⟩
abbrev main_c_14 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_c_15 : Ref sig .tc := ⟨.hbm, 99, rfl⟩
abbrev main_v67 : Ref sig .tc := ⟨.hbm, 100, rfl⟩
abbrev main_v68 : Ref sig .tc := ⟨.hbm, 101, rfl⟩
abbrev main_c_16 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_c_17 : Ref sig .tc := ⟨.hbm, 109, rfl⟩
abbrev main_v75 : Ref sig .tc := ⟨.hbm, 110, rfl⟩
abbrev main_v76 : Ref sig .tc := ⟨.hbm, 111, rfl⟩
abbrev main_c_18 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_cst_19 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_call3_cst : Ref sig .tc := ⟨.hbm, 128, rfl⟩
abbrev main_call3_v0 : Ref sig .tc := ⟨.hbm, 129, rfl⟩
abbrev main_v91 : Ref sig .tc := ⟨.hbm, 130, rfl⟩
abbrev main_cst_20 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_cst_21 : Ref sig .tc := ⟨.hbm, 135, rfl⟩
abbrev main_v95 : Ref sig .tc := ⟨.hbm, 136, rfl⟩
abbrev main_cst_22 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_cst_23 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x50_0_1 : S3300000x1.BroadcastsInDim S3300000x50 (![0, 1] : Fin 2 → Fin S3300000x50.rank)
  bcast_S_S100000x50 : S_.BroadcastsInDim S100000x50 (![] : Fin 0 → Fin S100000x50.rank)
  bcast_S50_S1x50_1 : S50.BroadcastsInDim S1x50 (![1] : Fin 1 → Fin S1x50.rank)
  bcast_S1x50_S100000x50_0_1 : S1x50.BroadcastsInDim S100000x50 (![0, 1] : Fin 2 → Fin S100000x50.rank)
  bcast_S_S128x50 : S_.BroadcastsInDim S128x50 (![] : Fin 0 → Fin S128x50.rank)
  bcast_S100000_S100000x1_0 : S100000.BroadcastsInDim S100000x1 (![0] : Fin 1 → Fin S100000x1.rank)
  bcast_S_S128 : S_.BroadcastsInDim S128 (![] : Fin 0 → Fin S128.rank)
  bcast_S128_S128x1_0 : S128.BroadcastsInDim S128x1 (![0] : Fin 1 → Fin S128x1.rank)
  bcast_S128x1_S128x50_0_1 : S128x1.BroadcastsInDim S128x50 (![0, 1] : Fin 2 → Fin S128x50.rank)
  bcast_S2_S1x2_1 : S2.BroadcastsInDim S1x2 (![1] : Fin 1 → Fin S1x2.rank)
  bcast_S1x2_S128x2_0_1 : S1x2.BroadcastsInDim S128x2 (![0, 1] : Fin 2 → Fin S128x2.rank)
  dot_S100000x1_S1x50_S100000x50_1_0_0_1_n_n_wf : DotDims.WF S100000x1 S1x50 S100000x50 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x50_S3300000x1_S3300000x50_1_0_n_n_0_1_150_wf : GatherDims.WF S100000x50 S3300000x1 S3300000x50 [1] [0] [] [0] [] 1 ![1, 50]
  scatter_S100000x50_S3300000x1_S3300000x50_1_0_0_1_wf : ScatterDims.WF S100000x50 S3300000x1 S3300000x50 [1] [0] [0] 1
  dot_S100000x50_S50x50_S100000x50_1_0_0_1_n_n_wf : DotDims.WF S100000x50 S50x50 S100000x50 [1] [0] [0] [1] [] []
  scatter_S128x50_S100000x1_S100000x50_1_0_0_1_wf : ScatterDims.WF S128x50 S100000x1 S100000x50 [1] [0] [0] 1
  scatter_S128_S100000x1_S100000_n_0_0_1_wf : ScatterDims.WF S128 S100000x1 S100000 [] [0] [0] 1
  dot_S128x50_S50x2_S128x2_1_0_0_1_n_n_wf : DotDims.WF S128x50 S50x2 S128x2 [1] [0] [0] [1] [] []

variable [Facts₀]

def dot_S100000x1_S1x50_S100000x50_1_0_0_1_n_n : DotDims S100000x1 S1x50 S100000x50 where
  lhsContracting := [1]
  rhsContracting := [0]
  lhsNonContracting := [0]
  rhsNonContracting := [1]
  lhsBatch := []
  rhsBatch := []
  wf := dot_S100000x1_S1x50_S100000x50_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x50_S3300000x1_S3300000x50_1_0_n_n_0_1_150 : GatherDims S100000x50 S3300000x1 S3300000x50 where
  offsetDims := [1]
  collapsedSliceDims := [0]
  operandBatchingDims := []
  startIndicesBatchingDims := []
  startIndexMap := [0]
  indexVectorDim := 1
  sliceSizes := ![1, 50]
  wf := gather_S100000x50_S3300000x1_S3300000x50_1_0_n_n_0_1_150_wf
def scatter_S100000x50_S3300000x1_S3300000x50_1_0_0_1 : ScatterDims S100000x50 S3300000x1 S3300000x50 where
  updateWindowDims := [1]
  insertedWindowDims := [0]
  scatterDimsToOperandDims := [0]
  indexVectorDim := 1
  wf := scatter_S100000x50_S3300000x1_S3300000x50_1_0_0_1_wf
def dot_S100000x50_S50x50_S100000x50_1_0_0_1_n_n : DotDims S100000x50 S50x50 S100000x50 where
  lhsContracting := [1]
  rhsContracting := [0]
  lhsNonContracting := [0]
  rhsNonContracting := [1]
  lhsBatch := []
  rhsBatch := []
  wf := dot_S100000x50_S50x50_S100000x50_1_0_0_1_n_n_wf
def scatter_S128x50_S100000x1_S100000x50_1_0_0_1 : ScatterDims S128x50 S100000x1 S100000x50 where
  updateWindowDims := [1]
  insertedWindowDims := [0]
  scatterDimsToOperandDims := [0]
  indexVectorDim := 1
  wf := scatter_S128x50_S100000x1_S100000x50_1_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def dot_S128x50_S50x2_S128x2_1_0_0_1_n_n : DotDims S128x50 S50x2 S128x2 where
  lhsContracting := [1]
  rhsContracting := [0]
  lhsNonContracting := [0]
  rhsNonContracting := [1]
  lhsBatch := []
  rhsBatch := []
  wf := dot_S128x50_S50x2_S128x2_1_0_0_1_n_n_wf

class Facts : Prop extends Facts₀ where

variable [Facts]
-- ==== Proof.BitsRegion0.lean ====
import proofs.«410242_j1185410974040_3_alg».proof.Proof.Gen.Kernel.Launch
import proofs.«410242_j1185410974040_3_alg».proof.Proof.Gen.Kernel.Skeleton
import proofs.«410242_j1185410974040_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode
open Idealize.ShloMosaic.Pipeline (Dat BodyObligation)

variable {F : FTy → Type} [FloatOps F]

variable (V : (c : Dev nD) → (b : Ref sig .tc) → Buf (Elt F) ((c : Thread nD τ).loc b))

noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_col : Rect S5000x1 := Rect.unit (s := S5000x1) ![0, 0] S5000x1.size inb_S5000x1_S5000x1_0_0
abbrev r0_row : Rect S1x50 := Rect.unit (s := S1x50) ![0, 0] S1x50.size inb_S1x50_S1x50_0_0
abbrev r0_out : Rect S5000x50 := Rect.unit (s := S5000x50) ![0, 0] S5000x50.size inb_S5000x50_S5000x50_0_0

def out0_4 (x0 : Vec F S5000x1 .f32) (x1 : Vec F S5000x1 .f32) (x2 : Vec F S1x50 .f32) (x3 : Vec F S1x50 .f32) : Vec F S5000x50 .f32 :=
  View.canon [⟨r0_out, k0_pay1 (View.ld x0 r0_col) (View.ld x2 r0_row) (View.ld x1 r0_col) (View.ld x3 r0_row)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_4 (c : Dev nD) (t : Fin cfg0.N) : (dat0 V c).after 4 t = out0_4 (iblk0 V c 0 t) (iblk0 V c 1 t) (iblk0 V c 2 t) (iblk0 V c 3 t) := by dsimp only [dat0]

theorem before0 (c : Dev nD) (w : Fin cfg0.W) (hw : (cfg0.win w).isOut = false) (t : Fin cfg0.N) (d) : (dat0 V c).before w t d = (dat0 V c).after w t := by
  match w, hw with
  | ⟨0, _⟩, _ | ⟨1, _⟩, _ | ⟨2, _⟩, _ | ⟨3, _⟩, _ =>
    exact ((dat0 V c).before_in_eq_fetched _ rfl (fun _ => rfl) (fun _ _ _ => rfl) (fun _ => by dsimp only [dat0]; rfl) t d).trans (by dsimp only [dat0]; rfl)
  | ⟨4, _⟩, h => cases h

theorem body_obligation0 (c : Dev nD) : BodyObligation (dat0 (F := F) V c) (defs₀ (F := F)) Variants.none () Set.univ := fun t => by
  rw [bigSep_W0, bigSep_W0]
  simp only [before0 V c 0 rfl, before0 V c 1 rfl, before0 V c 2 rfl, before0 V c 3 rfl]
  rw [show (dat0 V c).Φ t.succ = (dat0 V c).Φ t.castSucc from rfl,
    show (dat0 V c).owesAt () t.succ = (dat0 V c).owesAt () t.castSucc from rfl]
  sl_whnfR [defs₀, Defs.onTc]
  simp only [cc0__rank1_kernel_eq_skeleton]; unfold cc0__rank1_kernel_skel owns
  iintro ⟨HΦ, Ho, ⟨%d0, %f0, %hf0, H0⟩, ⟨%d1, %f1, %hf1, H1⟩, ⟨%d2, %f2, %hf2, H2⟩, ⟨%d3, %f3, %hf3, H3⟩, ⟨%d4, %f4, -, H4⟩⟩
  sl_exec
  sl_step
  iframe
  isplitl [H0]; · iexists f0; iframe; ipureintro; exact hf0
  isplitl [H1]; · iexists f1; iframe; ipureintro; exact hf1
  isplitl [H2]; · iexists f2; iframe; ipureintro; exact hf2
  isplitl [H3]; · iexists f3; iframe; ipureintro; exact hf3
  iexists _; iframe; ipureintro
  dsimp only [dat0] at hf0 hf1 hf2 hf3 ⊢
  rw [← hf0, ← hf1, ← hf2, ← hf3]
  exact View.read_writes_eq_canon _ _ _ (View.cover_of_tiled _ S5000x50.size (by rfl))

end Cert.Kernel.Hand

end
-- ==== Proof.BitsRegion1.lean ====
import proofs.«410242_j1185410974040_3_alg».proof.Proof.Gen.Kernel.Launch
import proofs.«410242_j1185410974040_3_alg».proof.Proof.Gen.Kernel.Skeleton
import proofs.«410242_j1185410974040_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode
open Idealize.ShloMosaic.Pipeline (Dat BodyObligation)

variable {F : FTy → Type} [FloatOps F]

variable (V : (c : Dev nD) → (b : Ref sig .tc) → Buf (Elt F) ((c : Thread nD τ).loc b))

noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_S10000x50 : Rect S10000x50 := Rect.unit (s := S10000x50) ![0, 0] S10000x50.size inb_S10000x50_S10000x50_0_0
abbrev r1_S50x50 : Rect S50x50 := Rect.unit (s := S50x50) ![0, 0] S50x50.size inb_S50x50_S50x50_0_0
abbrev r1_S10000x1 : Rect S10000x1 := Rect.unit (s := S10000x1) ![0, 0] S10000x1.size inb_S10000x1_S10000x1_0_0

def out1_3 (x0 : Vec F S10000x50 .f32) (x1 : Vec F S50x50 .f32) (x2 : Vec F S10000x1 .f32) : Vec F S10000x50 .f32 :=
  View.canon [⟨r1_S10000x50, k1_pay1 (View.ld x0 r1_S10000x50) (View.ld x1 r1_S50x50) (View.ld x2 r1_S10000x1)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_3 (c : Dev nD) (t : Fin cfg1.N) : (dat1 V c).after 3 t = out1_3 (iblk1 V c 0 t) (iblk1 V c 1 t) (iblk1 V c 2 t) := by dsimp only [dat1]

theorem before1 (c : Dev nD) (w : Fin cfg1.W) (hw : (cfg1.win w).isOut = false) (t : Fin cfg1.N) (d) : (dat1 V c).before w t d = (dat1 V c).after w t := by
  match w, hw with
  | ⟨0, _⟩, _ | ⟨1, _⟩, _ | ⟨2, _⟩, _ =>
    exact ((dat1 V c).before_in_eq_fetched _ rfl (fun _ => rfl) (fun _ _ _ => rfl) (fun _ => by dsimp only [dat1]; rfl) t d).trans (by dsimp only [dat1]; rfl)
  | ⟨3, _⟩, h => cases h

theorem body_obligation1 (c : Dev nD) : BodyObligation (dat1 (F := F) V c) (defs₀ (F := F)) Variants.none () Set.univ := fun t => by
  rw [bigSep_W1, bigSep_W1]
  simp only [before1 V c 0 rfl, before1 V c 1 rfl, before1 V c 2 rfl]
  rw [show (dat1 V c).Φ t.succ = (dat1 V c).Φ t.castSucc from rfl,
    show (dat1 V c).owesAt () t.succ = (dat1 V c).owesAt () t.castSucc from rfl]
  sl_whnfR [defs₀, Defs.onTc]
  simp only [cc1__matmul_scale_kernel_eq_skeleton]; unfold cc1__matmul_scale_kernel_skel owns
  iintro ⟨HΦ, Ho, ⟨%d0, %f0, %hf0, H0⟩, ⟨%d1, %f1, %hf1, H1⟩, ⟨%d2, %f2, %hf2, H2⟩, ⟨%d3, %f3, -, H3⟩⟩
  sl_exec
  sl_step
  iframe
  isplitl [H0]; · iexists f0; iframe; ipureintro; exact hf0
  isplitl [H1]; · iexists f1; iframe; ipureintro; exact hf1
  isplitl [H2]; · iexists f2; iframe; ipureintro; exact hf2
  iexists _; iframe; ipureintro
  dsimp only [dat1] at hf0 hf1 hf2 ⊢
  rw [← hf0, ← hf1, ← hf2]
  exact View.read_writes_eq_canon _ _ _ (View.cover_of_tiled _ S10000x50.size (by rfl))

end Cert.Kernel.Hand

end
-- ==== Proof.BitsRegion2.lean ====
import proofs.«410242_j1185410974040_3_alg».proof.Proof.Gen.Kernel.Launch
import proofs.«410242_j1185410974040_3_alg».proof.Proof.Gen.Kernel.Skeleton
import proofs.«410242_j1185410974040_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode
open Idealize.ShloMosaic.Pipeline (Dat BodyObligation)

variable {F : FTy → Type} [FloatOps F]

variable (V : (c : Dev nD) → (b : Ref sig .tc) → Buf (Elt F) ((c : Thread nD τ).loc b))

noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_S10000x50 : Rect S10000x50 := Rect.unit (s := S10000x50) ![0, 0] S10000x50.size inb_S10000x50_S10000x50_0_0
abbrev r2_S1x50 : Rect S1x50 := Rect.unit (s := S1x50) ![0, 0] S1x50.size inb_S1x50_S1x50_0_0
abbrev r2_S10000x1 : Rect S10000x1 := Rect.unit (s := S10000x1) ![0, 0] S10000x1.size inb_S10000x1_S10000x1_0_0

def out2_3 (x0 : Vec F S10000x50 .f32) (x1 : Vec F S1x50 .f32) (x2 : Vec F S10000x1 .f32) : Vec F S10000x50 .f32 :=
  View.canon [⟨r2_S10000x50, k2_pay1 (View.ld x2 r2_S10000x1) (View.ld x0 r2_S10000x50) (View.ld x1 r2_S1x50)⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_3 (c : Dev nD) (t : Fin cfg2.N) : (dat2 V c).after 3 t = out2_3 (iblk2 V c 0 t) (iblk2 V c 1 t) (iblk2 V c 2 t) := by dsimp only [dat2]

theorem before2 (c : Dev nD) (w : Fin cfg2.W) (hw : (cfg2.win w).isOut = false) (t : Fin cfg2.N) (d) : (dat2 V c).before w t d = (dat2 V c).after w t := by
  match w, hw with
  | ⟨0, _⟩, _ | ⟨1, _⟩, _ | ⟨2, _⟩, _ =>
    exact ((dat2 V c).before_in_eq_fetched _ rfl (fun _ => rfl) (fun _ _ _ => rfl) (fun _ => by dsimp only [dat2]; rfl) t d).trans (by dsimp only [dat2]; rfl)
  | ⟨3, _⟩, h => cases h

theorem body_obligation2 (c : Dev nD) : BodyObligation (dat2 (F := F) V c) (defs₀ (F := F)) Variants.none () Set.univ := fun t => by
  rw [bigSep_W2, bigSep_W2]
  simp only [before2 V c 0 rfl, before2 V c 1 rfl, before2 V c 2 rfl]
  rw [show (dat2 V c).Φ t.succ = (dat2 V c).Φ t.castSucc from rfl,
    show (dat2 V c).owesAt () t.succ = (dat2 V c).owesAt () t.castSucc from rfl]
  sl_whnfR [defs₀, Defs.onTc]
  simp only [cc2__bias_relu_scale_kernel_eq_skeleton]; unfold cc2__bias_relu_scale_kernel_skel owns
  iintro ⟨HΦ, Ho, ⟨%d0, %f0, %hf0, H0⟩, ⟨%d1, %f1, %hf1, H1⟩, ⟨%d2, %f2, %hf2, H2⟩, ⟨%d3, %f3, -, H3⟩⟩
  sl_exec
  sl_step
  iframe
  isplitl [H0]; · iexists f0; iframe; ipureintro; exact hf0
  isplitl [H1]; · iexists f1; iframe; ipureintro; exact hf1
  isplitl [H2]; · iexists f2; iframe; ipureintro; exact hf2
  iexists _; iframe; ipureintro
  dsimp only [dat2] at hf0 hf1 hf2 ⊢
  rw [← hf0, ← hf1, ← hf2]
  exact View.read_writes_eq_canon _ _ _ (View.cover_of_tiled _ S10000x50.size (by rfl))

end Cert.Kernel.Hand

end
-- ==== Proof.BitsRegion3.lean ====
import proofs.«410242_j1185410974040_3_alg».proof.Proof.Gen.Kernel.Launch
import proofs.«410242_j1185410974040_3_alg».proof.Proof.Gen.Kernel.Skeleton
import proofs.«410242_j1185410974040_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond3_0 (i : grid3.Coords) : Prop := (Scalar.cmpi .ne (Scalar.extui (Scalar.cmpi .eq (BitVec.ofNat 32 (i 0).val) 0#32)) 0#32) = 1#1
theorem hcond3_0 : ∀ t : Fin cfg3.N, cond3_0 (grid3.coords t) ↔ t.val = 0 :=
  (by decide +kernel : ∀ t : Fin grid3.N, cond3_0 (grid3.coords t) ↔ t.val = 0)
abbrev cond3_1 (i : grid3.Coords) : Prop := k3_cond2 i = 1#1
theorem hcond3_1 : ∀ t : Fin cfg3.N, cond3_1 (grid3.coords t) ↔ t.val = 9 :=
  (by decide +kernel : ∀ t : Fin grid3.N, cond3_1 (grid3.coords t) ↔ t.val = 9)

theorem liveAt3 : ∀ (w : Fin cfg3.W) (t : Fin cfg3.N), w.val < 5 → cfg3.idle w (grid3.coords t) = false := by decide +kernel
theorem idleAt3_5 : ∀ t : Fin cfg3.N, ¬t.val = 9 → cfg3.idle 5 (grid3.coords t) = true ∧ (cfg3.win 5).flush t = false := by decide +kernel
theorem liveAt3_5 : ∀ t : Fin cfg3.N, t.val = 9 → cfg3.idle 5 (grid3.coords t) = false := by decide +kernel

abbrev ms3_0 (t : Fin cfg3.N) : Memref sig .tc .vmem S10000x50 .f32 := win3_0.stage (cfg3.slots t 0)
abbrev ms3_1 (t : Fin cfg3.N) : Memref sig .tc .vmem S10000x1 .i32 := win3_1.stage (cfg3.slots t 1)
abbrev ms3_2 (t : Fin cfg3.N) : Memref sig .tc .vmem S128x1 .f32 := win3_2.stage (cfg3.slots t 2)
abbrev ms3_3 (t : Fin cfg3.N) : Memref sig .tc .vmem S50x2 .f32 := win3_3.stage (cfg3.slots t 3)
abbrev ms3_4 (t : Fin cfg3.N) : Memref sig .tc .vmem S1x2 .f32 := win3_4.stage (cfg3.slots t 4)
abbrev ms3_5 (t : Fin cfg3.N) : Memref sig .tc .vmem S128x2 .f32 := win3_5.stage (cfg3.slots t 5)
abbrev scM3_0 : Memref sig .tc .vmem S128x50 .f32 := Memref.whole cc3_scratch0

theorem hz3 : (![0, 0] : Fin 2 → Nat) = fun _ => 0 := funext fun a => by fin_cases a <;> rfl

-- a whole block is owned at X exactly when it holds the one contents that read X
theorem owns_unread {sh : Shape} {e : EltTy} (c : Dev nD) (m : Memref sig .tc .vmem sh e) (h : m.IsWhole) (X : sh.Idx → Elt F e) :
    (owns (c : Thread nD τ) m fullShare X : sProp 𝕄) = (m.view.loc (c : Thread nD τ) ↦[m.view.set]{fullShare} h.unread X) := by
  have h₁ : (owns (c : Thread nD τ) m fullShare X : sProp 𝕄) ⊢ (m.view.loc (c : Thread nD τ) ↦[m.view.set]{fullShare} h.unread X) := by
    unfold owns; iintro ⟨%g, %hg, H⟩; obtain rfl := h.eq_unread hg; iexact H
  have h₂ : (m.view.loc (c : Thread nD τ) ↦[m.view.set]{fullShare} h.unread X : sProp 𝕄) ⊢ owns (c : Thread nD τ) m fullShare X := by
    unfold owns; iintro H; iexists _; isplitr; · ipureintro; exact h.read_unread X
    iexact H
  exact BI.equiv_iff.mp ⟨h₁, h₂⟩

section
variable (c : Dev nD) (i : grid3.Coords)
    (arg1 : Memref sig .tc .vmem S10000x50 .f32) (harg1 : arg1.IsWhole) (arg2 : Memref sig .tc .vmem S10000x1 .i32) (harg2 : arg2.IsWhole)
    (arg3 : Memref sig .tc .vmem S128x1 .f32) (harg3 : arg3.IsWhole) (arg4 : Memref sig .tc .vmem S50x2 .f32) (harg4 : arg4.IsWhole)
    (arg5 : Memref sig .tc .vmem S1x2 .f32) (harg5 : arg5.IsWhole) (arg6 : Memref sig .tc .vmem S128x2 .f32) (harg6 : arg6.IsWhole)
    (arg7 : Memref sig .tc .vmem S128x50 .f32) (harg7 : arg7.IsWhole)
    (x0 : Vec F S10000x50 .f32) (x1 : Vec F S10000x1 .i32) (x2 : Vec F S128x1 .f32) (x3 : Vec F S50x2 .f32) (x4 : Vec F S1x2 .f32) (xs0 : Vec F S128x50 .f32)

-- the body's triple: the inputs pass through, the result's block ends as Q5 says, the carried block with the writes LS0
def Run3 (Q5 : Vec F S128x2 .f32 → sProp 𝕄) (LS0 : List (View.Piece (Elt F) S128x50 .f32)) : Prop :=
  ∀ (xi5 : Vec F S128x2 .f32) (E : Set ℕ) (K : PUnit → sProp 𝕄),
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare xi5
        ∗ owns (c : Thread nD τ) arg7 fullShare xs0
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ Q5 xi5
            ∗ (∃ f, arg7.view.loc (c : Thread nD τ) ↦[arg7.view.set]{fullShare} arg7.view.writes (Elt F) f LS0)) -∗ K ⟨⟩))
      ⊢ wp frame (wpE (defs₀ (F := F)) Variants.none c none) E (cc3__pool_classify_kernel i arg1 harg1 arg2 harg2 arg3 harg3 arg4 harg4 arg5 harg5 arg6 harg6 arg7 harg7) K

set_option maxHeartbeats 1000000 in
noncomputable def kernelRun3_A (hc0 : cond3_0 i) (hc1 : ¬cond3_1 i) :
    { LS0 : List (View.Piece (Elt F) S128x50 .f32) // Run3 c i arg1 harg1 arg2 harg2 arg3 harg3 arg4 harg4 arg5 harg5 arg6 harg6 arg7 harg7 x0 x1 x2 x3 x4 xs0 (owns (c : Thread nD τ) arg6 fullShare) LS0 } := by
  refine ⟨?_, fun xi5 E K => ?run⟩
  case run =>
    simp only [cc3__pool_classify_kernel_eq_skeleton]; unfold cc3__pool_classify_kernel_skel
    rw [owns_unread c arg1 harg1, owns_unread c arg2 harg2, owns_unread c arg3 harg3, owns_unread c arg4 harg4, owns_unread c arg5 harg5, owns_unread c arg6 harg6, owns_unread c arg7 harg7]
    iintro ⟨H0, H1, H2, H3, H4, H5, HS0, Hk⟩
    sl_exec (disch := first | exact hc0 | exact hc1)
    sl_step
    iapply Hk
    iframe H0 H1 H2 H3 H4 H5
    iexists _; iexact HS0

set_option maxHeartbeats 1000000 in
noncomputable def kernelRun3_B (hc0 : ¬cond3_0 i) (hc1 : ¬cond3_1 i) :
    { LS0 : List (View.Piece (Elt F) S128x50 .f32) // Run3 c i arg1 harg1 arg2 harg2 arg3 harg3 arg4 harg4 arg5 harg5 arg6 harg6 arg7 harg7 x0 x1 x2 x3 x4 xs0 (owns (c : Thread nD τ) arg6 fullShare) LS0 } := by
  refine ⟨?_, fun xi5 E K => ?run⟩
  case run =>
    simp only [cc3__pool_classify_kernel_eq_skeleton]; unfold cc3__pool_classify_kernel_skel
    rw [owns_unread c arg1 harg1, owns_unread c arg2 harg2, owns_unread c arg3 harg3, owns_unread c arg4 harg4, owns_unread c arg5 harg5, owns_unread c arg6 harg6, owns_unread c arg7 harg7]
    iintro ⟨H0, H1, H2, H3, H4, H5, HS0, Hk⟩
    sl_exec (disch := first | exact hc0 | exact hc1)
    sl_step
    iapply Hk
    iframe H0 H1 H2 H3 H4 H5
    iexists _; iexact HS0

set_option maxHeartbeats 1000000 in
noncomputable def kernelRun3_C (hc0 : ¬cond3_0 i) (hc1 : cond3_1 i) :
    Σ' (L5 : List (View.Piece (Elt F) S128x2 .f32)), { LS0 : List (View.Piece (Elt F) S128x50 .f32) //
      Run3 c i arg1 harg1 arg2 harg2 arg3 harg3 arg4 harg4 arg5 harg5 arg6 harg6 arg7 harg7 x0 x1 x2 x3 x4 xs0 (fun _ => iprop(∃ f, arg6.view.loc (c : Thread nD τ) ↦[arg6.view.set]{fullShare} arg6.view.writes (Elt F) f L5)) LS0 } := by
  refine ⟨?_, ?_, fun xi5 E K => ?run⟩
  case run =>
    simp only [cc3__pool_classify_kernel_eq_skeleton]; unfold cc3__pool_classify_kernel_skel
    rw [owns_unread c arg1 harg1, owns_unread c arg2 harg2, owns_unread c arg3 harg3, owns_unread c arg4 harg4, owns_unread c arg5 harg5, owns_unread c arg6 harg6, owns_unread c arg7 harg7]
    iintro ⟨H0, H1, H2, H3, H4, H5, HS0, Hk⟩
    sl_exec (disch := first | exact hc0 | exact hc1)
    sl_step
    iapply Hk
    iframe H0 H1 H2 H3 H4
    isplitl [H5]; · iexists _; iexact H5
    iexists _; iexact HS0

-- the zero block is written over everything and read back; the sum over it, written last, again covers everything
theorem left3_A (hc0 : cond3_0 i) (hc1 : ¬cond3_1 i) (f) :
    arg7.view.read (Elt F) (arg7.view.writes (Elt F) f (kernelRun3_A c i arg1 harg1 arg2 harg2 arg3 harg3 arg4 harg4 arg5 harg5 arg6 harg6 arg7 harg7 x0 x1 x2 x3 x4 xs0 hc0 hc1).1) = k3_pay2 x1 (k3_pay1 (F := F)) x0 := by
  refine (View.read_writes_eq_canon _ _ _ (View.cover_of_tiledL _ S128x50.size ?_)).trans ?_
  · sl_kernel_rfl
  unfold kernelRun3_A
  dsimp only
  sl_unfold_words
  rw [View.canon_cons_unit_zero (S := S128x50) hz3, View.readCov_unit_zero (S := S128x50) _ hz3]
  simp only [View.readAt_eq_ld, harg1.read_unread, harg2.read_unread, View.ld_unit_zero (S := S10000x1) hz3, View.ld_unit_zero (S := S10000x50) hz3]

-- one write, of the block's partial sum over what was found, covers everything
theorem left3_B (hc0 : ¬cond3_0 i) (hc1 : ¬cond3_1 i) (f) :
    arg7.view.read (Elt F) (arg7.view.writes (Elt F) f (kernelRun3_B c i arg1 harg1 arg2 harg2 arg3 harg3 arg4 harg4 arg5 harg5 arg6 harg6 arg7 harg7 x0 x1 x2 x3 x4 xs0 hc0 hc1).1) = k3_pay2 x1 xs0 x0 := by
  refine (View.read_writes_eq_canon _ _ _ (View.cover_of_tiledL _ S128x50.size ?_)).trans ?_
  · sl_kernel_rfl
  unfold kernelRun3_B
  dsimp only
  sl_unfold_words
  rw [View.canon_unit_zero (S := S128x50) hz3]
  simp only [View.readAt_eq_ld, harg1.read_unread, harg2.read_unread, harg7.read_unread, View.ld_unit_zero (S := S10000x1) hz3, View.ld_unit_zero (S := S128x50) hz3, View.ld_unit_zero (S := S10000x50) hz3]

theorem left3_C (hc0 : ¬cond3_0 i) (hc1 : cond3_1 i) (f) :
    arg7.view.read (Elt F) (arg7.view.writes (Elt F) f (kernelRun3_C c i arg1 harg1 arg2 harg2 arg3 harg3 arg4 harg4 arg5 harg5 arg6 harg6 arg7 harg7 x0 x1 x2 x3 x4 xs0 hc0 hc1).2.1) = k3_pay2 x1 xs0 x0 := by
  refine (View.read_writes_eq_canon _ _ _ (View.cover_of_tiledL _ S128x50.size ?_)).trans ?_
  · sl_kernel_rfl
  unfold kernelRun3_C
  dsimp only
  sl_unfold_words
  rw [View.canon_unit_zero (S := S128x50) hz3]
  simp only [View.readAt_eq_ld, harg1.read_unread, harg2.read_unread, harg7.read_unread, View.ld_unit_zero (S := S10000x1) hz3, View.ld_unit_zero (S := S128x50) hz3, View.ld_unit_zero (S := S10000x50) hz3]

-- the result is written once, from the final sum read back
theorem leftOut3_C (hc0 : ¬cond3_0 i) (hc1 : cond3_1 i) (f) :
    arg6.view.read (Elt F) (arg6.view.writes (Elt F) f (kernelRun3_C c i arg1 harg1 arg2 harg2 arg3 harg3 arg4 harg4 arg5 harg5 arg6 harg6 arg7 harg7 x0 x1 x2 x3 x4 xs0 hc0 hc1).1) = k3_pay3 (k3_pay2 x1 xs0 x0) x2 x3 x4 := by
  refine (View.read_writes_eq_canon _ _ _ (View.cover_of_tiledL _ S128x2.size ?_)).trans ?_
  · sl_kernel_rfl
  unfold kernelRun3_C
  dsimp only
  sl_unfold_words
  rw [View.canon_unit_zero (S := S128x2) hz3, View.readCov_unit_zero (S := S128x50) _ hz3]
  simp only [View.readAt_eq_ld, harg1.read_unread, harg2.read_unread, harg3.read_unread, harg4.read_unread, harg5.read_unread, harg7.read_unread,
    View.ld_unit_zero (S := S10000x1) hz3, View.ld_unit_zero (S := S128x50) hz3, View.ld_unit_zero (S := S10000x50) hz3,
    View.ld_unit_zero (S := S128x1) hz3, View.ld_unit_zero (S := S50x2) hz3, View.ld_unit_zero (S := S1x2) hz3]

end

-- all of the entry invariant but the carried block: it gives the invariant back for that block at anything
noncomputable def rest3 (c : Dev nD) : sProp 𝕄 := iprop((∃ d, owns (c : Thread nD τ) scM3_0 fullShare d) -∗ Pipeline.ΦA spec3 c)

theorem PhiA3_open (c : Dev nD) :
    (Pipeline.ΦA spec3 c : sProp 𝕄) ⊢ iprop(rest3 (F := F) c ∗ (∃ d, owns (c : Thread nD τ) scM3_0 fullShare d)) := by
  unfold rest3 Pipeline.ΦA; rw [scopedRest3_eq]; simp only [scM3_0, owns_whole]
  iintro ⟨⟨R1, R2, R3, R4, R5, R6, R7, R8, R9, R10, R11, R12, R13, R14, R15, R16, R17, R18, R19, R20, R21, R22, HS0⟩, Hg⟩
  isplitr [HS0]
  · iintro HS0; iframe
  · iexact HS0

variable (V : (c : Dev nD) → (b : Ref sig .tc) → Buf (Elt F) ((c : Thread nD τ).loc b))

noncomputable def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

-- one point's step: the carried sum s grows by the block's partial sum; the result is the pooled and mapped new sum
noncomputable def out3 (c : Dev nD) (t : Fin cfg3.N) (s : Vec F S128x50 .f32) : Vec F S128x2 .f32 × Vec F S128x50 .f32 :=
  (k3_pay3 (k3_pay2 (iblk3 V c 1 t) s (iblk3 V c 0 t)) (iblk3 V c 2 t) (iblk3 V c 3 t) (iblk3 V c 4 t), k3_pay2 (iblk3 V c 1 t) s (iblk3 V c 0 t))

noncomputable def outsAt3 (V : (c : Dev nD) → (b : Ref sig .tc) → Buf (Elt F) ((c : Thread nD τ).loc b)) (c : Dev nD) : (n : ℕ) → n < cfg3.N → Vec F S128x2 .f32 × Vec F S128x50 .f32
  | 0, hn => out3 V c ⟨0, hn⟩ (k3_pay1 (F := F))
  | n + 1, hn => out3 V c ⟨n + 1, hn⟩ (outsAt3 V c n (Nat.lt_of_succ_lt hn)).2

theorem outsAt3_pos (c : Dev nD) (t : Fin cfg3.N) (h0 : ¬t.val = 0) :
    outsAt3 V c t.val t.isLt = out3 V c t (outsAt3 V c (t.val - 1) (Nat.lt_of_le_of_lt (Nat.sub_le _ _) t.isLt)).2 := by
  obtain ⟨_ | n, hn⟩ := t
  exacts [absurd rfl h0, rfl]

theorem outsAt3_A_snd (c : Dev nD) (t : Fin cfg3.N) (h0 : t.val = 0) (h1 : ¬t.val = 9) :
    (outsAt3 V c t.val t.isLt).2 = k3_pay2 (iblk3 V c 1 t) (k3_pay1 (F := F)) (iblk3 V c 0 t) := by
  obtain ⟨_ | n, hn⟩ := t
  exacts [rfl, absurd h0 n.succ_ne_zero]

theorem outsAt3_B_snd (c : Dev nD) (t : Fin cfg3.N) (h0 : ¬t.val = 0) (h1 : ¬t.val = 9) :
    (outsAt3 V c t.val t.isLt).2 = k3_pay2 (iblk3 V c 1 t) (outsAt3 V c (t.val - 1) (Nat.lt_of_le_of_lt (Nat.sub_le _ _) t.isLt)).2 (iblk3 V c 0 t) :=
  congrArg Prod.snd (outsAt3_pos V c t h0)

theorem outsAt3_C_snd (c : Dev nD) (t : Fin cfg3.N) (h0 : ¬t.val = 0) (h1 : t.val = 9) :
    (outsAt3 V c t.val t.isLt).2 = k3_pay2 (iblk3 V c 1 t) (outsAt3 V c (t.val - 1) (Nat.lt_of_le_of_lt (Nat.sub_le _ _) t.isLt)).2 (iblk3 V c 0 t) :=
  congrArg Prod.snd (outsAt3_pos V c t h0)

theorem outsAt3_C_fst (c : Dev nD) (t : Fin cfg3.N) (h0 : ¬t.val = 0) (h1 : t.val = 9) :
    (outsAt3 V c t.val t.isLt).1 = k3_pay3 (k3_pay2 (iblk3 V c 1 t) (outsAt3 V c (t.val - 1) (Nat.lt_of_le_of_lt (Nat.sub_le _ _) t.isLt)).2 (iblk3 V c 0 t)) (iblk3 V c 2 t) (iblk3 V c 3 t) (iblk3 V c 4 t) :=
  congrArg Prod.fst (outsAt3_pos V c t h0)

noncomputable def PhiS3 (V : (c : Dev nD) → (b : Ref sig .tc) → Buf (Elt F) ((c : Thread nD τ).loc b)) (c : Dev nD) : (n : ℕ) → n ≤ cfg3.N → sProp 𝕄
  | 0, _ => Pipeline.ΦA spec3 c
  | n + 1, hn => iprop(rest3 (F := F) c ∗ owns (c : Thread nD τ) scM3_0 fullShare ((outsAt3 V c n hn).2))
theorem PhiS3_zero (c : Dev nD) (n : ℕ) (h : n ≤ cfg3.N) (hz : n = 0) : PhiS3 V c n h = Pipeline.ΦA spec3 c := by
  subst hz; rfl
theorem PhiS3_succ (c : Dev nD) (n : ℕ) (hn : n < cfg3.N) :
    PhiS3 V c (n + 1) hn = iprop(rest3 (F := F) c ∗ owns (c : Thread nD τ) scM3_0 fullShare ((outsAt3 V c n hn).2)) := rfl
theorem PhiS3_pos (c : Dev nD) (n : ℕ) (h : n ≤ cfg3.N) (hz : n ≠ 0) :
    PhiS3 V c n h = iprop(rest3 (F := F) c ∗ owns (c : Thread nD τ) scM3_0 fullShare ((outsAt3 V c (n - 1) (by omega)).2)) := by
  cases n with
  | zero => exact absurd rfl hz
  | succ n => rfl

noncomputable def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => (outsAt3 V c t.val t.isLt).1
  Φ t := PhiS3 V c t.val (Nat.le_of_lt_succ t.isLt)
  q _ := fullShare
  owed _ := 0
theorem A_eq3 (c : Dev nD) (w : Fin cfg3.W) : (dat3 V c).A w = V c (Pipeline.arrRef spec3 w) := by
  dsimp only [dat3]
theorem PhiS3_castSucc (c : Dev nD) (t : Fin cfg3.N) :
    (dat3 V c).Φ t.castSucc = PhiS3 V c t.val (Nat.le_of_lt t.isLt) := by
  dsimp only [dat3]; simp only [Fin.coe_castSucc]

theorem after3_5 (c : Dev nD) (t : Fin cfg3.N) : (dat3 V c).after 5 t = (outsAt3 V c t.val t.isLt).1 := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl) (fun _ => rfl) t d).trans rfl
theorem before3_1 (c : Dev nD) (t : Fin cfg3.N) (d) : (dat3 V c).before 1 t d = iblk3 V c 1 t :=
  ((dat3 V c).before_in_eq_fetched 1 rfl (fun _ => rfl) (fun _ _ _ => rfl) (fun _ => rfl) t d).trans rfl
theorem before3_2 (c : Dev nD) (t : Fin cfg3.N) (d) : (dat3 V c).before 2 t d = iblk3 V c 2 t :=
  ((dat3 V c).before_in_eq_fetched 2 rfl (fun _ => rfl) (fun _ _ _ => rfl) (fun _ => rfl) t d).trans rfl
theorem before3_3 (c : Dev nD) (t : Fin cfg3.N) (d) : (dat3 V c).before 3 t d = iblk3 V c 3 t :=
  ((dat3 V c).before_in_eq_fetched 3 rfl (fun _ => rfl) (fun _ _ _ => rfl) (fun _ => rfl) t d).trans rfl
theorem before3_4 (c : Dev nD) (t : Fin cfg3.N) (d) : (dat3 V c).before 4 t d = iblk3 V c 4 t :=
  ((dat3 V c).before_in_eq_fetched 4 rfl (fun _ => rfl) (fun _ _ _ => rfl) (fun _ => rfl) t d).trans rfl

noncomputable def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d)))
noncomputable def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t)

set_option maxHeartbeats 4800000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).owesAt () t.succ = (dat3 V c).owesAt () t.castSucc from rfl]
  rw [show (dat3 V c).Φ t.succ = PhiS3 V c (t.val + 1) t.isLt from rfl, PhiS3_succ, PhiS3_castSucc V c t]
  rw [show (dat3 V c).leavesExact 0 t = owns (c : Thread nD τ) (ms3_0 t) fullShare (iblk3 V c 0 t) from by
    unfold Dat.leavesExact; rw [liveAt3 0 t (by decide)]; rfl]
  rw [show (dat3 V c).leavesExact 1 t = owns (c : Thread nD τ) (ms3_1 t) fullShare (iblk3 V c 1 t) from by
    unfold Dat.leavesExact; rw [liveAt3 1 t (by decide)]; rfl]
  rw [show (dat3 V c).leavesExact 2 t = owns (c : Thread nD τ) (ms3_2 t) fullShare (iblk3 V c 2 t) from by
    unfold Dat.leavesExact; rw [liveAt3 2 t (by decide)]; rfl]
  rw [show (dat3 V c).leavesExact 3 t = owns (c : Thread nD τ) (ms3_3 t) fullShare (iblk3 V c 3 t) from by
    unfold Dat.leavesExact; rw [liveAt3 3 t (by decide)]; rfl]
  rw [show (dat3 V c).leavesExact 4 t = owns (c : Thread nD τ) (ms3_4 t) fullShare (iblk3 V c 4 t) from by
    unfold Dat.leavesExact; rw [liveAt3 4 t (by decide)]; rfl]
  by_cases h0 : t.val = 0
  · have h1 : ¬t.val = 9 := by omega
    rw [Dat.leavesExact_idle (dat3 V c) 5 t (idleAt3_5 t h1).1 (idleAt3_5 t h1).2, outsAt3_A_snd V c t h0 h1, PhiS3_zero V c _ _ h0]
    iintro ⟨HΦ, Ho, ⟨%d0, H0⟩, ⟨%d1, H1⟩, ⟨%d2, H2⟩, ⟨%d3, H3⟩, ⟨%d4, H4⟩, ⟨%d5, H5⟩⟩
    ihave ⟨HR, ⟨%ds, HS0⟩⟩ := (PhiA3_open (F := F) c) $$ HΦ
    iapply ((kernelRun3_A c (grid3.coords t) _ _ _ _ _ _ _ _ _ _ _ _ _ _ (iblk3 V c 0 t) (iblk3 V c 1 t) (iblk3 V c 2 t) (iblk3 V c 3 t) (iblk3 V c 4 t) _ ((hcond3_0 t).mpr h0) (fun h => h1 ((hcond3_1 t).mp h))).2 _ Set.univ _)
    iframe H0 H1 H2 H3 H4 H5 HS0
    iintro ⟨H0, H1, H2, H3, H4, H5, ⟨%es0, HS0⟩⟩
    iframe HR Ho H0 H1 H2 H3 H4
    isplitl [HS0]
    · unfold owns; iexists _; isplitr
      swap; · iexact HS0
      ipureintro; exact left3_A ..
    iexists _; iexact H5
  · rw [PhiS3_pos V c _ _ h0]
    by_cases h1 : t.val = 9
    · rw [show (dat3 V c).leavesExact 5 t = owns (c : Thread nD τ) (ms3_5 t) fullShare ((dat3 V c).after 5 t) from by
        unfold Dat.leavesExact; rw [liveAt3_5 t h1], after3_5, outsAt3_C_fst V c t h0 h1, outsAt3_C_snd V c t h0 h1]
      iintro ⟨⟨HR, HS0⟩, Ho, ⟨%d0, H0⟩, ⟨%d1, H1⟩, ⟨%d2, H2⟩, ⟨%d3, H3⟩, ⟨%d4, H4⟩, ⟨%d5, H5⟩⟩
      iapply ((kernelRun3_C c (grid3.coords t) _ _ _ _ _ _ _ _ _ _ _ _ _ _ (iblk3 V c 0 t) (iblk3 V c 1 t) (iblk3 V c 2 t) (iblk3 V c 3 t) (iblk3 V c 4 t) _ (fun h => h0 ((hcond3_0 t).mp h)) ((hcond3_1 t).mpr h1)).2.2 _ Set.univ _)
      iframe H0 H1 H2 H3 H4 H5 HS0
      iintro ⟨H0, H1, H2, H3, H4, ⟨%e5, H5⟩, ⟨%es0, HS0⟩⟩
      iframe HR Ho H0 H1 H2 H3 H4
      isplitl [HS0]
      · unfold owns; iexists _; isplitr
        swap; · iexact HS0
        ipureintro; exact left3_C ..
      unfold owns; iexists _; isplitr
      swap; · iexact H5
      ipureintro; exact leftOut3_C ..
    · rw [Dat.leavesExact_idle (dat3 V c) 5 t (idleAt3_5 t h1).1 (idleAt3_5 t h1).2, outsAt3_B_snd V c t h0 h1]
      iintro ⟨⟨HR, HS0⟩, Ho, ⟨%d0, H0⟩, ⟨%d1, H1⟩, ⟨%d2, H2⟩, ⟨%d3, H3⟩, ⟨%d4, H4⟩, ⟨%d5, H5⟩⟩
      iapply ((kernelRun3_B c (grid3.coords t) _ _ _ _ _ _ _ _ _ _ _ _ _ _ (iblk3 V c 0 t) (iblk3 V c 1 t) (iblk3 V c 2 t) (iblk3 V c 3 t) (iblk3 V c 4 t) _ (fun h => h0 ((hcond3_0 t).mp h)) (fun h => h1 ((hcond3_1 t).mp h))).2 _ Set.univ _)
      iframe H0 H1 H2 H3 H4 H5 HS0
      iintro ⟨H0, H1, H2, H3, H4, H5, ⟨%es0, HS0⟩⟩
      iframe HR Ho H0 H1 H2 H3 H4
      isplitl [HS0]
      · unfold owns; iexists _; isplitr
        swap; · iexact HS0
        ipureintro; exact left3_B ..
      iexists _; iexact H5

theorem body_obligation3 (c : Dev nD) : BodyObligation (dat3 (F := F) V c) (defs₀ (F := F)) Variants.none () Set.univ := fun t => by
  rw [bigSep_W3, bigSep_W3]
  exact sound_body3 V c t
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht]; unfold rest3
  iintro ⟨HR, HS0⟩
  iapply HR
  iexists _; iexact HS0
theorem hout3 (c : Dev nD) : (dat3 V c).Φ (Fin.last cfg3.N) ⊢ Pipeline.ΦA spec3 c :=
  Phi_out3 V c _ (by rw [Fin.val_last]; have : cfg3.N = 10 := N_3; omega)

end Cert.Kernel.Hand

end
-- ==== Proof.BitsRun.lean ====
import proofs.«410242_j1185410974040_3_alg».proof.Proof.BitsRegion0
import proofs.«410242_j1185410974040_3_alg».proof.Proof.BitsRegion1
import proofs.«410242_j1185410974040_3_alg».proof.Proof.BitsRegion2
import proofs.«410242_j1185410974040_3_alg».proof.Proof.BitsRegion3
import proofs.«410242_j1185410974040_3_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b

section
variable {cfg : Cfg sig Λ₀} (dat : (c : Dev nD) → Dat τ (Elt F) Unit ℕ (UR sig nD τ) ℕ cfg c)
  (W : Dev nD → Valuation τ sig (Elt F)) (c : Dev nD)

/-- The contents after a region: changed on the region's own arrays only. -/
abbrev exitW : Valuation τ sig (Elt F) := Pipeline.withArrays cfg.spec c (W c) fun w => (dat c).arrAt w cfg.N

variable (hinj : Function.Injective (Pipeline.arrRef cfg.spec))
include hinj

theorem exitW_arr (w : Fin cfg.W) : exitW dat W c (Proc.devRef .tc (Pipeline.arrRef cfg.spec w)) = (dat c).arrAt w cfg.N :=
  Pipeline.withArrays_arr cfg.spec hinj c _ _ w

/-- Away from the result's array a region changes nothing. -/
theorem exitW_keep (o : Fin cfg.W) (hin : ∀ w, w ≠ o → (cfg.win w).isOut = false)
    (hA : ∀ w, (dat c).A w = W c (Proc.devRef .tc (Pipeline.arrRef cfg.spec w))) (b : Ref sig .tc)
    (hb : b ≠ Pipeline.arrRef cfg.spec o) : exitW dat W c (Proc.devRef .tc b) = W c (Proc.devRef .tc b) := by
  by_cases h : ∃ w, Pipeline.arrRef cfg.spec w = b
  · obtain ⟨w, rfl⟩ := h
    exact (exitW_arr dat W c hinj w).trans (((dat c).arrAt_in w (hin w fun e => hb (e ▸ rfl)) _).trans (hA w))
  · exact Pipeline.withArrays_of_ne cfg.spec c _ _ b fun w e => h ⟨w, e⟩
end

def W4 (c : Dev nD) : Valuation τ sig (Elt F) := exitW (dat0 (V3 m ρ)) (W3 m ρ) c
abbrev V4 : (c : Dev nD) → (b : Ref sig .tc) → Buf (Elt F) ((c : Thread nD τ).loc b) := fun c b => W4 m ρ c b
def W5 (c : Dev nD) : Valuation τ sig (Elt F) := exitW (dat1 (V4 m ρ)) (W4 m ρ) c
abbrev V5 : (c : Dev nD) → (b : Ref sig .tc) → Buf (Elt F) ((c : Thread nD τ).loc b) := fun c b => W5 m ρ c b
abbrev W6 : Dev nD → Valuation τ sig (Elt F) := fun c => StableHlo.after hostOps2 (W5 m ρ c)
abbrev V6 : (c : Dev nD) → (b : Ref sig .tc) → Buf (Elt F) ((c : Thread nD τ).loc b) := fun c b => W6 m ρ c b
def W7 (c : Dev nD) : Valuation τ sig (Elt F) := exitW (dat2 (V6 m ρ)) (W6 m ρ) c
abbrev W8 : Dev nD → Valuation τ sig (Elt F) := fun c => StableHlo.after hostOps3 (W7 m ρ c)
abbrev V8 : (c : Dev nD) → (b : Ref sig .tc) → Buf (Elt F) ((c : Thread nD τ).loc b) := fun c b => W8 m ρ c b
def W9 (c : Dev nD) : Valuation τ sig (Elt F) := exitW (dat3 (V8 m ρ)) (W8 m ρ) c

theorem W4_out (c : Dev nD) : W4 m ρ c (Proc.devRef .tc main_v30) = (dat0 (V3 m ρ) c).arrAt 4 cfg0.N :=
  exitW_arr _ _ c launch0.win.arr_inj 4
theorem W4_keep (c : Dev nD) (b : Ref sig .tc) (hb : b ≠ main_v30) : W4 m ρ c (Proc.devRef .tc b) = W3 m ρ c (Proc.devRef .tc b) :=
  exitW_keep _ _ c launch0.win.arr_inj 4 (by decide) (A_eq0 (V3 m ρ) c) b hb
theorem W5_out (c : Dev nD) : W5 m ρ c (Proc.devRef .tc main_v31) = (dat1 (V4 m ρ) c).arrAt 3 cfg1.N :=
  exitW_arr _ _ c launch1.win.arr_inj 3
theorem W5_keep (c : Dev nD) (b : Ref sig .tc) (hb : b ≠ main_v31) : W5 m ρ c (Proc.devRef .tc b) = W4 m ρ c (Proc.devRef .tc b) :=
  exitW_keep _ _ c launch1.win.arr_inj 3 (by decide) (A_eq1 (V4 m ρ) c) b hb
theorem W7_out (c : Dev nD) : W7 m ρ c (Proc.devRef .tc main_v43) = (dat2 (V6 m ρ) c).arrAt 3 cfg2.N :=
  exitW_arr _ _ c launch2.win.arr_inj 3
theorem W7_keep (c : Dev nD) (b : Ref sig .tc) (hb : b ≠ main_v43) : W7 m ρ c (Proc.devRef .tc b) = W6 m ρ c (Proc.devRef .tc b) :=
  exitW_keep _ _ c launch2.win.arr_inj 3 (by decide) (A_eq2 (V6 m ρ) c) b hb

theorem W1_keep (c : Dev nD) (b : Ref sig .tc) (hb : b ∉ hostOps0_W) : W1 m ρ c (Proc.devRef .tc b) = W0 m ρ c (Proc.devRef .tc b) :=
  StableHlo.after_of_writes_sub hostOps0 _ hostOps0_writes hb
theorem W2_keep (c : Dev nD) (b : Ref sig .tc) (hb : b ∉ hostOps0_1_W) : W2 m ρ c (Proc.devRef .tc b) = W1 m ρ c (Proc.devRef .tc b) :=
  StableHlo.after_of_writes_sub hostOps0_1 _ hostOps0_1_writes hb
theorem W3_keep (c : Dev nD) (b : Ref sig .tc) (hb : b ∉ hostOps0_2_W) : W3 m ρ c (Proc.devRef .tc b) = W2 m ρ c (Proc.devRef .tc b) :=
  StableHlo.after_of_writes_sub hostOps0_2 _ hostOps0_2_writes hb
theorem W6_keep (c : Dev nD) (b : Ref sig .tc) (hb : b ∉ hostOps2_W) : W6 m ρ c (Proc.devRef .tc b) = W5 m ρ c (Proc.devRef .tc b) :=
  StableHlo.after_of_writes_sub hostOps2 _ hostOps2_writes hb
theorem W8_keep (c : Dev nD) (b : Ref sig .tc) (hb : b ∉ hostOps3_W) : W8 m ρ c (Proc.devRef .tc b) = W7 m ρ c (Proc.devRef .tc b) :=
  StableHlo.after_of_writes_sub hostOps3 _ hostOps3_writes hb

/-- A reference that no host stretch writes and that is no region's result ends as launched. -/
theorem W9_arg (c : Dev nD) (b : Ref sig .tc)
    (h : b ≠ main_v51 ∧ b ∉ hostOps3_W ∧ b ≠ main_v43 ∧ b ∉ hostOps2_W ∧ b ≠ main_v31 ∧ b ≠ main_v30 ∧ b ∉ hostOps0_2_W
      ∧ b ∉ hostOps0_1_W ∧ b ∉ hostOps0_W) : W9 m ρ c (Proc.devRef .tc b) = m ((c : Thread nD τ).loc b) :=
  (exitW_keep _ _ c launch3.win.arr_inj 5 (by decide) (A_eq3 (V8 m ρ) c) b h.1).trans <| (W8_keep m ρ c b h.2.1).trans <| (W7_keep m ρ c b h.2.2.1).trans <|
  (W6_keep m ρ c b h.2.2.2.1).trans <| (W5_keep m ρ c b h.2.2.2.2.1).trans <| (W4_keep m ρ c b h.2.2.2.2.2.1).trans <|
  (W3_keep m ρ c b h.2.2.2.2.2.2.1).trans <| (W2_keep m ρ c b h.2.2.2.2.2.2.2.1).trans <| (W1_keep m ρ c b h.2.2.2.2.2.2.2.2).trans rfl

def pdats : (p : Fin 4) → (c : Dev nD) → Dat τ (Elt F) Unit ℕ (UR sig nD τ) ℕ (Pipeline.pin (pcfgs (F := F)) adm p) c
  | ⟨0, _⟩ => dat0 (V3 m ρ)
  | ⟨1, _⟩ => dat1 (V4 m ρ)
  | ⟨2, _⟩ => dat2 (V6 m ρ)
  | ⟨3, _⟩ => dat3 (V8 m ρ)
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op (List.forall_iff_forall_mem.mp hsub op h)) (List.forall_iff_forall_mem.mp hfresh) W R

/-- What is held between two segments: every buffer at the contents W. -/
abbrev stateAt (W : Dev nD → Valuation τ sig (Elt F)) (c : Dev nD) : sProp 𝕄 :=
  iprop(StableHlo.held (c : Thread nD τ) (Pipeline.ucRefs τ sig) (W c) ∗ R c)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W9 m ρ c) ∗ ∃ r, prngReg c r)

set_option backward.isDefEq.respectTransparency.types false in
/-- Region p as a segment: from the contents W to the contents after it. -/
def regionOver {p : Fin 4} (launch : Pipeline.LaunchFacts (nD := nD) (τ := τ) cfgs p) (W : Dev nD → Valuation τ sig (Elt F))
    (hbody : ∀ c, BodyObligation (pdats m ρ p c) (defs₀ (F := F)) 𝒱₀ () Set.univ)
    (hA : ∀ c w, (pdats m ρ p c).A w = W c (Proc.devRef .tc (Pipeline.arrRef (cfgs p).spec w)))
    (hq : ∀ c w, (pdats m ρ p c).q w = fullShare) (h0 : ∀ c t, (pdats m ρ p c).owed t = 0)
    (hr : ∀ c, (pdats m ρ p c).recorded 0 = Set.univ)
    (hΦ0 : ∀ c, Pipeline.ΦA (cfgs p).spec c ⊢ (pdats m ρ p c).Φ 0)
    (hΦN : ∀ c, (pdats m ρ p c).Φ (Fin.last _) ⊢ Pipeline.ΦA (cfgs p).spec c) :
    Pipeline.RegionSeg (pcfgs (F := F)) adm (pdats m ρ) () defs₀ 𝒱₀ L lv p where
  win := launch.win.to₀
  block_pos := launch.block_pos
  stage_whole := launch.stage_whole
  K := PEmpty
  osem k := k.elim
  ho := Pipeline.OwnSemFacts.none _
  hbody c := (hbody c).loose
  hwaits := Pipeline.hwaits_of_owed_zero _ _ _ _ L lv p h0
  pre := stateAt W
  post := stateAt (exitW (pdats m ρ p) W)
  X c := iprop(∃ r, prngReg c r)
  Y c := iprop(∃ r, prngReg c r)
  Z c := Pipeline.unscopedRest (cfgs p).spec c fun b => W c b
  hentry c := by
    rw [Pipeline.ownSems0_none]
    have hsplit := Pipeline.arrays_of_unscopedBufs (p := p) (pcfgs (F := F)) adm (pdats m ρ) launch.win launch.arr_whole c
      ((pdats m ρ p c).share_full (hq c)) (fun b => W c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [h0 c, hr c]
      icases HO with ⟨%W, HO⟩; iexists W; isplitr; · ipureintro; exact fun _ _ => Or.inl trivial
      iexact HO
    isplitl [Hp]; · iexact Hp
    iexact Hrest
  hin c := by
    refine .trans ?_ (hΦ0 c)
    unfold Pipeline.ΦA
    iintro ⟨Hp, -, Hr⟩
    iframe
  hout c := by
    refine .trans (hΦN c) ?_
    rw [Pipeline.ownSems0_none]; unfold Pipeline.ΦA
    iintro ⟨Hr, Hp⟩
    iframe; iempintro
  hexit c := by
    have hjoin := Pipeline.unscopedBufs_of_arrays (p := p) (pcfgs (F := F)) adm (Ix := Unit) (Name := ℕ) (U := UR sig nD τ) (Lvl := ℕ)
      launch.win launch.arr_whole c (pdats m ρ) ((pdats m ρ p c).share_full (hq c))
      (fun b => W c b) (fun b => exitW (pdats m ρ p) W c b) ((pdats m ρ p c).arrAt · (cfgs p).N)
      (fun w => (exitW_arr _ W c launch.win.arr_inj w).symm)
      (fun b hb => Pipeline.withArrays_of_ne _ c _ _ b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [h0 c]
    icases HO with ⟨%W, -, HO⟩; iexists W; iexact HO

set_option backward.isDefEq.respectTransparency.types false in
/-- Every weakly fair execution of @main terminates with each buffer at the last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main
    [ .host (hseg hostOps0 hostOps0_sub hostOps0_fresh (W0 m ρ)),
      .host (hseg hostOps0_1 hostOps0_1_sub hostOps0_1_fresh (W1 m ρ)),
      .host (hseg hostOps0_2 hostOps0_2_sub hostOps0_2_fresh (W2 m ρ)),
      .region (regionOver m ρ launch0 (W3 m ρ) (body_obligation0 (V3 m ρ)) (fun _ _ => rfl) (fun _ _ => rfl) (fun _ _ => rfl) (fun _ => rfl) (fun _ => .rfl) fun _ => .rfl),
      .region (regionOver m ρ launch1 (W4 m ρ) (body_obligation1 (V4 m ρ)) (fun _ _ => rfl) (fun _ _ => rfl) (fun _ _ => rfl) (fun _ => rfl) (fun _ => .rfl) fun _ => .rfl),
      .host (hseg hostOps2 hostOps2_sub hostOps2_fresh (W5 m ρ)),
      .region (regionOver m ρ launch2 (W6 m ρ) (body_obligation2 (V6 m ρ)) (fun _ _ => rfl) (fun _ _ => rfl) (fun _ _ => rfl) (fun _ => rfl) (fun _ => .rfl) fun _ => .rfl),
      .host (hseg hostOps3 hostOps3_sub hostOps3_fresh (W7 m ρ)),
      .region (regionOver m ρ launch3 (W8 m ρ) (body_obligation3 (V8 m ρ)) (fun _ _ => rfl) (fun _ _ => rfl) (fun _ _ => rfl) (fun _ => rfl) (hin3 (V8 m ρ)) (hout3 (V8 m ρ))) ]
    (fun c Q => by rw [main_chain c, Pipeline.Seg.run_eq_chain]; exact .rfl)
    (by simp only [Pipeline.Seg.pipes_host, Pipeline.Seg.pipes_region, Pipeline.Seg.pipes_nil]; decide)
    (O₀ := 0) (hL := fun _ _ => rfl) (G := fun _ => BI.emp)
    (u₀ := initOf (Pipeline.cells cfgs cellOf_inj) (Pipeline.launchToks cfgs cellOf_inj))
    (hu₀ := by
      rw [BI.bigSep_emp_const]
      iintro Hu; imodintro
      isplitl [Hu]; · iapply (show (ownU _ : sProp 𝕄) ⊢ BI.own (emb₁ _) from .rfl); iexact Hu
      iempintro)
    (T₀ := stateAt (W0 m ρ)) (Tₙ := Tₙ m ρ)
    (hch := ⟨fun _ => .rfl, fun _ => .rfl, fun _ => .rfl, fun _ => .rfl, fun _ => .rfl, fun _ => .rfl, fun _ => .rfl, fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      iframe)
    (hQ := fun _ h => h)

theorem run_out : θ_run defs (onTc (τ := τ) (main (F := F))) ⟨m, fun _ => 0, ρ⟩ (fun r => ∀ c : Dev nD,
      r.2.mem ((c.tc : Thread nD τ).loc main_v51) = (dat3 (V8 m ρ) c).arrAt 5 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    have a (b : Ref sig .tc) (hu : ¬ (Proc.devRef .tc b : DevRef τ sig).isScoped) hk :
        r.2.mem ((c.tc : Thread nD τ).loc b) = m ((c.tc : Thread nD τ).loc b) := (h c _ (mem_uc b hu)).trans (W9_arg m ρ c b hk)
    ⟨(h c _ (mem_uc main_v51 (by decide))).trans (exitW_arr _ _ c launch3.win.arr_inj 5),
      a main_arg0 (by decide) (by decide), a main_arg1 (by decide) (by decide), a main_arg2 (by decide) (by decide),
      a main_arg3 (by decide) (by decide), a main_arg4 (by decide) (by decide), a main_arg5 (by decide) (by decide),
      a main_arg6 (by decide) (by decide), a main_arg7 (by decide) (by decide), a main_arg8 (by decide) (by decide)⟩) (run_all m ρ)

theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => (h c).2) (run_out m ρ)

end Cert.Kernel.Hand

end
-- ==== Proof.IdealRegion0.lean ====
import proofs.«410242_j1185410974040_3_alg».proof.Proof.Gen.KernelIdeal.Launch
import proofs.«410242_j1185410974040_3_alg».proof.Proof.Gen.KernelIdeal.Skeleton
import proofs.«410242_j1185410974040_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode
open Idealize.ShloMosaic.Pipeline (Dat BodyObligation)

variable {F : FTy → Type} [FloatOps F]

variable (V : (c : Dev nD) → (b : Ref sig .tc) → Buf (Elt F) ((c : Thread nD τ).loc b))

noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_col : Rect S5000x1 := Rect.unit (s := S5000x1) ![0, 0] S5000x1.size inb_S5000x1_S5000x1_0_0
abbrev r0_row : Rect S1x50 := Rect.unit (s := S1x50) ![0, 0] S1x50.size inb_S1x50_S1x50_0_0
abbrev r0_out : Rect S5000x50 := Rect.unit (s := S5000x50) ![0, 0] S5000x50.size inb_S5000x50_S5000x50_0_0

def out0_4 (x0 : Vec F S5000x1 .f32) (x1 : Vec F S5000x1 .f32) (x2 : Vec F S1x50 .f32) (x3 : Vec F S1x50 .f32) : Vec F S5000x50 .f32 :=
  View.canon [⟨r0_out, k0_pay1 (View.ld x0 r0_col) (View.ld x2 r0_row) (View.ld x1 r0_col) (View.ld x3 r0_row)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_4 (c : Dev nD) (t : Fin cfg0.N) : (dat0 V c).after 4 t = out0_4 (iblk0 V c 0 t) (iblk0 V c 1 t) (iblk0 V c 2 t) (iblk0 V c 3 t) := by dsimp only [dat0]

theorem before0 (c : Dev nD) (w : Fin cfg0.W) (hw : (cfg0.win w).isOut = false) (t : Fin cfg0.N) (d) : (dat0 V c).before w t d = (dat0 V c).after w t := by
  match w, hw with
  | ⟨0, _⟩, _ | ⟨1, _⟩, _ | ⟨2, _⟩, _ | ⟨3, _⟩, _ =>
    exact ((dat0 V c).before_in_eq_fetched _ rfl (fun _ => rfl) (fun _ _ _ => rfl) (fun _ => by dsimp only [dat0]; rfl) t d).trans (by dsimp only [dat0]; rfl)
  | ⟨4, _⟩, h => cases h

theorem body_obligation0 (c : Dev nD) : BodyObligation (dat0 (F := F) V c) (defs₀ (F := F)) Variants.none () Set.univ := fun t => by
  rw [bigSep_W0, bigSep_W0]
  simp only [before0 V c 0 rfl, before0 V c 1 rfl, before0 V c 2 rfl, before0 V c 3 rfl]
  rw [show (dat0 V c).Φ t.succ = (dat0 V c).Φ t.castSucc from rfl,
    show (dat0 V c).owesAt () t.succ = (dat0 V c).owesAt () t.castSucc from rfl]
  sl_whnfR [defs₀, Defs.onTc]
  simp only [cc0__rank1_kernel_eq_skeleton]; unfold cc0__rank1_kernel_skel owns
  iintro ⟨HΦ, Ho, ⟨%d0, %f0, %hf0, H0⟩, ⟨%d1, %f1, %hf1, H1⟩, ⟨%d2, %f2, %hf2, H2⟩, ⟨%d3, %f3, %hf3, H3⟩, ⟨%d4, %f4, -, H4⟩⟩
  sl_exec
  sl_step
  iframe
  isplitl [H0]; · iexists f0; iframe; ipureintro; exact hf0
  isplitl [H1]; · iexists f1; iframe; ipureintro; exact hf1
  isplitl [H2]; · iexists f2; iframe; ipureintro; exact hf2
  isplitl [H3]; · iexists f3; iframe; ipureintro; exact hf3
  iexists _; iframe; ipureintro
  dsimp only [dat0] at hf0 hf1 hf2 hf3 ⊢
  rw [← hf0, ← hf1, ← hf2, ← hf3]
  exact View.read_writes_eq_canon _ _ _ (View.cover_of_tiled _ S5000x50.size (by rfl))

end Cert.KernelIdeal.Hand

end
-- ==== Proof.IdealRegion1.lean ====
import proofs.«410242_j1185410974040_3_alg».proof.Proof.Gen.KernelIdeal.Launch
import proofs.«410242_j1185410974040_3_alg».proof.Proof.Gen.KernelIdeal.Skeleton
import proofs.«410242_j1185410974040_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode
open Idealize.ShloMosaic.Pipeline (Dat BodyObligation)

variable {F : FTy → Type} [FloatOps F]

variable (V : (c : Dev nD) → (b : Ref sig .tc) → Buf (Elt F) ((c : Thread nD τ).loc b))

noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_S10000x50 : Rect S10000x50 := Rect.unit (s := S10000x50) ![0, 0] S10000x50.size inb_S10000x50_S10000x50_0_0
abbrev r1_S50x50 : Rect S50x50 := Rect.unit (s := S50x50) ![0, 0] S50x50.size inb_S50x50_S50x50_0_0
abbrev r1_S10000x1 : Rect S10000x1 := Rect.unit (s := S10000x1) ![0, 0] S10000x1.size inb_S10000x1_S10000x1_0_0

def out1_3 (x0 : Vec F S10000x50 .f32) (x1 : Vec F S50x50 .f32) (x2 : Vec F S10000x1 .f32) : Vec F S10000x50 .f32 :=
  View.canon [⟨r1_S10000x50, k1_pay1 (View.ld x0 r1_S10000x50) (View.ld x1 r1_S50x50) (View.ld x2 r1_S10000x1)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_3 (c : Dev nD) (t : Fin cfg1.N) : (dat1 V c).after 3 t = out1_3 (iblk1 V c 0 t) (iblk1 V c 1 t) (iblk1 V c 2 t) := by dsimp only [dat1]

theorem before1 (c : Dev nD) (w : Fin cfg1.W) (hw : (cfg1.win w).isOut = false) (t : Fin cfg1.N) (d) : (dat1 V c).before w t d = (dat1 V c).after w t := by
  match w, hw with
  | ⟨0, _⟩, _ | ⟨1, _⟩, _ | ⟨2, _⟩, _ =>
    exact ((dat1 V c).before_in_eq_fetched _ rfl (fun _ => rfl) (fun _ _ _ => rfl) (fun _ => by dsimp only [dat1]; rfl) t d).trans (by dsimp only [dat1]; rfl)
  | ⟨3, _⟩, h => cases h

theorem body_obligation1 (c : Dev nD) : BodyObligation (dat1 (F := F) V c) (defs₀ (F := F)) Variants.none () Set.univ := fun t => by
  rw [bigSep_W1, bigSep_W1]
  simp only [before1 V c 0 rfl, before1 V c 1 rfl, before1 V c 2 rfl]
  rw [show (dat1 V c).Φ t.succ = (dat1 V c).Φ t.castSucc from rfl,
    show (dat1 V c).owesAt () t.succ = (dat1 V c).owesAt () t.castSucc from rfl]
  sl_whnfR [defs₀, Defs.onTc]
  simp only [cc1__matmul_scale_kernel_eq_skeleton]; unfold cc1__matmul_scale_kernel_skel owns
  iintro ⟨HΦ, Ho, ⟨%d0, %f0, %hf0, H0⟩, ⟨%d1, %f1, %hf1, H1⟩, ⟨%d2, %f2, %hf2, H2⟩, ⟨%d3, %f3, -, H3⟩⟩
  sl_exec
  sl_step
  iframe
  isplitl [H0]; · iexists f0; iframe; ipureintro; exact hf0
  isplitl [H1]; · iexists f1; iframe; ipureintro; exact hf1
  isplitl [H2]; · iexists f2; iframe; ipureintro; exact hf2
  iexists _; iframe; ipureintro
  dsimp only [dat1] at hf0 hf1 hf2 ⊢
  rw [← hf0, ← hf1, ← hf2]
  exact View.read_writes_eq_canon _ _ _ (View.cover_of_tiled _ S10000x50.size (by rfl))

end Cert.KernelIdeal.Hand

end
-- ==== Proof.IdealRegion2.lean ====
import proofs.«410242_j1185410974040_3_alg».proof.Proof.Gen.KernelIdeal.Launch
import proofs.«410242_j1185410974040_3_alg».proof.Proof.Gen.KernelIdeal.Skeleton
import proofs.«410242_j1185410974040_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode
open Idealize.ShloMosaic.Pipeline (Dat BodyObligation)

variable {F : FTy → Type} [FloatOps F]

variable (V : (c : Dev nD) → (b : Ref sig .tc) → Buf (Elt F) ((c : Thread nD τ).loc b))

noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_S10000x50 : Rect S10000x50 := Rect.unit (s := S10000x50) ![0, 0] S10000x50.size inb_S10000x50_S10000x50_0_0
abbrev r2_S1x50 : Rect S1x50 := Rect.unit (s := S1x50) ![0, 0] S1x50.size inb_S1x50_S1x50_0_0
abbrev r2_S10000x1 : Rect S10000x1 := Rect.unit (s := S10000x1) ![0, 0] S10000x1.size inb_S10000x1_S10000x1_0_0

def out2_3 (x0 : Vec F S10000x50 .f32) (x1 : Vec F S1x50 .f32) (x2 : Vec F S10000x1 .f32) : Vec F S10000x50 .f32 :=
  View.canon [⟨r2_S10000x50, k2_pay1 (View.ld x2 r2_S10000x1) (View.ld x0 r2_S10000x50) (View.ld x1 r2_S1x50)⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_3 (c : Dev nD) (t : Fin cfg2.N) : (dat2 V c).after 3 t = out2_3 (iblk2 V c 0 t) (iblk2 V c 1 t) (iblk2 V c 2 t) := by dsimp only [dat2]

theorem before2 (c : Dev nD) (w : Fin cfg2.W) (hw : (cfg2.win w).isOut = false) (t : Fin cfg2.N) (d) : (dat2 V c).before w t d = (dat2 V c).after w t := by
  match w, hw with
  | ⟨0, _⟩, _ | ⟨1, _⟩, _ | ⟨2, _⟩, _ =>
    exact ((dat2 V c).before_in_eq_fetched _ rfl (fun _ => rfl) (fun _ _ _ => rfl) (fun _ => by dsimp only [dat2]; rfl) t d).trans (by dsimp only [dat2]; rfl)
  | ⟨3, _⟩, h => cases h

theorem body_obligation2 (c : Dev nD) : BodyObligation (dat2 (F := F) V c) (defs₀ (F := F)) Variants.none () Set.univ := fun t => by
  rw [bigSep_W2, bigSep_W2]
  simp only [before2 V c 0 rfl, before2 V c 1 rfl, before2 V c 2 rfl]
  rw [show (dat2 V c).Φ t.succ = (dat2 V c).Φ t.castSucc from rfl,
    show (dat2 V c).owesAt () t.succ = (dat2 V c).owesAt () t.castSucc from rfl]
  sl_whnfR [defs₀, Defs.onTc]
  simp only [cc2__bias_relu_scale_kernel_eq_skeleton]; unfold cc2__bias_relu_scale_kernel_skel owns
  iintro ⟨HΦ, Ho, ⟨%d0, %f0, %hf0, H0⟩, ⟨%d1, %f1, %hf1, H1⟩, ⟨%d2, %f2, %hf2, H2⟩, ⟨%d3, %f3, -, H3⟩⟩
  sl_exec
  sl_step
  iframe
  isplitl [H0]; · iexists f0; iframe; ipureintro; exact hf0
  isplitl [H1]; · iexists f1; iframe; ipureintro; exact hf1
  isplitl [H2]; · iexists f2; iframe; ipureintro; exact hf2
  iexists _; iframe; ipureintro
  dsimp only [dat2] at hf0 hf1 hf2 ⊢
  rw [← hf0, ← hf1, ← hf2]
  exact View.read_writes_eq_canon _ _ _ (View.cover_of_tiled _ S10000x50.size (by rfl))

end Cert.KernelIdeal.Hand

end
-- ==== Proof.IdealRegion3.lean ====
import proofs.«410242_j1185410974040_3_alg».proof.Proof.Gen.KernelIdeal.Launch
import proofs.«410242_j1185410974040_3_alg».proof.Proof.Gen.KernelIdeal.Skeleton
import proofs.«410242_j1185410974040_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond3_0 (i : grid3.Coords) : Prop := (Scalar.cmpi .ne (Scalar.extui (Scalar.cmpi .eq (BitVec.ofNat 32 (i 0).val) 0#32)) 0#32) = 1#1
theorem hcond3_0 : ∀ t : Fin cfg3.N, cond3_0 (grid3.coords t) ↔ t.val = 0 :=
  (by decide +kernel : ∀ t : Fin grid3.N, cond3_0 (grid3.coords t) ↔ t.val = 0)
abbrev cond3_1 (i : grid3.Coords) : Prop := k3_cond2 i = 1#1
theorem hcond3_1 : ∀ t : Fin cfg3.N, cond3_1 (grid3.coords t) ↔ t.val = 9 :=
  (by decide +kernel : ∀ t : Fin grid3.N, cond3_1 (grid3.coords t) ↔ t.val = 9)

theorem liveAt3 : ∀ (w : Fin cfg3.W) (t : Fin cfg3.N), w.val < 5 → cfg3.idle w (grid3.coords t) = false := by decide +kernel
theorem idleAt3_5 : ∀ t : Fin cfg3.N, ¬t.val = 9 → cfg3.idle 5 (grid3.coords t) = true ∧ (cfg3.win 5).flush t = false := by decide +kernel
theorem liveAt3_5 : ∀ t : Fin cfg3.N, t.val = 9 → cfg3.idle 5 (grid3.coords t) = false := by decide +kernel

abbrev ms3_0 (t : Fin cfg3.N) : Memref sig .tc .vmem S10000x50 .f32 := win3_0.stage (cfg3.slots t 0)
abbrev ms3_1 (t : Fin cfg3.N) : Memref sig .tc .vmem S10000x1 .i32 := win3_1.stage (cfg3.slots t 1)
abbrev ms3_2 (t : Fin cfg3.N) : Memref sig .tc .vmem S128x1 .f32 := win3_2.stage (cfg3.slots t 2)
abbrev ms3_3 (t : Fin cfg3.N) : Memref sig .tc .vmem S50x2 .f32 := win3_3.stage (cfg3.slots t 3)
abbrev ms3_4 (t : Fin cfg3.N) : Memref sig .tc .vmem S1x2 .f32 := win3_4.stage (cfg3.slots t 4)
abbrev ms3_5 (t : Fin cfg3.N) : Memref sig .tc .vmem S128x2 .f32 := win3_5.stage (cfg3.slots t 5)
abbrev scM3_0 : Memref sig .tc .vmem S128x50 .f32 := Memref.whole cc3_scratch0

theorem hz3 : (![0, 0] : Fin 2 → Nat) = fun _ => 0 := funext fun a => by fin_cases a <;> rfl

-- a whole block is owned at X exactly when it holds the one contents that read X
theorem owns_unread {sh : Shape} {e : EltTy} (c : Dev nD) (m : Memref sig .tc .vmem sh e) (h : m.IsWhole) (X : sh.Idx → Elt F e) :
    (owns (c : Thread nD τ) m fullShare X : sProp 𝕄) = (m.view.loc (c : Thread nD τ) ↦[m.view.set]{fullShare} h.unread X) := by
  have h₁ : (owns (c : Thread nD τ) m fullShare X : sProp 𝕄) ⊢ (m.view.loc (c : Thread nD τ) ↦[m.view.set]{fullShare} h.unread X) := by
    unfold owns; iintro ⟨%g, %hg, H⟩; obtain rfl := h.eq_unread hg; iexact H
  have h₂ : (m.view.loc (c : Thread nD τ) ↦[m.view.set]{fullShare} h.unread X : sProp 𝕄) ⊢ owns (c : Thread nD τ) m fullShare X := by
    unfold owns; iintro H; iexists _; isplitr; · ipureintro; exact h.read_unread X
    iexact H
  exact BI.equiv_iff.mp ⟨h₁, h₂⟩

section
variable (c : Dev nD) (i : grid3.Coords)
    (arg1 : Memref sig .tc .vmem S10000x50 .f32) (harg1 : arg1.IsWhole) (arg2 : Memref sig .tc .vmem S10000x1 .i32) (harg2 : arg2.IsWhole)
    (arg3 : Memref sig .tc .vmem S128x1 .f32) (harg3 : arg3.IsWhole) (arg4 : Memref sig .tc .vmem S50x2 .f32) (harg4 : arg4.IsWhole)
    (arg5 : Memref sig .tc .vmem S1x2 .f32) (harg5 : arg5.IsWhole) (arg6 : Memref sig .tc .vmem S128x2 .f32) (harg6 : arg6.IsWhole)
    (arg7 : Memref sig .tc .vmem S128x50 .f32) (harg7 : arg7.IsWhole)
    (x0 : Vec F S10000x50 .f32) (x1 : Vec F S10000x1 .i32) (x2 : Vec F S128x1 .f32) (x3 : Vec F S50x2 .f32) (x4 : Vec F S1x2 .f32) (xs0 : Vec F S128x50 .f32)

-- the body's triple: the inputs pass through, the result's block ends as Q5 says, the carried block with the writes LS0
def Run3 (Q5 : Vec F S128x2 .f32 → sProp 𝕄) (LS0 : List (View.Piece (Elt F) S128x50 .f32)) : Prop :=
  ∀ (xi5 : Vec F S128x2 .f32) (E : Set ℕ) (K : PUnit → sProp 𝕄),
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare xi5
        ∗ owns (c : Thread nD τ) arg7 fullShare xs0
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ Q5 xi5
            ∗ (∃ f, arg7.view.loc (c : Thread nD τ) ↦[arg7.view.set]{fullShare} arg7.view.writes (Elt F) f LS0)) -∗ K ⟨⟩))
      ⊢ wp frame (wpE (defs₀ (F := F)) Variants.none c none) E (cc3__pool_classify_kernel i arg1 harg1 arg2 harg2 arg3 harg3 arg4 harg4 arg5 harg5 arg6 harg6 arg7 harg7) K

set_option maxHeartbeats 1000000 in
noncomputable def kernelRun3_A (hc0 : cond3_0 i) (hc1 : ¬cond3_1 i) :
    { LS0 : List (View.Piece (Elt F) S128x50 .f32) // Run3 c i arg1 harg1 arg2 harg2 arg3 harg3 arg4 harg4 arg5 harg5 arg6 harg6 arg7 harg7 x0 x1 x2 x3 x4 xs0 (owns (c : Thread nD τ) arg6 fullShare) LS0 } := by
  refine ⟨?_, fun xi5 E K => ?run⟩
  case run =>
    simp only [cc3__pool_classify_kernel_eq_skeleton]; unfold cc3__pool_classify_kernel_skel
    rw [owns_unread c arg1 harg1, owns_unread c arg2 harg2, owns_unread c arg3 harg3, owns_unread c arg4 harg4, owns_unread c arg5 harg5, owns_unread c arg6 harg6, owns_unread c arg7 harg7]
    iintro ⟨H0, H1, H2, H3, H4, H5, HS0, Hk⟩
    sl_exec (disch := first | exact hc0 | exact hc1)
    sl_step
    iapply Hk
    iframe H0 H1 H2 H3 H4 H5
    iexists _; iexact HS0

set_option maxHeartbeats 1000000 in
noncomputable def kernelRun3_B (hc0 : ¬cond3_0 i) (hc1 : ¬cond3_1 i) :
    { LS0 : List (View.Piece (Elt F) S128x50 .f32) // Run3 c i arg1 harg1 arg2 harg2 arg3 harg3 arg4 harg4 arg5 harg5 arg6 harg6 arg7 harg7 x0 x1 x2 x3 x4 xs0 (owns (c : Thread nD τ) arg6 fullShare) LS0 } := by
  refine ⟨?_, fun xi5 E K => ?run⟩
  case run =>
    simp only [cc3__pool_classify_kernel_eq_skeleton]; unfold cc3__pool_classify_kernel_skel
    rw [owns_unread c arg1 harg1, owns_unread c arg2 harg2, owns_unread c arg3 harg3, owns_unread c arg4 harg4, owns_unread c arg5 harg5, owns_unread c arg6 harg6, owns_unread c arg7 harg7]
    iintro ⟨H0, H1, H2, H3, H4, H5, HS0, Hk⟩
    sl_exec (disch := first | exact hc0 | exact hc1)
    sl_step
    iapply Hk
    iframe H0 H1 H2 H3 H4 H5
    iexists _; iexact HS0

set_option maxHeartbeats 1000000 in
noncomputable def kernelRun3_C (hc0 : ¬cond3_0 i) (hc1 : cond3_1 i) :
    Σ' (L5 : List (View.Piece (Elt F) S128x2 .f32)), { LS0 : List (View.Piece (Elt F) S128x50 .f32) //
      Run3 c i arg1 harg1 arg2 harg2 arg3 harg3 arg4 harg4 arg5 harg5 arg6 harg6 arg7 harg7 x0 x1 x2 x3 x4 xs0 (fun _ => iprop(∃ f, arg6.view.loc (c : Thread nD τ) ↦[arg6.view.set]{fullShare} arg6.view.writes (Elt F) f L5)) LS0 } := by
  refine ⟨?_, ?_, fun xi5 E K => ?run⟩
  case run =>
    simp only [cc3__pool_classify_kernel_eq_skeleton]; unfold cc3__pool_classify_kernel_skel
    rw [owns_unread c arg1 harg1, owns_unread c arg2 harg2, owns_unread c arg3 harg3, owns_unread c arg4 harg4, owns_unread c arg5 harg5, owns_unread c arg6 harg6, owns_unread c arg7 harg7]
    iintro ⟨H0, H1, H2, H3, H4, H5, HS0, Hk⟩
    sl_exec (disch := first | exact hc0 | exact hc1)
    sl_step
    iapply Hk
    iframe H0 H1 H2 H3 H4
    isplitl [H5]; · iexists _; iexact H5
    iexists _; iexact HS0

-- the zero block is written over everything and read back; the sum over it, written last, again covers everything
theorem left3_A (hc0 : cond3_0 i) (hc1 : ¬cond3_1 i) (f) :
    arg7.view.read (Elt F) (arg7.view.writes (Elt F) f (kernelRun3_A c i arg1 harg1 arg2 harg2 arg3 harg3 arg4 harg4 arg5 harg5 arg6 harg6 arg7 harg7 x0 x1 x2 x3 x4 xs0 hc0 hc1).1) = k3_pay2 x1 (k3_pay1 (F := F)) x0 := by
  refine (View.read_writes_eq_canon _ _ _ (View.cover_of_tiledL _ S128x50.size ?_)).trans ?_
  · sl_kernel_rfl
  unfold kernelRun3_A
  dsimp only
  sl_unfold_words
  rw [View.canon_cons_unit_zero (S := S128x50) hz3, View.readCov_unit_zero (S := S128x50) _ hz3]
  simp only [View.readAt_eq_ld, harg1.read_unread, harg2.read_unread, View.ld_unit_zero (S := S10000x1) hz3, View.ld_unit_zero (S := S10000x50) hz3]

-- one write, of the block's partial sum over what was found, covers everything
theorem left3_B (hc0 : ¬cond3_0 i) (hc1 : ¬cond3_1 i) (f) :
    arg7.view.read (Elt F) (arg7.view.writes (Elt F) f (kernelRun3_B c i arg1 harg1 arg2 harg2 arg3 harg3 arg4 harg4 arg5 harg5 arg6 harg6 arg7 harg7 x0 x1 x2 x3 x4 xs0 hc0 hc1).1) = k3_pay2 x1 xs0 x0 := by
  refine (View.read_writes_eq_canon _ _ _ (View.cover_of_tiledL _ S128x50.size ?_)).trans ?_
  · sl_kernel_rfl
  unfold kernelRun3_B
  dsimp only
  sl_unfold_words
  rw [View.canon_unit_zero (S := S128x50) hz3]
  simp only [View.readAt_eq_ld, harg1.read_unread, harg2.read_unread, harg7.read_unread, View.ld_unit_zero (S := S10000x1) hz3, View.ld_unit_zero (S := S128x50) hz3, View.ld_unit_zero (S := S10000x50) hz3]

theorem left3_C (hc0 : ¬cond3_0 i) (hc1 : cond3_1 i) (f) :
    arg7.view.read (Elt F) (arg7.view.writes (Elt F) f (kernelRun3_C c i arg1 harg1 arg2 harg2 arg3 harg3 arg4 harg4 arg5 harg5 arg6 harg6 arg7 harg7 x0 x1 x2 x3 x4 xs0 hc0 hc1).2.1) = k3_pay2 x1 xs0 x0 := by
  refine (View.read_writes_eq_canon _ _ _ (View.cover_of_tiledL _ S128x50.size ?_)).trans ?_
  · sl_kernel_rfl
  unfold kernelRun3_C
  dsimp only
  sl_unfold_words
  rw [View.canon_unit_zero (S := S128x50) hz3]
  simp only [View.readAt_eq_ld, harg1.read_unread, harg2.read_unread, harg7.read_unread, View.ld_unit_zero (S := S10000x1) hz3, View.ld_unit_zero (S := S128x50) hz3, View.ld_unit_zero (S := S10000x50) hz3]

-- the result is written once, from the final sum read back
theorem leftOut3_C (hc0 : ¬cond3_0 i) (hc1 : cond3_1 i) (f) :
    arg6.view.read (Elt F) (arg6.view.writes (Elt F) f (kernelRun3_C c i arg1 harg1 arg2 harg2 arg3 harg3 arg4 harg4 arg5 harg5 arg6 harg6 arg7 harg7 x0 x1 x2 x3 x4 xs0 hc0 hc1).1) = k3_pay3 (k3_pay2 x1 xs0 x0) x2 x3 x4 := by
  refine (View.read_writes_eq_canon _ _ _ (View.cover_of_tiledL _ S128x2.size ?_)).trans ?_
  · sl_kernel_rfl
  unfold kernelRun3_C
  dsimp only
  sl_unfold_words
  rw [View.canon_unit_zero (S := S128x2) hz3, View.readCov_unit_zero (S := S128x50) _ hz3]
  simp only [View.readAt_eq_ld, harg1.read_unread, harg2.read_unread, harg3.read_unread, harg4.read_unread, harg5.read_unread, harg7.read_unread,
    View.ld_unit_zero (S := S10000x1) hz3, View.ld_unit_zero (S := S128x50) hz3, View.ld_unit_zero (S := S10000x50) hz3,
    View.ld_unit_zero (S := S128x1) hz3, View.ld_unit_zero (S := S50x2) hz3, View.ld_unit_zero (S := S1x2) hz3]

end

-- all of the entry invariant but the carried block: it gives the invariant back for that block at anything
noncomputable def rest3 (c : Dev nD) : sProp 𝕄 := iprop((∃ d, owns (c : Thread nD τ) scM3_0 fullShare d) -∗ Pipeline.ΦA spec3 c)

theorem PhiA3_open (c : Dev nD) :
    (Pipeline.ΦA spec3 c : sProp 𝕄) ⊢ iprop(rest3 (F := F) c ∗ (∃ d, owns (c : Thread nD τ) scM3_0 fullShare d)) := by
  unfold rest3 Pipeline.ΦA; rw [scopedRest3_eq]; simp only [scM3_0, owns_whole]
  iintro ⟨⟨R1, R2, R3, R4, R5, R6, R7, R8, R9, R10, R11, R12, R13, R14, R15, R16, R17, R18, R19, R20, R21, R22, HS0⟩, Hg⟩
  isplitr [HS0]
  · iintro HS0; iframe
  · iexact HS0

variable (V : (c : Dev nD) → (b : Ref sig .tc) → Buf (Elt F) ((c : Thread nD τ).loc b))

noncomputable def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

-- one point's step: the carried sum s grows by the block's partial sum; the result is the pooled and mapped new sum
noncomputable def out3 (c : Dev nD) (t : Fin cfg3.N) (s : Vec F S128x50 .f32) : Vec F S128x2 .f32 × Vec F S128x50 .f32 :=
  (k3_pay3 (k3_pay2 (iblk3 V c 1 t) s (iblk3 V c 0 t)) (iblk3 V c 2 t) (iblk3 V c 3 t) (iblk3 V c 4 t), k3_pay2 (iblk3 V c 1 t) s (iblk3 V c 0 t))

noncomputable def outsAt3 (V : (c : Dev nD) → (b : Ref sig .tc) → Buf (Elt F) ((c : Thread nD τ).loc b)) (c : Dev nD) : (n : ℕ) → n < cfg3.N → Vec F S128x2 .f32 × Vec F S128x50 .f32
  | 0, hn => out3 V c ⟨0, hn⟩ (k3_pay1 (F := F))
  | n + 1, hn => out3 V c ⟨n + 1, hn⟩ (outsAt3 V c n (Nat.lt_of_succ_lt hn)).2

theorem outsAt3_pos (c : Dev nD) (t : Fin cfg3.N) (h0 : ¬t.val = 0) :
    outsAt3 V c t.val t.isLt = out3 V c t (outsAt3 V c (t.val - 1) (Nat.lt_of_le_of_lt (Nat.sub_le _ _) t.isLt)).2 := by
  obtain ⟨_ | n, hn⟩ := t
  exacts [absurd rfl h0, rfl]

theorem outsAt3_A_snd (c : Dev nD) (t : Fin cfg3.N) (h0 : t.val = 0) (h1 : ¬t.val = 9) :
    (outsAt3 V c t.val t.isLt).2 = k3_pay2 (iblk3 V c 1 t) (k3_pay1 (F := F)) (iblk3 V c 0 t) := by
  obtain ⟨_ | n, hn⟩ := t
  exacts [rfl, absurd h0 n.succ_ne_zero]

theorem outsAt3_B_snd (c : Dev nD) (t : Fin cfg3.N) (h0 : ¬t.val = 0) (h1 : ¬t.val = 9) :
    (outsAt3 V c t.val t.isLt).2 = k3_pay2 (iblk3 V c 1 t) (outsAt3 V c (t.val - 1) (Nat.lt_of_le_of_lt (Nat.sub_le _ _) t.isLt)).2 (iblk3 V c 0 t) :=
  congrArg Prod.snd (outsAt3_pos V c t h0)

theorem outsAt3_C_snd (c : Dev nD) (t : Fin cfg3.N) (h0 : ¬t.val = 0) (h1 : t.val = 9) :
    (outsAt3 V c t.val t.isLt).2 = k3_pay2 (iblk3 V c 1 t) (outsAt3 V c (t.val - 1) (Nat.lt_of_le_of_lt (Nat.sub_le _ _) t.isLt)).2 (iblk3 V c 0 t) :=
  congrArg Prod.snd (outsAt3_pos V c t h0)

theorem outsAt3_C_fst (c : Dev nD) (t : Fin cfg3.N) (h0 : ¬t.val = 0) (h1 : t.val = 9) :
    (outsAt3 V c t.val t.isLt).1 = k3_pay3 (k3_pay2 (iblk3 V c 1 t) (outsAt3 V c (t.val - 1) (Nat.lt_of_le_of_lt (Nat.sub_le _ _) t.isLt)).2 (iblk3 V c 0 t)) (iblk3 V c 2 t) (iblk3 V c 3 t) (iblk3 V c 4 t) :=
  congrArg Prod.fst (outsAt3_pos V c t h0)

noncomputable def PhiS3 (V : (c : Dev nD) → (b : Ref sig .tc) → Buf (Elt F) ((c : Thread nD τ).loc b)) (c : Dev nD) : (n : ℕ) → n ≤ cfg3.N → sProp 𝕄
  | 0, _ => Pipeline.ΦA spec3 c
  | n + 1, hn => iprop(rest3 (F := F) c ∗ owns (c : Thread nD τ) scM3_0 fullShare ((outsAt3 V c n hn).2))
theorem PhiS3_zero (c : Dev nD) (n : ℕ) (h : n ≤ cfg3.N) (hz : n = 0) : PhiS3 V c n h = Pipeline.ΦA spec3 c := by
  subst hz; rfl
theorem PhiS3_succ (c : Dev nD) (n : ℕ) (hn : n < cfg3.N) :
    PhiS3 V c (n + 1) hn = iprop(rest3 (F := F) c ∗ owns (c : Thread nD τ) scM3_0 fullShare ((outsAt3 V c n hn).2)) := rfl
theorem PhiS3_pos (c : Dev nD) (n : ℕ) (h : n ≤ cfg3.N) (hz : n ≠ 0) :
    PhiS3 V c n h = iprop(rest3 (F := F) c ∗ owns (c : Thread nD τ) scM3_0 fullShare ((outsAt3 V c (n - 1) (by omega)).2)) := by
  cases n with
  | zero => exact absurd rfl hz
  | succ n => rfl

noncomputable def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => (outsAt3 V c t.val t.isLt).1
  Φ t := PhiS3 V c t.val (Nat.le_of_lt_succ t.isLt)
  q _ := fullShare
  owed _ := 0
theorem A_eq3 (c : Dev nD) (w : Fin cfg3.W) : (dat3 V c).A w = V c (Pipeline.arrRef spec3 w) := by
  dsimp only [dat3]
theorem PhiS3_castSucc (c : Dev nD) (t : Fin cfg3.N) :
    (dat3 V c).Φ t.castSucc = PhiS3 V c t.val (Nat.le_of_lt t.isLt) := by
  dsimp only [dat3]; simp only [Fin.coe_castSucc]

theorem after3_5 (c : Dev nD) (t : Fin cfg3.N) : (dat3 V c).after 5 t = (outsAt3 V c t.val t.isLt).1 := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl) (fun _ => rfl) t d).trans rfl
theorem before3_1 (c : Dev nD) (t : Fin cfg3.N) (d) : (dat3 V c).before 1 t d = iblk3 V c 1 t :=
  ((dat3 V c).before_in_eq_fetched 1 rfl (fun _ => rfl) (fun _ _ _ => rfl) (fun _ => rfl) t d).trans rfl
theorem before3_2 (c : Dev nD) (t : Fin cfg3.N) (d) : (dat3 V c).before 2 t d = iblk3 V c 2 t :=
  ((dat3 V c).before_in_eq_fetched 2 rfl (fun _ => rfl) (fun _ _ _ => rfl) (fun _ => rfl) t d).trans rfl
theorem before3_3 (c : Dev nD) (t : Fin cfg3.N) (d) : (dat3 V c).before 3 t d = iblk3 V c 3 t :=
  ((dat3 V c).before_in_eq_fetched 3 rfl (fun _ => rfl) (fun _ _ _ => rfl) (fun _ => rfl) t d).trans rfl
theorem before3_4 (c : Dev nD) (t : Fin cfg3.N) (d) : (dat3 V c).before 4 t d = iblk3 V c 4 t :=
  ((dat3 V c).before_in_eq_fetched 4 rfl (fun _ => rfl) (fun _ _ _ => rfl) (fun _ => rfl) t d).trans rfl

noncomputable def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d)))
noncomputable def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t)

set_option maxHeartbeats 4800000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).owesAt () t.succ = (dat3 V c).owesAt () t.castSucc from rfl]
  rw [show (dat3 V c).Φ t.succ = PhiS3 V c (t.val + 1) t.isLt from rfl, PhiS3_succ, PhiS3_castSucc V c t]
  rw [show (dat3 V c).leavesExact 0 t = owns (c : Thread nD τ) (ms3_0 t) fullShare (iblk3 V c 0 t) from by
    unfold Dat.leavesExact; rw [liveAt3 0 t (by decide)]; rfl]
  rw [show (dat3 V c).leavesExact 1 t = owns (c : Thread nD τ) (ms3_1 t) fullShare (iblk3 V c 1 t) from by
    unfold Dat.leavesExact; rw [liveAt3 1 t (by decide)]; rfl]
  rw [show (dat3 V c).leavesExact 2 t = owns (c : Thread nD τ) (ms3_2 t) fullShare (iblk3 V c 2 t) from by
    unfold Dat.leavesExact; rw [liveAt3 2 t (by decide)]; rfl]
  rw [show (dat3 V c).leavesExact 3 t = owns (c : Thread nD τ) (ms3_3 t) fullShare (iblk3 V c 3 t) from by
    unfold Dat.leavesExact; rw [liveAt3 3 t (by decide)]; rfl]
  rw [show (dat3 V c).leavesExact 4 t = owns (c : Thread nD τ) (ms3_4 t) fullShare (iblk3 V c 4 t) from by
    unfold Dat.leavesExact; rw [liveAt3 4 t (by decide)]; rfl]
  by_cases h0 : t.val = 0
  · have h1 : ¬t.val = 9 := by omega
    rw [Dat.leavesExact_idle (dat3 V c) 5 t (idleAt3_5 t h1).1 (idleAt3_5 t h1).2, outsAt3_A_snd V c t h0 h1, PhiS3_zero V c _ _ h0]
    iintro ⟨HΦ, Ho, ⟨%d0, H0⟩, ⟨%d1, H1⟩, ⟨%d2, H2⟩, ⟨%d3, H3⟩, ⟨%d4, H4⟩, ⟨%d5, H5⟩⟩
    ihave ⟨HR, ⟨%ds, HS0⟩⟩ := (PhiA3_open (F := F) c) $$ HΦ
    iapply ((kernelRun3_A c (grid3.coords t) _ _ _ _ _ _ _ _ _ _ _ _ _ _ (iblk3 V c 0 t) (iblk3 V c 1 t) (iblk3 V c 2 t) (iblk3 V c 3 t) (iblk3 V c 4 t) _ ((hcond3_0 t).mpr h0) (fun h => h1 ((hcond3_1 t).mp h))).2 _ Set.univ _)
    iframe H0 H1 H2 H3 H4 H5 HS0
    iintro ⟨H0, H1, H2, H3, H4, H5, ⟨%es0, HS0⟩⟩
    iframe HR Ho H0 H1 H2 H3 H4
    isplitl [HS0]
    · unfold owns; iexists _; isplitr
      swap; · iexact HS0
      ipureintro; exact left3_A ..
    iexists _; iexact H5
  · rw [PhiS3_pos V c _ _ h0]
    by_cases h1 : t.val = 9
    · rw [show (dat3 V c).leavesExact 5 t = owns (c : Thread nD τ) (ms3_5 t) fullShare ((dat3 V c).after 5 t) from by
        unfold Dat.leavesExact; rw [liveAt3_5 t h1], after3_5, outsAt3_C_fst V c t h0 h1, outsAt3_C_snd V c t h0 h1]
      iintro ⟨⟨HR, HS0⟩, Ho, ⟨%d0, H0⟩, ⟨%d1, H1⟩, ⟨%d2, H2⟩, ⟨%d3, H3⟩, ⟨%d4, H4⟩, ⟨%d5, H5⟩⟩
      iapply ((kernelRun3_C c (grid3.coords t) _ _ _ _ _ _ _ _ _ _ _ _ _ _ (iblk3 V c 0 t) (iblk3 V c 1 t) (iblk3 V c 2 t) (iblk3 V c 3 t) (iblk3 V c 4 t) _ (fun h => h0 ((hcond3_0 t).mp h)) ((hcond3_1 t).mpr h1)).2.2 _ Set.univ _)
      iframe H0 H1 H2 H3 H4 H5 HS0
      iintro ⟨H0, H1, H2, H3, H4, ⟨%e5, H5⟩, ⟨%es0, HS0⟩⟩
      iframe HR Ho H0 H1 H2 H3 H4
      isplitl [HS0]
      · unfold owns; iexists _; isplitr
        swap; · iexact HS0
        ipureintro; exact left3_C ..
      unfold owns; iexists _; isplitr
      swap; · iexact H5
      ipureintro; exact leftOut3_C ..
    · rw [Dat.leavesExact_idle (dat3 V c) 5 t (idleAt3_5 t h1).1 (idleAt3_5 t h1).2, outsAt3_B_snd V c t h0 h1]
      iintro ⟨⟨HR, HS0⟩, Ho, ⟨%d0, H0⟩, ⟨%d1, H1⟩, ⟨%d2, H2⟩, ⟨%d3, H3⟩, ⟨%d4, H4⟩, ⟨%d5, H5⟩⟩
      iapply ((kernelRun3_B c (grid3.coords t) _ _ _ _ _ _ _ _ _ _ _ _ _ _ (iblk3 V c 0 t) (iblk3 V c 1 t) (iblk3 V c 2 t) (iblk3 V c 3 t) (iblk3 V c 4 t) _ (fun h => h0 ((hcond3_0 t).mp h)) (fun h => h1 ((hcond3_1 t).mp h))).2 _ Set.univ _)
      iframe H0 H1 H2 H3 H4 H5 HS0
      iintro ⟨H0, H1, H2, H3, H4, H5, ⟨%es0, HS0⟩⟩
      iframe HR Ho H0 H1 H2 H3 H4
      isplitl [HS0]
      · unfold owns; iexists _; isplitr
        swap; · iexact HS0
        ipureintro; exact left3_B ..
      iexists _; iexact H5

theorem body_obligation3 (c : Dev nD) : BodyObligation (dat3 (F := F) V c) (defs₀ (F := F)) Variants.none () Set.univ := fun t => by
  rw [bigSep_W3, bigSep_W3]
  exact sound_body3 V c t
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht]; unfold rest3
  iintro ⟨HR, HS0⟩
  iapply HR
  iexists _; iexact HS0
theorem hout3 (c : Dev nD) : (dat3 V c).Φ (Fin.last cfg3.N) ⊢ Pipeline.ΦA spec3 c :=
  Phi_out3 V c _ (by rw [Fin.val_last]; have : cfg3.N = 10 := N_3; omega)

end Cert.KernelIdeal.Hand

end
-- ==== Proof.IdealRun.lean ====
import proofs.«410242_j1185410974040_3_alg».proof.Proof.IdealRegion0
import proofs.«410242_j1185410974040_3_alg».proof.Proof.IdealRegion1
import proofs.«410242_j1185410974040_3_alg».proof.Proof.IdealRegion2
import proofs.«410242_j1185410974040_3_alg».proof.Proof.IdealRegion3
import proofs.«410242_j1185410974040_3_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b

section
variable {cfg : Cfg sig Λ₀} (dat : (c : Dev nD) → Dat τ (Elt F) Unit ℕ (UR sig nD τ) ℕ cfg c)
  (W : Dev nD → Valuation τ sig (Elt F)) (c : Dev nD)

/-- The contents after a region: changed on the region's own arrays only. -/
abbrev exitW : Valuation τ sig (Elt F) := Pipeline.withArrays cfg.spec c (W c) fun w => (dat c).arrAt w cfg.N

variable (hinj : Function.Injective (Pipeline.arrRef cfg.spec))
include hinj

theorem exitW_arr (w : Fin cfg.W) : exitW dat W c (Proc.devRef .tc (Pipeline.arrRef cfg.spec w)) = (dat c).arrAt w cfg.N :=
  Pipeline.withArrays_arr cfg.spec hinj c _ _ w

/-- Away from the result's array a region changes nothing. -/
theorem exitW_keep (o : Fin cfg.W) (hin : ∀ w, w ≠ o → (cfg.win w).isOut = false)
    (hA : ∀ w, (dat c).A w = W c (Proc.devRef .tc (Pipeline.arrRef cfg.spec w))) (b : Ref sig .tc)
    (hb : b ≠ Pipeline.arrRef cfg.spec o) : exitW dat W c (Proc.devRef .tc b) = W c (Proc.devRef .tc b) := by
  by_cases h : ∃ w, Pipeline.arrRef cfg.spec w = b
  · obtain ⟨w, rfl⟩ := h
    exact (exitW_arr dat W c hinj w).trans (((dat c).arrAt_in w (hin w fun e => hb (e ▸ rfl)) _).trans (hA w))
  · exact Pipeline.withArrays_of_ne cfg.spec c _ _ b fun w e => h ⟨w, e⟩
end

def W4 (c : Dev nD) : Valuation τ sig (Elt F) := exitW (dat0 (V3 m ρ)) (W3 m ρ) c
abbrev V4 : (c : Dev nD) → (b : Ref sig .tc) → Buf (Elt F) ((c : Thread nD τ).loc b) := fun c b => W4 m ρ c b
def W5 (c : Dev nD) : Valuation τ sig (Elt F) := exitW (dat1 (V4 m ρ)) (W4 m ρ) c
abbrev V5 : (c : Dev nD) → (b : Ref sig .tc) → Buf (Elt F) ((c : Thread nD τ).loc b) := fun c b => W5 m ρ c b
abbrev W6 : Dev nD → Valuation τ sig (Elt F) := fun c => StableHlo.after hostOps2 (W5 m ρ c)
abbrev V6 : (c : Dev nD) → (b : Ref sig .tc) → Buf (Elt F) ((c : Thread nD τ).loc b) := fun c b => W6 m ρ c b
def W7 (c : Dev nD) : Valuation τ sig (Elt F) := exitW (dat2 (V6 m ρ)) (W6 m ρ) c
abbrev W8 : Dev nD → Valuation τ sig (Elt F) := fun c => StableHlo.after hostOps3 (W7 m ρ c)
abbrev V8 : (c : Dev nD) → (b : Ref sig .tc) → Buf (Elt F) ((c : Thread nD τ).loc b) := fun c b => W8 m ρ c b
def W9 (c : Dev nD) : Valuation τ sig (Elt F) := exitW (dat3 (V8 m ρ)) (W8 m ρ) c

theorem W4_out (c : Dev nD) : W4 m ρ c (Proc.devRef .tc main_v30) = (dat0 (V3 m ρ) c).arrAt 4 cfg0.N :=
  exitW_arr _ _ c launch0.win.arr_inj 4
theorem W4_keep (c : Dev nD) (b : Ref sig .tc) (hb : b ≠ main_v30) : W4 m ρ c (Proc.devRef .tc b) = W3 m ρ c (Proc.devRef .tc b) :=
  exitW_keep _ _ c launch0.win.arr_inj 4 (by decide) (A_eq0 (V3 m ρ) c) b hb
theorem W5_out (c : Dev nD) : W5 m ρ c (Proc.devRef .tc main_v31) = (dat1 (V4 m ρ) c).arrAt 3 cfg1.N :=
  exitW_arr _ _ c launch1.win.arr_inj 3
theorem W5_keep (c : Dev nD) (b : Ref sig .tc) (hb : b ≠ main_v31) : W5 m ρ c (Proc.devRef .tc b) = W4 m ρ c (Proc.devRef .tc b) :=
  exitW_keep _ _ c launch1.win.arr_inj 3 (by decide) (A_eq1 (V4 m ρ) c) b hb
theorem W7_out (c : Dev nD) : W7 m ρ c (Proc.devRef .tc main_v43) = (dat2 (V6 m ρ) c).arrAt 3 cfg2.N :=
  exitW_arr _ _ c launch2.win.arr_inj 3
theorem W7_keep (c : Dev nD) (b : Ref sig .tc) (hb : b ≠ main_v43) : W7 m ρ c (Proc.devRef .tc b) = W6 m ρ c (Proc.devRef .tc b) :=
  exitW_keep _ _ c launch2.win.arr_inj 3 (by decide) (A_eq2 (V6 m ρ) c) b hb

theorem W1_keep (c : Dev nD) (b : Ref sig .tc) (hb : b ∉ hostOps0_W) : W1 m ρ c (Proc.devRef .tc b) = W0 m ρ c (Proc.devRef .tc b) :=
  StableHlo.after_of_writes_sub hostOps0 _ hostOps0_writes hb
theorem W2_keep (c : Dev nD) (b : Ref sig .tc) (hb : b ∉ hostOps0_1_W) : W2 m ρ c (Proc.devRef .tc b) = W1 m ρ c (Proc.devRef .tc b) :=
  StableHlo.after_of_writes_sub hostOps0_1 _ hostOps0_1_writes hb
theorem W3_keep (c : Dev nD) (b : Ref sig .tc) (hb : b ∉ hostOps0_2_W) : W3 m ρ c (Proc.devRef .tc b) = W2 m ρ c (Proc.devRef .tc b) :=
  StableHlo.after_of_writes_sub hostOps0_2 _ hostOps0_2_writes hb
theorem W6_keep (c : Dev nD) (b : Ref sig .tc) (hb : b ∉ hostOps2_W) : W6 m ρ c (Proc.devRef .tc b) = W5 m ρ c (Proc.devRef .tc b) :=
  StableHlo.after_of_writes_sub hostOps2 _ hostOps2_writes hb
theorem W8_keep (c : Dev nD) (b : Ref sig .tc) (hb : b ∉ hostOps3_W) : W8 m ρ c (Proc.devRef .tc b) = W7 m ρ c (Proc.devRef .tc b) :=
  StableHlo.after_of_writes_sub hostOps3 _ hostOps3_writes hb

/-- A reference that no host stretch writes and that is no region's result ends as launched. -/
theorem W9_arg (c : Dev nD) (b : Ref sig .tc)
    (h : b ≠ main_v51 ∧ b ∉ hostOps3_W ∧ b ≠ main_v43 ∧ b ∉ hostOps2_W ∧ b ≠ main_v31 ∧ b ≠ main_v30 ∧ b ∉ hostOps0_2_W
      ∧ b ∉ hostOps0_1_W ∧ b ∉ hostOps0_W) : W9 m ρ c (Proc.devRef .tc b) = m ((c : Thread nD τ).loc b) :=
  (exitW_keep _ _ c launch3.win.arr_inj 5 (by decide) (A_eq3 (V8 m ρ) c) b h.1).trans <| (W8_keep m ρ c b h.2.1).trans <| (W7_keep m ρ c b h.2.2.1).trans <|
  (W6_keep m ρ c b h.2.2.2.1).trans <| (W5_keep m ρ c b h.2.2.2.2.1).trans <| (W4_keep m ρ c b h.2.2.2.2.2.1).trans <|
  (W3_keep m ρ c b h.2.2.2.2.2.2.1).trans <| (W2_keep m ρ c b h.2.2.2.2.2.2.2.1).trans <| (W1_keep m ρ c b h.2.2.2.2.2.2.2.2).trans rfl

def pdats : (p : Fin 4) → (c : Dev nD) → Dat τ (Elt F) Unit ℕ (UR sig nD τ) ℕ (Pipeline.pin (pcfgs (F := F)) adm p) c
  | ⟨0, _⟩ => dat0 (V3 m ρ)
  | ⟨1, _⟩ => dat1 (V4 m ρ)
  | ⟨2, _⟩ => dat2 (V6 m ρ)
  | ⟨3, _⟩ => dat3 (V8 m ρ)
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op (List.forall_iff_forall_mem.mp hsub op h)) (List.forall_iff_forall_mem.mp hfresh) W R

/-- What is held between two segments: every buffer at the contents W. -/
abbrev stateAt (W : Dev nD → Valuation τ sig (Elt F)) (c : Dev nD) : sProp 𝕄 :=
  iprop(StableHlo.held (c : Thread nD τ) (Pipeline.ucRefs τ sig) (W c) ∗ R c)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W9 m ρ c) ∗ ∃ r, prngReg c r)

set_option backward.isDefEq.respectTransparency.types false in
/-- Region p as a segment: from the contents W to the contents after it. -/
def regionOver {p : Fin 4} (launch : Pipeline.LaunchFacts (nD := nD) (τ := τ) cfgs p) (W : Dev nD → Valuation τ sig (Elt F))
    (hbody : ∀ c, BodyObligation (pdats m ρ p c) (defs₀ (F := F)) 𝒱₀ () Set.univ)
    (hA : ∀ c w, (pdats m ρ p c).A w = W c (Proc.devRef .tc (Pipeline.arrRef (cfgs p).spec w)))
    (hq : ∀ c w, (pdats m ρ p c).q w = fullShare) (h0 : ∀ c t, (pdats m ρ p c).owed t = 0)
    (hr : ∀ c, (pdats m ρ p c).recorded 0 = Set.univ)
    (hΦ0 : ∀ c, Pipeline.ΦA (cfgs p).spec c ⊢ (pdats m ρ p c).Φ 0)
    (hΦN : ∀ c, (pdats m ρ p c).Φ (Fin.last _) ⊢ Pipeline.ΦA (cfgs p).spec c) :
    Pipeline.RegionSeg (pcfgs (F := F)) adm (pdats m ρ) () defs₀ 𝒱₀ L lv p where
  win := launch.win.to₀
  block_pos := launch.block_pos
  stage_whole := launch.stage_whole
  K := PEmpty
  osem k := k.elim
  ho := Pipeline.OwnSemFacts.none _
  hbody c := (hbody c).loose
  hwaits := Pipeline.hwaits_of_owed_zero _ _ _ _ L lv p h0
  pre := stateAt W
  post := stateAt (exitW (pdats m ρ p) W)
  X c := iprop(∃ r, prngReg c r)
  Y c := iprop(∃ r, prngReg c r)
  Z c := Pipeline.unscopedRest (cfgs p).spec c fun b => W c b
  hentry c := by
    rw [Pipeline.ownSems0_none]
    have hsplit := Pipeline.arrays_of_unscopedBufs (p := p) (pcfgs (F := F)) adm (pdats m ρ) launch.win launch.arr_whole c
      ((pdats m ρ p c).share_full (hq c)) (fun b => W c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [h0 c, hr c]
      icases HO with ⟨%W, HO⟩; iexists W; isplitr; · ipureintro; exact fun _ _ => Or.inl trivial
      iexact HO
    isplitl [Hp]; · iexact Hp
    iexact Hrest
  hin c := by
    refine .trans ?_ (hΦ0 c)
    unfold Pipeline.ΦA
    iintro ⟨Hp, -, Hr⟩
    iframe
  hout c := by
    refine .trans (hΦN c) ?_
    rw [Pipeline.ownSems0_none]; unfold Pipeline.ΦA
    iintro ⟨Hr, Hp⟩
    iframe; iempintro
  hexit c := by
    have hjoin := Pipeline.unscopedBufs_of_arrays (p := p) (pcfgs (F := F)) adm (Ix := Unit) (Name := ℕ) (U := UR sig nD τ) (Lvl := ℕ)
      launch.win launch.arr_whole c (pdats m ρ) ((pdats m ρ p c).share_full (hq c))
      (fun b => W c b) (fun b => exitW (pdats m ρ p) W c b) ((pdats m ρ p c).arrAt · (cfgs p).N)
      (fun w => (exitW_arr _ W c launch.win.arr_inj w).symm)
      (fun b hb => Pipeline.withArrays_of_ne _ c _ _ b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [h0 c]
    icases HO with ⟨%W, -, HO⟩; iexists W; iexact HO

set_option backward.isDefEq.respectTransparency.types false in
/-- Every weakly fair execution of @main terminates with each buffer at the last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main
    [ .host (hseg hostOps0 hostOps0_sub hostOps0_fresh (W0 m ρ)),
      .host (hseg hostOps0_1 hostOps0_1_sub hostOps0_1_fresh (W1 m ρ)),
      .host (hseg hostOps0_2 hostOps0_2_sub hostOps0_2_fresh (W2 m ρ)),
      .region (regionOver m ρ launch0 (W3 m ρ) (body_obligation0 (V3 m ρ)) (fun _ _ => rfl) (fun _ _ => rfl) (fun _ _ => rfl) (fun _ => rfl) (fun _ => .rfl) fun _ => .rfl),
      .region (regionOver m ρ launch1 (W4 m ρ) (body_obligation1 (V4 m ρ)) (fun _ _ => rfl) (fun _ _ => rfl) (fun _ _ => rfl) (fun _ => rfl) (fun _ => .rfl) fun _ => .rfl),
      .host (hseg hostOps2 hostOps2_sub hostOps2_fresh (W5 m ρ)),
      .region (regionOver m ρ launch2 (W6 m ρ) (body_obligation2 (V6 m ρ)) (fun _ _ => rfl) (fun _ _ => rfl) (fun _ _ => rfl) (fun _ => rfl) (fun _ => .rfl) fun _ => .rfl),
      .host (hseg hostOps3 hostOps3_sub hostOps3_fresh (W7 m ρ)),
      .region (regionOver m ρ launch3 (W8 m ρ) (body_obligation3 (V8 m ρ)) (fun _ _ => rfl) (fun _ _ => rfl) (fun _ _ => rfl) (fun _ => rfl) (hin3 (V8 m ρ)) (hout3 (V8 m ρ))) ]
    (fun c Q => by rw [main_chain c, Pipeline.Seg.run_eq_chain]; exact .rfl)
    (by simp only [Pipeline.Seg.pipes_host, Pipeline.Seg.pipes_region, Pipeline.Seg.pipes_nil]; decide)
    (O₀ := 0) (hL := fun _ _ => rfl) (G := fun _ => BI.emp)
    (u₀ := initOf (Pipeline.cells cfgs cellOf_inj) (Pipeline.launchToks cfgs cellOf_inj))
    (hu₀ := by
      rw [BI.bigSep_emp_const]
      iintro Hu; imodintro
      isplitl [Hu]; · iapply (show (ownU _ : sProp 𝕄) ⊢ BI.own (emb₁ _) from .rfl); iexact Hu
      iempintro)
    (T₀ := stateAt (W0 m ρ)) (Tₙ := Tₙ m ρ)
    (hch := ⟨fun _ => .rfl, fun _ => .rfl, fun _ => .rfl, fun _ => .rfl, fun _ => .rfl, fun _ => .rfl, fun _ => .rfl, fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      iframe)
    (hQ := fun _ h => h)

theorem run_out : θ_run defs (onTc (τ := τ) (main (F := F))) ⟨m, fun _ => 0, ρ⟩ (fun r => ∀ c : Dev nD,
      r.2.mem ((c.tc : Thread nD τ).loc main_v51) = (dat3 (V8 m ρ) c).arrAt 5 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    have a (b : Ref sig .tc) (hu : ¬ (Proc.devRef .tc b : DevRef τ sig).isScoped) hk :
        r.2.mem ((c.tc : Thread nD τ).loc b) = m ((c.tc : Thread nD τ).loc b) := (h c _ (mem_uc b hu)).trans (W9_arg m ρ c b hk)
    ⟨(h c _ (mem_uc main_v51 (by decide))).trans (exitW_arr _ _ c launch3.win.arr_inj 5),
      a main_arg0 (by decide) (by decide), a main_arg1 (by decide) (by decide), a main_arg2 (by decide) (by decide),
      a main_arg3 (by decide) (by decide), a main_arg4 (by decide) (by decide), a main_arg5 (by decide) (by decide),
      a main_arg6 (by decide) (by decide), a main_arg7 (by decide) (by decide), a main_arg8 (by decide) (by decide)⟩) (run_all m ρ)

theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => (h c).2) (run_out m ρ)

end Cert.KernelIdeal.Hand

end
-- ==== Proof.Frames.lean ====
import proofs.«410242_j1185410974040_3_alg».proof.Defs
import proofs.«410242_j1185410974040_3_alg».proof.Proof.Gen.Kernel
import proofs.«410242_j1185410974040_3_alg».proof.Proof.Gen.KernelIdeal
import proofs.«410242_j1185410974040_3_alg».proof.Proof.Gen.ReferenceIdeal
import proofs.«410242_j1185410974040_3_alg».proof.Proof.Gen.Pre_finite_inputs
import proofs.«410242_j1185410974040_3_alg».proof.Proof.BitsRun
import proofs.«410242_j1185410974040_3_alg».proof.Proof.IdealRun
import proofs.«410242_j1185410974040_3_alg».proof.Proof.RefRunPatched

noncomputable section

namespace Cert.Proof.Claims

open Idealize.ShloMosaic Idealize.SL.Sem

theorem frame_p : Cert.frame_Kernel := fun m ρ _ => Cert.Kernel.Hand.frame_all (F := Bits) m ρ

theorem frame_pi : Cert.frame_KernelIdeal := fun m ρ _ => Cert.KernelIdeal.Hand.frame_all (F := Ideal) m ρ

theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

end Cert.Proof.Claims

end
-- ==== Proof.Spec.lean ====
import Idealize.ShloMosaic.PureOps.Ideal.Laws

noncomputable section

open scoped BigOperators

namespace Cert.Gcn

open Idealize.ShloMosaic

abbrev n : ℕ := 100000
abbrev E : ℕ := 3300000
abbrev G : ℕ := 128

variable (dst : Fin E → ℤ) (src : Fin E → Fin n) (dstg : Fin E → Fin n) (grp : Fin n → ℤ)
variable (x : Fin n → EReal) (dinv : Fin n → EReal) (W1 b1 : Fin 50 → EReal) (W2 : Fin 50 → Fin 50 → EReal)
  (b2 : Fin 50 → EReal) (Wc : Fin 50 → Fin 2 → EReal) (bc : Fin 2 → EReal) (cnt : Fin G → EReal)

def kT (v : Fin n) : EReal := 0 + ∑ e : Fin E, if dst e = (v.val : ℤ) then x (src e) * dinv (src e) else 0
def kH1 (v : Fin n) (f : Fin 50) : EReal := max (dinv v * (kT dst src x dinv v * W1 f) + b1 f) 0
def kP (u : Fin n) (f : Fin 50) : EReal := (∑ k : Fin 50, kH1 dst src x dinv W1 b1 u k * W2 k f) * dinv u
def kS2 (v : Fin n) (f : Fin 50) : EReal := 0 + ∑ e : Fin E, if dst e = (v.val : ℤ) then kP dst src x dinv W1 b1 W2 (src e) f else 0
def kH2 (v : Fin n) (f : Fin 50) : EReal := max (dinv v * kS2 dst src x dinv W1 b1 W2 v f + b2 f) 0

def rH (u : Fin n) (f : Fin 50) : EReal := ∑ _k : Fin 1, x u * W1 f
def rNorm (e : Fin E) : EReal := dinv (src e) * dinv (dstg e)
def rO1 (v : Fin n) (f : Fin 50) : EReal := 0 + ∑ e : Fin E, if dst e = (v.val : ℤ) then rH x W1 (src e) f * rNorm src dstg dinv e else 0
def rH1 (v : Fin n) (f : Fin 50) : EReal := max (rO1 dst src dstg x dinv W1 v f + b1 f) 0
def rHp (u : Fin n) (f : Fin 50) : EReal := ∑ k : Fin 50, rH1 dst src dstg x dinv W1 b1 u k * W2 k f
def rO2 (v : Fin n) (f : Fin 50) : EReal := 0 + ∑ e : Fin E, if dst e = (v.val : ℤ) then rHp dst src dstg x dinv W1 b1 W2 (src e) f * rNorm src dstg dinv e else 0
def rH2 (v : Fin n) (f : Fin 50) : EReal := max (rO2 dst src dstg x dinv W1 b1 W2 v f + b2 f) 0

def pool (h : Fin n → Fin 50 → EReal) (g : Fin G) (f : Fin 50) : EReal := 0 + ∑ v : Fin n, if grp v = (g.val : ℤ) then h v f else 0
def head (h : Fin n → Fin 50 → EReal) (g : Fin G) (l : Fin 2) : EReal :=
  (∑ k : Fin 50, Ideal.div (pool grp h g k) (max (cnt g) 1) * Wc k l) + bc l

theorem coe_max_zero (a : ℝ) : max (a : EReal) 0 = ((max a 0 : ℝ) : EReal) := by
  rw [EReal.coe_strictMono.monotone.map_max, EReal.coe_zero]

theorem coe_sum {ι : Type*} (s : Finset ι) (g : ι → ℝ) :
    (∑ i ∈ s, ((g i : ℝ) : EReal)) = ((∑ i ∈ s, g i : ℝ) : EReal) := by
  classical
  induction s using Finset.induction_on with
  | empty => simp
  | insert a s ha ih => rw [Finset.sum_insert ha, Finset.sum_insert ha, ih, EReal.coe_add]

theorem zero_add_sum_ite {ι : Type*} [Fintype ι] (p : ι → Prop) [DecidablePred p] (g : ι → ℝ) :
    (0 : EReal) + ∑ i, (if p i then ((g i : ℝ) : EReal) else 0)
      = ((∑ i, (if p i then g i else 0) : ℝ) : EReal) := by
  rw [zero_add, ← coe_sum]
  refine Finset.sum_congr rfl fun i _ => ?_
  split_ifs <;> simp

theorem sum_mul_coe {κ : Type*} [Fintype κ] (q w : κ → ℝ) :
    ∑ k, (q k : EReal) * (w k : EReal) = ((∑ k, q k * w k : ℝ) : EReal) := by
  rw [← coe_sum]
  refine Finset.sum_congr rfl fun k _ => ?_
  rw [EReal.coe_mul]

theorem scale_first {ι : Type*} [Fintype ι] (p : ι → Prop) [DecidablePred p] (a b d : ι → ℝ) (c w : ℝ)
    (hd : ∀ i, p i → d i = c) :
    (c : EReal) * (((0 : EReal) + ∑ i, if p i then (a i : EReal) * (b i : EReal) else 0) * (w : EReal))
      = 0 + ∑ i, if p i then
          (∑ _k : Fin 1, (a i : EReal) * (w : EReal)) * ((b i : EReal) * (d i : EReal)) else 0 := by
  simp only [Fin.sum_univ_one, ← EReal.coe_mul]
  rw [zero_add_sum_ite, zero_add_sum_ite, ← EReal.coe_mul, ← EReal.coe_mul]
  congr 1
  rw [Finset.sum_mul, Finset.mul_sum]
  refine Finset.sum_congr rfl fun i _ => ?_
  split_ifs with h
  · rw [hd i h]; ring
  · ring

theorem scale_second {ι : Type*} [Fintype ι] (p : ι → Prop) [DecidablePred p] (m b d : ι → ℝ) (c : ℝ)
    (hd : ∀ i, p i → d i = c) :
    (c : EReal) * ((0 : EReal) + ∑ i, if p i then (m i : EReal) * (b i : EReal) else 0)
      = 0 + ∑ i, if p i then (m i : EReal) * ((b i : EReal) * (d i : EReal)) else 0 := by
  simp only [← EReal.coe_mul]
  rw [zero_add_sum_ite, zero_add_sum_ite, ← EReal.coe_mul]
  congr 1
  rw [Finset.mul_sum]
  refine Finset.sum_congr rfl fun i _ => ?_
  split_ifs with h
  · rw [hd i h]; ring
  · ring

theorem kH1_eq_rH1_of_real
    (hdstg : ∀ (e : Fin E) (v : Fin n), dst e = (v.val : ℤ) → dstg e = v)
    (xr dr : Fin n → ℝ) (w1 : Fin 50 → ℝ) (b : Fin 50 → EReal) :
    kH1 dst src (fun u => (xr u : EReal)) (fun u => (dr u : EReal)) (fun f => (w1 f : EReal)) b
      = rH1 dst src dstg (fun u => (xr u : EReal)) (fun u => (dr u : EReal)) (fun f => (w1 f : EReal)) b := by
  funext v f
  simp only [kH1, rH1, kT, rO1, rH, rNorm]
  rw [scale_first (fun e => dst e = (v.val : ℤ)) (fun e => xr (src e)) (fun e => dr (src e))
    (fun e => dr (dstg e)) (dr v) (w1 f) (fun e h => by rw [hdstg e v h])]

theorem kH1_real (xr dr : Fin n → ℝ) (w1 b1r : Fin 50 → ℝ) :
    ∃ h : Fin n → Fin 50 → ℝ,
      kH1 dst src (fun u => (xr u : EReal)) (fun u => (dr u : EReal)) (fun f => (w1 f : EReal))
        (fun f => (b1r f : EReal)) = fun u k => (h u k : EReal) := by
  refine ⟨fun u k => max (dr u * ((∑ e : Fin E, if dst e = (u.val : ℤ) then xr (src e) * dr (src e) else 0)
    * w1 k) + b1r k) 0, ?_⟩
  funext u k
  simp only [kH1, kT, ← EReal.coe_mul]
  rw [zero_add_sum_ite]
  simp only [← EReal.coe_mul, ← EReal.coe_add, coe_max_zero]

theorem kH2_eq_rH2
    (hdstg : ∀ (e : Fin E) (v : Fin n), dst e = (v.val : ℤ) → dstg e = v)
    (hx : ∀ u, ∃ r : ℝ, x u = (r : EReal)) (hd : ∀ u, ∃ r : ℝ, dinv u = (r : EReal))
    (hW1 : ∀ f, ∃ r : ℝ, W1 f = (r : EReal)) (hb1 : ∀ f, ∃ r : ℝ, b1 f = (r : EReal))
    (hW2 : ∀ k f, ∃ r : ℝ, W2 k f = (r : EReal)) :
    kH2 dst src x dinv W1 b1 W2 b2 = rH2 dst src dstg x dinv W1 b1 W2 b2 := by
  choose xr hx using hx
  obtain rfl := funext hx
  choose dr hd using hd
  obtain rfl := funext hd
  choose w1 hW1 using hW1
  obtain rfl := funext hW1
  choose b1r hb1 using hb1
  obtain rfl := funext hb1
  choose w2 hW2 using hW2
  obtain rfl : W2 = _ := funext fun k => funext (hW2 k)
  have h1 := kH1_eq_rH1_of_real dst src dstg hdstg xr dr w1 (fun f => (b1r f : EReal))
  obtain ⟨h, hh⟩ := kH1_real dst src xr dr w1 b1r
  funext v f

  simp only [kH2, rH2, kS2, rO2, kP, rHp, rNorm, ← h1, hh, sum_mul_coe]

  rw [scale_second (fun e => dst e = (v.val : ℤ)) (fun e => ∑ k, h (src e) k * w2 k f) (fun e => dr (src e))
    (fun e => dr (dstg e)) (dr v) (fun e hp => by rw [hdstg e v hp])]

end Cert.Gcn

end
-- ==== Proof.Glue.lean ====
import proofs.«410242_j1185410974040_3_alg».proof.Proof.Spec
import Idealize.ShloMosaic.Lib.ValueIdx
import Idealize.ShloMosaic.Lib.ValueIdxRank1

noncomputable section

namespace Cert.Gcn

open Idealize.ShloMosaic Idealize.ShloMosaic.ValueIdx

def normW (w : BitVec 32) : BitVec 32 := Scalar.select (IntOp.cmpi .slt w 0#32) (IntOp.addi w 100000#32) w

def posOf (w : BitVec 32) : Fin n :=
  ⟨min (normW w).toInt.toNat (n - 1), Nat.lt_of_le_of_lt (Nat.min_le_right _ _) (by decide)⟩

def dstOf (dstf : IVec ⟨1, ![3300000]⟩ 32) (e : Fin E) : ℤ := (dstf (ix1 e)).toInt
def srcOf (srcf : IVec ⟨1, ![3300000]⟩ 32) (e : Fin E) : Fin n := posOf (srcf (ix1 e))
def dstgOf (dstf : IVec ⟨1, ![3300000]⟩ 32) (e : Fin E) : Fin n := posOf (dstf (ix1 e))
def grpOf (batch : IVec ⟨1, ![100000]⟩ 32) (v : Fin n) : ℤ := (batch (ix1 v)).toInt

def colOf {k : Nat} (a : FVec Ideal ⟨2, ![k, 1]⟩ .f32) (u : Fin k) : EReal := a (ix2 u (0 : Fin 1))
def vecOf {k : Nat} (a : FVec Ideal ⟨1, ![k]⟩ .f32) (u : Fin k) : EReal := a (ix1 u)
def rowOf {k : Nat} (a : FVec Ideal ⟨2, ![1, k]⟩ .f32) (f : Fin k) : EReal := a (ix2 (0 : Fin 1) f)
def matOf {p q : Nat} (a : FVec Ideal ⟨2, ![p, q]⟩ .f32) (i : Fin p) (j : Fin q) : EReal := a (ix2 i j)

end Cert.Gcn

end
-- ==== Proof.LibSumSplit.lean ====
import Mathlib.Algebra.BigOperators.Fin
import Mathlib.Logic.Equiv.Fin.Basic

open scoped BigOperators

namespace Cert.SumSplit

theorem lt_of_run {a b N : ℕ} (h : a * b = N) (t : Fin a) (q : Fin b) : b * t.val + q.val < N := by
  have ht := t.isLt
  have hq := q.isLt
  calc b * t.val + q.val < b * t.val + b := by omega
    _ = b * (t.val + 1) := (Nat.mul_succ b t.val).symm
    _ ≤ b * a := Nat.mul_le_mul_left _ ht
    _ = N := by rw [Nat.mul_comm, h]

theorem sum_split {M : Type*} [AddCommMonoid M] (a b N : ℕ) (h : a * b = N) (f : Fin N → M) :
    ∑ n, f n = ∑ t : Fin a, ∑ q : Fin b, f ⟨b * t.val + q.val, lt_of_run h t q⟩ := by
  subst h
  rw [← Fintype.sum_prod_type']
  symm
  refine Fintype.sum_equiv finProdFinEquiv _ _ ?_
  rintro ⟨t, q⟩
  refine congrArg f (Fin.ext ?_)
  simp [finProdFinEquiv, Nat.add_comm]

end Cert.SumSplit
-- ==== Proof.IdealPoolMath.lean ====
import proofs.«410242_j1185410974040_3_alg».proof.Proof.Gen.KernelIdeal.Skeleton
import proofs.«410242_j1185410974040_3_alg».proof.Proof.Glue
import proofs.«410242_j1185410974040_3_alg».proof.Proof.LibSumSplit
import Idealize.ShloMosaic.Lib.ValueLayout
import Idealize.ShloMosaic.Lib.IdealHost
import Idealize.ShloMosaic.Lib.DynamicIndex

noncomputable section

namespace Cert.KernelIdeal.HandValue

open Cert.KernelIdeal Cert.KernelIdeal.Gen Cert.Gcn
open Idealize.ShloMosaic Idealize.ShloMosaic.ValueIdx
open scoped BigOperators

theorem k3_pay1_apply (g : Fin 128) (f : Fin 50) : k3_pay1 (F := Ideal) (ix2 g f) = 0 := by
  unfold k3_pay1
  simp only [shapeCast_self, broadcast_apply]
  exact Ideal.ofBits_zero_f32

theorem onehot_entry (g : Fin 128) (w : BitVec 32) :
    FloatOps.sitofp (F := Ideal) .f32 ((IntOp.cmpi .eq (BitVec.ofNat 32 g.val) w).setWidth 32) = if w.toInt = (g.val : ℤ) then (1 : EReal) else 0 := by
  simp only [← toInt_ofNat_of_lt (g.isLt.trans (by decide)), BitVec.toInt_inj]
  show (((BitVec.setWidth 32 (BitVec.ofBool (BitVec.ofNat 32 g.val == w))).toInt : ℝ) : EReal) = _
  by_cases h : w = BitVec.ofNat 32 g.val
  · subst h; simp
  · rw [if_neg h, beq_eq_false_iff_ne.2 (Ne.symm h)]; simp

/-- A column broadcast along the rows reads, at `(p, c)`, the column's entry of row `p`. -/
theorem col_bcast_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) :=
  broadcastTo_apply v h (ix2 p c) (ix2 p (0 : Fin 1)) fun ax => match ax with
    | ⟨0, _⟩ => by
      show p.val = if a = 1 then 0 else p.val
      split
      · have := p.isLt; omega
      · rfl
    | ⟨1, _⟩ => rfl

theorem onehot_apply (xb : Vec Ideal S10000x1 .i32) (r : Fin 10000) (g : Fin 128) :
    (sitofp (F := Ideal) .f32 (extui 32 (cmpi .eq (iota .tc S10000x128 32 [1] iota_S10000x128_d1_w32)
        (broadcastTo S10000x128 xb broadcasts_S10000x1_S10000x128)) natLt_1_32) : FVec Ideal S10000x128 .f32) (ix2 r g)
      = if (xb (ix2 r (0 : Fin 1))).toInt = (g.val : ℤ) then (1 : EReal) else 0 := by
  show FloatOps.sitofp (F := Ideal) .f32 ((IntOp.cmpi .eq (iota .tc S10000x128 32 [1] iota_S10000x128_d1_w32 (ix2 r g))
      (broadcastTo S10000x128 xb broadcasts_S10000x1_S10000x128 (ix2 r g))).setWidth 32) = _
  rw [col_bcast_apply, iota_single_apply]
  exact onehot_entry g _

/-- A product with one contracted axis into the zero splat, at an index: the sum over that axis's coordinate. -/
theorem matmul1_apply {sl sr so : Shape} (D : DotDims sl sr so) (n : ℕ) (hr : D.contr.rank = 1) (hs : D.contr.size ⟨0, by omega⟩ = n)
    (L : FVec Ideal sl .f32) (R : FVec Ideal sr .f32) (j : so.Idx) (li : Fin n → sl.Idx) (ri : Fin n → sr.Idx)
    (hl : ∀ k, D.lhsIdx j ((contrEquiv1 D n hr hs).symm k) = li k) (hri : ∀ k, D.rhsIdx j ((contrEquiv1 D n hr hs).symm k) = ri k) :
    matmul D none L R (constant (F := Ideal) so .f32 0x00000000#32) j = ∑ k, L (li k) * R (ri k) := by
  simp only [matmul]
  rw [Ideal.matmul_constant_zero_apply, ← Equiv.sum_comp (contrEquiv1 D n hr hs).symm]
  exact Finset.sum_congr rfl fun k _ => by rw [hl, hri]

/-- Ten carried tiles: from `0 + tile 0`, adding the next tile at each step, the last state is `0 + ∑ tile`. -/
theorem carried_sum (tile : Fin 10 → EReal) (S : ℕ → EReal) (h0 : S 0 = 0 + tile 0)
    (hs : ∀ k (h : k + 1 < 10), S (k + 1) = S k + tile ⟨k + 1, h⟩) : S 9 = 0 + ∑ t, tile t := by
  have key : ∀ k, k < 10 → S k = 0 + ∑ j ∈ Finset.range (k + 1), if h : j < 10 then tile ⟨j, h⟩ else 0 := by
    intro k
    induction k with
    | zero => intro _; rw [h0]; simp
    | succ k ih => intro hk; rw [hs k hk, ih (by omega), Finset.sum_range_succ _ (k + 1), add_assoc, dif_pos hk]
  rw [key 9 (by decide), Finset.sum_range]
  exact congrArg (0 + ·) (Finset.sum_congr rfl fun t _ => dif_pos t.isLt)

def rowAt (t : Fin 10) (r : Fin 10000) : Fin n := ⟨10000 * t.val + r.val, by show _ < 100000; omega⟩

def tileOf (grp : Fin n → ℤ) (h : Fin n → Fin 50 → EReal) (g : Fin G) (f : Fin 50) (t : Fin 10) : EReal :=
  ∑ r : Fin 10000, if grp (rowAt t r) = (g.val : ℤ) then h (rowAt t r) f else 0

theorem pay3_head (grp : Fin n → ℤ) (h : Fin n → Fin 50 → EReal) (acc : Vec Ideal S128x50 .f32) (cc : Vec Ideal S128x1 .f32)
    (wc : Vec Ideal S50x2 .f32) (br : Vec Ideal S1x2 .f32) (hacc : ∀ (g : Fin 128) (k : Fin 50), acc (ix2 g k) = Cert.Gcn.pool grp h g k)
    (g : Fin 128) (l : Fin 2) :
    k3_pay3 (F := Ideal) acc cc wc br (ix2 g l) = Cert.Gcn.head grp (matOf wc) (rowOf br) (colOf cc) h g l := by
  unfold k3_pay3 Cert.Gcn.head matOf rowOf colOf
  simp only [shapeCast_self]
  rw [addf_apply, matmul1_apply _ 50 rfl rfl _ _ _ (ix2 g) (ix2 · l) (fun _ => (eq_ix2 _).trans rfl) fun _ => (eq_ix2 _).trans rfl,
    broadcastTo_1b_ab_apply]
  refine congrArg (· + br (ix2 (0 : Fin 1) l)) (Finset.sum_congr rfl fun k _ => ?_)
  rw [divf_apply, col_bcast_apply, maximumf_apply, broadcast_apply, hacc g k,
    show Scalar.ofBits (F := Ideal) .f32 0x3F800000#32 = 1 from Ideal.ofBits_one_f32]

theorem pay2_tile (grp : Fin n → ℤ) (h : Fin n → Fin 50 → EReal) (t : Fin 10)
    (xb : Vec Ideal S10000x1 .i32) (xs : Vec Ideal S128x50 .f32) (x1 : Vec Ideal S10000x50 .f32)
    (hxb : ∀ r : Fin 10000, (xb (ix2 r (0 : Fin 1))).toInt = grp (rowAt t r))
    (hx1 : ∀ (r : Fin 10000) (f : Fin 50), x1 (ix2 r f) = h (rowAt t r) f) (g : Fin 128) (f : Fin 50) :
    k3_pay2 (F := Ideal) xb xs x1 (ix2 g f) = xs (ix2 g f) + tileOf grp h g f t := by
  unfold k3_pay2 tileOf
  simp only [shapeCast_self]
  rw [addf_apply, matmul1_apply _ 10000 rfl rfl _ _ _ (ix2 · g) (ix2 · f) (fun _ => (eq_ix2 _).trans rfl) fun _ => (eq_ix2 _).trans rfl]
  refine congrArg (xs (ix2 g f) + ·) (Finset.sum_congr rfl fun r _ => ?_)
  rw [onehot_apply, hxb r, hx1 r f, ite_mul, one_mul, zero_mul]

theorem carried_nine (grp : Fin n → ℤ) (h : Fin n → Fin 50 → EReal)
    (xb : Fin 10 → Vec Ideal S10000x1 .i32) (x1 : Fin 10 → Vec Ideal S10000x50 .f32) (S : ℕ → Vec Ideal S128x50 .f32)
    (hxb : ∀ (t : Fin 10) (r : Fin 10000), (xb t (ix2 r (0 : Fin 1))).toInt = grp (rowAt t r))
    (hx1 : ∀ (t : Fin 10) (r : Fin 10000) (f : Fin 50), x1 t (ix2 r f) = h (rowAt t r) f)
    (h0 : S 0 = k3_pay2 (F := Ideal) (xb 0) (k3_pay1 (F := Ideal)) (x1 0))
    (hs : ∀ k (hk : k + 1 < 10), S (k + 1) = k3_pay2 (F := Ideal) (xb ⟨k + 1, hk⟩) (S k) (x1 ⟨k + 1, hk⟩))
    (g : Fin 128) (f : Fin 50) : S 9 (ix2 g f) = Cert.Gcn.pool grp h g f := by
  refine (carried_sum (tileOf grp h g f) (fun k => S k (ix2 g f)) ?_ fun k hk => ?_).trans
    (congrArg (0 + ·) (Cert.SumSplit.sum_split 10 10000 100000 rfl fun v => if grp v = (g.val : ℤ) then h v f else 0).symm)
  · show S 0 (ix2 g f) = _
    rw [h0, pay2_tile grp h 0 _ _ _ (hxb 0) (hx1 0), k3_pay1_apply]
  · show S (k + 1) (ix2 g f) = _
    rw [hs k hk, pay2_tile grp h ⟨k + 1, hk⟩ _ _ _ (hxb _) (hx1 _)]

end Cert.KernelIdeal.HandValue

end
-- ==== Proof.IdealVal3.lean ====
import proofs.«410242_j1185410974040_3_alg».proof.Proof.IdealRegion3
import proofs.«410242_j1185410974040_3_alg».proof.Proof.IdealPoolMath
import proofs.«410242_j1185410974040_3_alg».proof.Proof.Glue
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.KernelIdeal.Hand Cert.Gcn
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0 :=
  (by decide +kernel : ∀ t : Fin grid3.N, _)

/-- Block t of the rows starts at row 10000·t of the array. -/
theorem iblk3_0_apply (c : Dev nD) (t : Fin cfg3.N) (r : Fin 10000) (f : Fin 50) (v : Fin 100000) (hv : v.val = 10000 * t.val + r.val) :
    (iblk3 V c 0 t : Vec Ideal S10000x50 .f32) (ix2 r f) = matOf (p := 100000) (q := 50) (V c main_v43) v f := by
  have I := idx_facts3 t
  exact congrArg (V c main_v43) (Shape.idx_ext₂ (by show win3_0.index t (0 : Fin 2) * 10000 + 1 * r.val = v.val; omega)
    (by show win3_0.index t (1 : Fin 2) * 50 + 1 * f.val = f.val; omega))

theorem iblk3_1_apply (c : Dev nD) (t : Fin cfg3.N) (r : Fin 10000) (v : Fin 100000) (hv : v.val = 10000 * t.val + r.val) :
    (iblk3 V c 1 t : Vec Ideal S10000x1 .i32) (ix2 r (0 : Fin 1)) = (V c main_v49 : IVec ⟨2, ![100000, 1]⟩ 32) (ix2 v (0 : Fin 1)) := by
  have I := idx_facts3 t
  exact congrArg (V c main_v49) (Shape.idx_ext₂ (by show win3_1.index t (0 : Fin 2) * 10000 + 1 * r.val = v.val; omega)
    (by show win3_1.index t (1 : Fin 2) * 1 + 1 * 0 = 0; omega))

abbrev grp3 (c : Dev nD) : Fin n → ℤ := fun v => ((V c main_v49 : IVec ⟨2, ![100000, 1]⟩ 32) (ix2 v (0 : Fin 1))).toInt

abbrev h3 (c : Dev nD) : Fin n → Fin 50 → EReal := fun v f => matOf (p := 100000) (q := 50) (V c main_v43) v f

def G3 (c : Dev nD) : Vec Ideal S128x2 .f32 := fun i =>
  Cert.Gcn.head (grp3 V c) (matOf (p := 50) (q := 2) (V c main_arg7)) (rowOf (k := 2) (V c main_v50)) (colOf (k := 128) (V c main_v48))
    (h3 V c) (i 0) (i 1)

abbrev pt3 (t : Fin 10) : Fin cfg3.N := ⟨t.val, by have hN : cfg3.N = 10 := N_3; omega⟩

abbrev last3 : Fin cfg3.N := ⟨9, by have hN : cfg3.N = 10 := N_3; omega⟩

theorem step3_C (c : Dev nD) :
    (outsAt3 V c 9 last3.isLt).1
      = k3_pay3 (F := Ideal) (outsAt3 V c 9 last3.isLt).2 (iblk3 V c 2 last3) (iblk3 V c 3 last3) (iblk3 V c 4 last3) :=
  (outsAt3_C_fst (F := Ideal) V c last3 (by decide) rfl).trans
    (congrArg (fun s => k3_pay3 (F := Ideal) s (iblk3 V c 2 last3) (iblk3 V c 3 last3) (iblk3 V c 4 last3))
      (outsAt3_C_snd (F := Ideal) V c last3 (by decide) rfl).symm)

def S3 (c : Dev nD) (n : ℕ) : Vec Ideal S128x50 .f32 :=
  if hn : n < cfg3.N then (outsAt3 V c n hn).2 else k3_pay1 (F := Ideal)

theorem carried3 (c : Dev nD) (g : Fin 128) (f : Fin 50) :
    (outsAt3 V c 9 last3.isLt).2 (ix2 g f) = Cert.Gcn.pool (grp3 V c) (h3 V c) g f := by
  have hN : cfg3.N = 10 := N_3
  have h := carried_nine (grp3 V c) (h3 V c) (fun t => iblk3 V c 1 (pt3 t)) (fun t => iblk3 V c 0 (pt3 t)) (S3 V c)
    (fun t r => congrArg BitVec.toInt (iblk3_1_apply V c (pt3 t) r (rowAt t r) rfl))
    (fun t r f => iblk3_0_apply V c (pt3 t) r f (rowAt t r) rfl)
    (by unfold S3; rw [dif_pos (by omega : 0 < cfg3.N)]; exact outsAt3_A_snd (F := Ideal) V c ⟨0, _⟩ rfl (by show ¬(0 : ℕ) = 9; decide))
    (fun k hk => by
      unfold S3
      rw [dif_pos (by omega : k + 1 < cfg3.N), dif_pos (by omega : k < cfg3.N)]
      by_cases h9 : k + 1 = 9
      · exact outsAt3_C_snd (F := Ideal) V c ⟨k + 1, _⟩ (Nat.succ_ne_zero k) h9
      · exact outsAt3_B_snd (F := Ideal) V c ⟨k + 1, _⟩ (Nat.succ_ne_zero k) h9) g f
  unfold S3 at h
  rw [dif_pos last3.isLt] at h
  exact h

/-- The result is one block, the whole array. -/
theorem emb3 (g : Fin 128) (l : Fin 2) : ((cfg3.win 5).blk last3).view.emb (ix2 g l) = ix2 g l := by
  have I := idx_facts3 last3
  exact Shape.idx_ext₂ (by show win3_5.index last3 (0 : Fin 2) * 128 + 1 * g.val = g.val; omega)
    (by show win3_5.index last3 (1 : Fin 2) * 2 + 1 * l.val = l.val; omega)

theorem flushed3_eq (c : Dev nD) (t : Fin cfg3.N) (hf : (cfg3.win 5).flush t = true) :
    (dat3 V c).flushed 5 t = ((cfg3.win 5).blk t).view.read (Elt Ideal) (G3 V c) := by
  have hN : cfg3.N = 10 := N_3
  obtain rfl : t = last3 := Fin.ext (show t.val = 9 by have := (flush3_5 t).mp hf; have := t.isLt; omega)
  have I := idx_facts3 last3
  show (cfg3.win 5).cut (grid3.coords last3) ((dat3 V c).after 5 last3) = _
  rw [after3_5]
  funext j
  obtain ⟨g, l, rfl⟩ : ∃ (g : Fin 128) (l : Fin 2), j = ix2 g l := ⟨j 0, j 1, eq_ix2 j⟩
  show (outsAt3 V c 9 last3.isLt).1 (ix2 g l) = G3 V c (((cfg3.win 5).blk last3).view.emb (ix2 g l))
  rw [emb3, step3_C, pay3_head (grp3 V c) (h3 V c) _ _ _ _ (carried3 V c) g l]
  show _ = Cert.Gcn.head (grp3 V c) (matOf (p := 50) (q := 2) (V c main_arg7)) (rowOf (k := 2) (V c main_v50)) (colOf (k := 128) (V c main_v48)) (h3 V c) g l
  rw [show matOf (iblk3 V c 3 last3 : Vec Ideal S50x2 .f32) = matOf (p := 50) (q := 2) (V c main_arg7) from
      funext fun k => funext fun l => congrArg (V c main_arg7) (Shape.idx_ext₂
        (by show win3_3.index last3 (0 : Fin 2) * 50 + 1 * k.val = k.val; omega) (by show win3_3.index last3 (1 : Fin 2) * 2 + 1 * l.val = l.val; omega)),
    show rowOf (iblk3 V c 4 last3 : Vec Ideal S1x2 .f32) = rowOf (k := 2) (V c main_v50) from
      funext fun l => congrArg (V c main_v50) (Shape.idx_ext₂
        (by show win3_4.index last3 (0 : Fin 2) * 1 + 1 * 0 = 0; omega) (by show win3_4.index last3 (1 : Fin 2) * 2 + 1 * l.val = l.val; omega)),
    show colOf (iblk3 V c 2 last3 : Vec Ideal S128x1 .f32) = colOf (k := 128) (V c main_v48) from
      funext fun g => congrArg (V c main_v48) (Shape.idx_ext₂
        (by show win3_2.index last3 (0 : Fin 2) * 128 + 1 * g.val = g.val; omega) (by show win3_2.index last3 (1 : Fin 2) * 1 + 1 * 0 = 0; omega))]

theorem val3 (c : Dev nD) (g : Fin 128) (l : Fin 2) :
    (dat3 (F := Ideal) V c).arrAt 5 cfg3.N (ix2 g l)
      = Cert.Gcn.head (fun v => ((V c main_v49 : IVec ⟨2, ![100000, 1]⟩ 32) (ix2 v (0 : Fin 1))).toInt)
          (Cert.Gcn.matOf (V c main_arg7)) (Cert.Gcn.rowOf (V c main_v50)) (Cert.Gcn.colOf (V c main_v48))
          (fun v f => Cert.Gcn.matOf (V c main_v43) v f) g l := by
  rw [← emb3 g l, (dat3 V c).arrAt_apply_of_mem 5 (G3 V c) (flushed3_eq V c) _ last3 _ last3.isLt ((flush3_5 last3).mpr rfl) (View.emb_mem_set _ _), emb3]
  rfl

end Cert.KernelIdeal.HandValue

end
-- ==== Proof.IdealValue012.lean ====
import proofs.«410242_j1185410974040_3_alg».proof.Proof.IdealRegion0
import proofs.«410242_j1185410974040_3_alg».proof.Proof.IdealRegion1
import proofs.«410242_j1185410974040_3_alg».proof.Proof.IdealRegion2
import proofs.«410242_j1185410974040_3_alg».proof.Proof.Glue
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.KernelIdeal.Hand Cert.Gcn
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- A column `[a, 1]` broadcast to `[a, b]` reads, at `(p, q)`, the column at row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

def G0 (c : Dev nD) : Vec Ideal S100000x50 .f32 := fun i =>
  max (colOf (k := 100000) (V c main_v15) (i 0) * (colOf (k := 100000) (V c main_v28) (i 0) * rowOf (k := 50) (V c main_arg3) (i 1)) + rowOf (k := 50) (V c main_v29) (i 1)) 0

theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Block t of the result is `G0` on rows 5000·t … 5000·t + 4999. -/
theorem flushed0_eq (c : Dev nD) (t : Fin cfg0.N) :
    (dat0 V c).flushed 4 t = ((cfg0.win 4).blk t).view.read (Elt Ideal) (G0 V c) := by
  show (cfg0.win 4).cut (grid0.coords t) ((dat0 V c).after 4 t) = _
  rw [after0_4]
  unfold out0_4
  rw [View.canon_unit_zero hz]
  simp only [View.ld_unit_zero (S := S5000x1) hz, View.ld_unit_zero (S := S1x50) hz]
  funext j
  obtain ⟨p, q, rfl⟩ : ∃ (p : Fin 5000) (q : Fin 50), j = ix2 p q := ⟨j 0, j 1, eq_ix2 j⟩
  have I := idx_facts0 t
  show k0_pay1 (iblk0 V c 0 t) (iblk0 V c 2 t) (iblk0 V c 1 t) (iblk0 V c 3 t) (ix2 p q) = G0 V c (((cfg0.win 4).blk t).view.emb (ix2 p q))
  have h0 : ((((cfg0.win 4).blk t).view.emb (ix2 p q)) (0 : Fin 2)).val = t.val * 5000 + p.val := by
    show win0_4.index t (0 : Fin 2) * 5000 + 1 * p.val = _; omega
  have h1 : ((((cfg0.win 4).blk t).view.emb (ix2 p q)) (1 : Fin 2)) = q := by
    apply Fin.ext; show win0_4.index t (1 : Fin 2) * 50 + 1 * q.val = _; omega
  unfold k0_pay1 G0
  simp only [shapeCast_self]
  rw [maximumf_apply, addf_apply, mulf_apply, mulf_apply, broadcast_apply, broadcastTo_a1_ab_apply, broadcastTo_a1_ab_apply,
    broadcastTo_1b_ab_apply, broadcastTo_1b_ab_apply, Ideal.ofBits_def, Ideal.ofBits_zero_f32]
  rw [h1]
  generalize (((cfg0.win 4).blk t).view.emb (ix2 p q)) (0 : Fin 2) = v at h0 ⊢
  have r0 : (iblk0 V c 0 t : Vec Ideal S5000x1 .f32) (ix2 p (0 : Fin 1)) = colOf (k := 100000) (V c main_v28) v :=
    congrArg (V c main_v28) (Shape.idx_ext₂ (by show win0_0.index t (0 : Fin 2) * 5000 + 1 * p.val = v.val; omega)
      (by show win0_0.index t (1 : Fin 2) * 1 + 1 * 0 = 0; omega))
  have r1 : (iblk0 V c 1 t : Vec Ideal S5000x1 .f32) (ix2 p (0 : Fin 1)) = colOf (k := 100000) (V c main_v15) v :=
    congrArg (V c main_v15) (Shape.idx_ext₂ (by show win0_1.index t (0 : Fin 2) * 5000 + 1 * p.val = v.val; omega)
      (by show win0_1.index t (1 : Fin 2) * 1 + 1 * 0 = 0; omega))
  have r2 : (iblk0 V c 2 t : Vec Ideal S1x50 .f32) (ix2 (0 : Fin 1) q) = rowOf (k := 50) (V c main_arg3) q :=
    congrArg (V c main_arg3) (Shape.idx_ext₂ (by show win0_2.index t (0 : Fin 2) * 1 + 1 * 0 = 0; omega)
      (by show win0_2.index t (1 : Fin 2) * 50 + 1 * q.val = q.val; omega))
  have r3 : (iblk0 V c 3 t : Vec Ideal S1x50 .f32) (ix2 (0 : Fin 1) q) = rowOf (k := 50) (V c main_v29) q :=
    congrArg (V c main_v29) (Shape.idx_ext₂ (by show win0_3.index t (0 : Fin 2) * 1 + 1 * 0 = 0; omega)
      (by show win0_3.index t (1 : Fin 2) * 50 + 1 * q.val = q.val; omega))
  rw [r0, r1, r2, r3]

/-- Row v is entry v % 5000 of block v / 5000. -/
theorem val0 (c : Dev nD) (v : Fin 100000) (f : Fin 50) :
    (dat0 (F := Ideal) V c).arrAt 4 cfg0.N (ix2 v f)
      = max (colOf (V c main_v15) v * (colOf (V c main_v28) v * rowOf (V c main_arg3) f) + rowOf (V c main_v29) f) 0 := by
  have hN : cfg0.N = 20 := N_0
  have hv := v.isLt
  let t : Fin cfg0.N := ⟨v.val / 5000, by omega⟩
  have I := idx_facts0 t
  have e : ((cfg0.win 4).blk t).view.emb (ix2 (⟨v.val % 5000, Nat.mod_lt _ (by decide)⟩ : Fin 5000) f) = ix2 v f := Shape.idx_ext₂
    (by show win0_4.index t (0 : Fin 2) * 5000 + 1 * (v.val % 5000) = v.val; have : t.val = v.val / 5000 := rfl; omega)
    (by show win0_4.index t (1 : Fin 2) * 50 + 1 * f.val = f.val; omega)
  rw [← e, (dat0 V c).arrAt_apply_of_mem 4 (G0 V c) (fun t _ => flushed0_eq V c t) _ t _ t.isLt (flush0_4 t) (View.emb_mem_set _ _), e]
  rfl

/-- The product at `(p, q)`: row p against column q over the 50 contraction lanes, times the column's row p. -/
theorem blockPay1_apply (x0 : Vec Ideal S10000x50 .f32) (x1 : Vec Ideal S50x50 .f32) (x2 : Vec Ideal S10000x1 .f32) (p : Fin 10000) (q : Fin 50) :
    k1_pay1 x0 x1 x2 (ix2 p q) = (∑ k : Fin 50, x0 (ix2 p k) * x1 (ix2 k q)) * x2 (ix2 p (0 : Fin 1)) := by
  unfold k1_pay1
  simp only [shapeCast_self]
  rw [mulf_apply, broadcastTo_a1_ab_apply x2]
  refine congrArg (· * x2 (ix2 p (0 : Fin 1))) ?_
  refine (Ideal.matmul_constant_zero_apply dot_S10000x50_S50x50_S10000x50_1_0_0_1_n_n none x0 x1 (ix2 p q)).trans ?_
  rw [← Equiv.sum_comp (ValueIdx.contrEquiv1 dot_S10000x50_S50x50_S10000x50_1_0_0_1_n_n 50 rfl rfl).symm]
  refine Finset.sum_congr rfl fun k _ => ?_
  have hk := ValueIdx.contrEquiv1_symm_val dot_S10000x50_S50x50_S10000x50_1_0_0_1_n_n 50 rfl rfl k
  rw [show dot_S10000x50_S50x50_S10000x50_1_0_0_1_n_n.lhsIdx (ix2 p q) ((ValueIdx.contrEquiv1 dot_S10000x50_S50x50_S10000x50_1_0_0_1_n_n 50 rfl rfl).symm k) = ix2 p k from
      Shape.idx_ext₂ rfl ((dot_S10000x50_S50x50_S10000x50_1_0_0_1_n_n.lhsIdx_val_of_single rfl _ _).trans hk),
    show dot_S10000x50_S50x50_S10000x50_1_0_0_1_n_n.rhsIdx (ix2 p q) ((ValueIdx.contrEquiv1 dot_S10000x50_S50x50_S10000x50_1_0_0_1_n_n 50 rfl rfl).symm k) = ix2 k q from
      Shape.idx_ext₂ ((dot_S10000x50_S50x50_S10000x50_1_0_0_1_n_n.rhsIdx_val_of_single rfl _ _).trans hk) rfl]

def G1 (c : Dev nD) : Vec Ideal S100000x50 .f32 := fun i =>
  (∑ k : Fin 50, matOf (p := 100000) (q := 50) (V c main_v30) (i 0) k * matOf (p := 50) (q := 50) (V c main_arg5) k (i 1))
    * colOf (k := 100000) (V c main_v15) (i 0)

theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- Block t of the result is `G1` on rows 10000·t … 10000·t + 9999. -/
theorem flushed1_eq (c : Dev nD) (t : Fin cfg1.N) :
    (dat1 V c).flushed 3 t = ((cfg1.win 3).blk t).view.read (Elt Ideal) (G1 V c) := by
  show (cfg1.win 3).cut (grid1.coords t) ((dat1 V c).after 3 t) = _
  rw [after1_3]
  unfold out1_3
  rw [View.canon_unit_zero hz]
  simp only [View.ld_unit_zero (S := S10000x50) hz, View.ld_unit_zero (S := S50x50) hz, View.ld_unit_zero (S := S10000x1) hz]
  funext j
  obtain ⟨p, q, rfl⟩ : ∃ (p : Fin 10000) (q : Fin 50), j = ix2 p q := ⟨j 0, j 1, eq_ix2 j⟩
  have I := idx_facts1 t
  show k1_pay1 (iblk1 V c 0 t) (iblk1 V c 1 t) (iblk1 V c 2 t) (ix2 p q) = G1 V c (((cfg1.win 3).blk t).view.emb (ix2 p q))
  have h0 : ((((cfg1.win 3).blk t).view.emb (ix2 p q)) (0 : Fin 2)).val = t.val * 10000 + p.val := by
    show win1_3.index t (0 : Fin 2) * 10000 + 1 * p.val = _; omega
  have h1 : ((((cfg1.win 3).blk t).view.emb (ix2 p q)) (1 : Fin 2)) = q := by
    apply Fin.ext; show win1_3.index t (1 : Fin 2) * 50 + 1 * q.val = _; omega
  rw [blockPay1_apply]
  unfold G1
  rw [h1]
  generalize (((cfg1.win 3).blk t).view.emb (ix2 p q)) (0 : Fin 2) = v at h0 ⊢
  have r0 (k : Fin 50) : (iblk1 V c 0 t : Vec Ideal S10000x50 .f32) (ix2 p k) = matOf (p := 100000) (q := 50) (V c main_v30) v k :=
    congrArg (V c main_v30) (Shape.idx_ext₂ (by show win1_0.index t (0 : Fin 2) * 10000 + 1 * p.val = v.val; omega)
      (by show win1_0.index t (1 : Fin 2) * 50 + 1 * k.val = k.val; omega))
  have r1 (k : Fin 50) : (iblk1 V c 1 t : Vec Ideal S50x50 .f32) (ix2 k q) = matOf (p := 50) (q := 50) (V c main_arg5) k q :=
    congrArg (V c main_arg5) (Shape.idx_ext₂ (by show win1_1.index t (0 : Fin 2) * 50 + 1 * k.val = k.val; omega)
      (by show win1_1.index t (1 : Fin 2) * 50 + 1 * q.val = q.val; omega))
  have r2 : (iblk1 V c 2 t : Vec Ideal S10000x1 .f32) (ix2 p (0 : Fin 1)) = colOf (k := 100000) (V c main_v15) v :=
    congrArg (V c main_v15) (Shape.idx_ext₂ (by show win1_2.index t (0 : Fin 2) * 10000 + 1 * p.val = v.val; omega)
      (by show win1_2.index t (1 : Fin 2) * 1 + 1 * 0 = 0; omega))
  simp only [r0, r1, r2]

theorem val1 (c : Dev nD) (u : Fin 100000) (f : Fin 50) :
    (dat1 (F := Ideal) V c).arrAt 3 cfg1.N (ix2 u f)
      = (∑ k : Fin 50, matOf (V c main_v30) u k * matOf (V c main_arg5) k f) * colOf (V c main_v15) u := by
  have hN : cfg1.N = 10 := N_1
  have hu := u.isLt
  let t : Fin cfg1.N := ⟨u.val / 10000, by omega⟩
  have I := idx_facts1 t
  have e : ((cfg1.win 3).blk t).view.emb (ix2 (⟨u.val % 10000, Nat.mod_lt _ (by decide)⟩ : Fin 10000) f) = ix2 u f := Shape.idx_ext₂
    (by show win1_3.index t (0 : Fin 2) * 10000 + 1 * (u.val % 10000) = u.val; have : t.val = u.val / 10000 := rfl; omega)
    (by show win1_3.index t (1 : Fin 2) * 50 + 1 * f.val = f.val; omega)
  rw [← e, (dat1 V c).arrAt_apply_of_mem 3 (G1 V c) (fun t _ => flushed1_eq V c t) _ t _ t.isLt (flush1_3 t) (View.emb_mem_set _ _), e]
  rfl

def G2 (c : Dev nD) : Vec Ideal S100000x50 .f32 := fun i =>
  max (colOf (k := 100000) (V c main_v15) (i 0) * matOf (p := 100000) (q := 50) (V c main_v41) (i 0) (i 1) + rowOf (k := 50) (V c main_v42) (i 1)) 0

theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- Block t of the result is `G2` on rows 10000·t … 10000·t + 9999. -/
theorem flushed2_eq (c : Dev nD) (t : Fin cfg2.N) :
    (dat2 V c).flushed 3 t = ((cfg2.win 3).blk t).view.read (Elt Ideal) (G2 V c) := by
  show (cfg2.win 3).cut (grid2.coords t) ((dat2 V c).after 3 t) = _
  rw [after2_3]
  unfold out2_3
  rw [View.canon_unit_zero hz]
  simp only [View.ld_unit_zero (S := S10000x50) hz, View.ld_unit_zero (S := S1x50) hz, View.ld_unit_zero (S := S10000x1) hz]
  funext j
  obtain ⟨p, q, rfl⟩ : ∃ (p : Fin 10000) (q : Fin 50), j = ix2 p q := ⟨j 0, j 1, eq_ix2 j⟩
  have I := idx_facts2 t
  show k2_pay1 (iblk2 V c 2 t) (iblk2 V c 0 t) (iblk2 V c 1 t) (ix2 p q) = G2 V c (((cfg2.win 3).blk t).view.emb (ix2 p q))
  have h0 : ((((cfg2.win 3).blk t).view.emb (ix2 p q)) (0 : Fin 2)).val = t.val * 10000 + p.val := by
    show win2_3.index t (0 : Fin 2) * 10000 + 1 * p.val = _; omega
  have h1 : ((((cfg2.win 3).blk t).view.emb (ix2 p q)) (1 : Fin 2)) = q := by
    apply Fin.ext; show win2_3.index t (1 : Fin 2) * 50 + 1 * q.val = _; omega
  unfold k2_pay1 G2
  simp only [shapeCast_self]
  rw [maximumf_apply, addf_apply, mulf_apply, broadcast_apply, broadcastTo_a1_ab_apply, broadcastTo_1b_ab_apply,
    Ideal.ofBits_def, Ideal.ofBits_zero_f32]
  rw [h1]
  generalize (((cfg2.win 3).blk t).view.emb (ix2 p q)) (0 : Fin 2) = v at h0 ⊢
  have r0 : (iblk2 V c 0 t : Vec Ideal S10000x50 .f32) (ix2 p q) = matOf (p := 100000) (q := 50) (V c main_v41) v q :=
    congrArg (V c main_v41) (Shape.idx_ext₂ (by show win2_0.index t (0 : Fin 2) * 10000 + 1 * p.val = v.val; omega)
      (by show win2_0.index t (1 : Fin 2) * 50 + 1 * q.val = q.val; omega))
  have r1 : (iblk2 V c 1 t : Vec Ideal S1x50 .f32) (ix2 (0 : Fin 1) q) = rowOf (k := 50) (V c main_v42) q :=
    congrArg (V c main_v42) (Shape.idx_ext₂ (by show win2_1.index t (0 : Fin 2) * 1 + 1 * 0 = 0; omega)
      (by show win2_1.index t (1 : Fin 2) * 50 + 1 * q.val = q.val; omega))
  have r2 : (iblk2 V c 2 t : Vec Ideal S10000x1 .f32) (ix2 p (0 : Fin 1)) = colOf (k := 100000) (V c main_v15) v :=
    congrArg (V c main_v15) (Shape.idx_ext₂ (by show win2_2.index t (0 : Fin 2) * 10000 + 1 * p.val = v.val; omega)
      (by show win2_2.index t (1 : Fin 2) * 1 + 1 * 0 = 0; omega))
  rw [r0, r1, r2]

theorem val2 (c : Dev nD) (v : Fin 100000) (f : Fin 50) :
    (dat2 (F := Ideal) V c).arrAt 3 cfg2.N (ix2 v f)
      = max (colOf (V c main_v15) v * matOf (V c main_v41) v f + rowOf (V c main_v42) f) 0 := by
  have hN : cfg2.N = 10 := N_2
  have hv := v.isLt
  let t : Fin cfg2.N := ⟨v.val / 10000, by omega⟩
  have I := idx_facts2 t
  have e : ((cfg2.win 3).blk t).view.emb (ix2 (⟨v.val % 10000, Nat.mod_lt _ (by decide)⟩ : Fin 10000) f) = ix2 v f := Shape.idx_ext₂
    (by show win2_3.index t (0 : Fin 2) * 10000 + 1 * (v.val % 10000) = v.val; have : t.val = v.val / 10000 := rfl; omega)
    (by show win2_3.index t (1 : Fin 2) * 50 + 1 * f.val = f.val; omega)
  rw [← e, (dat2 V c).arrAt_apply_of_mem 3 (G2 V c) (fun t _ => flushed2_eq V c t) _ t _ t.isLt (flush2_3 t) (View.emb_mem_set _ _), e]
  rfl

end Cert.KernelIdeal.HandValue

end
-- ==== Proof.LibScatterVec.lean ====
import Idealize.ShloMosaic.PureOps.Ideal
import Idealize.ShloMosaic.PureOps.Ideal.Laws
import Idealize.ShloMosaic.Lib.ValueIdx
import Idealize.ShloMosaic.Lib.ValueIdxRank1

noncomputable section

open scoped BigOperators

namespace Idealize.ShloMosaic.ScatterVec

open Idealize.ShloMosaic Idealize.ShloMosaic.ValueIdx

private theorem start_zero {K N w : Nat} (d : ScatterDims ⟨1, ![K]⟩ ⟨2, ![N, 1]⟩ ⟨1, ![N]⟩)
    (hsd : d.scatterDimsToOperandDims = [0]) (hiv : d.indexVectorDim = 1)
    (idx : IVec ⟨2, ![N, 1]⟩ w) (n : Fin N) :
    d.start (ix1 n) idx 0 = (idx (ix2 n (0 : Fin 1))).toInt := by
  have hm : (0 : Fin 1) ∈ d.scatterDimsToOperandDims := by rw [hsd]; exact List.mem_singleton.mpr rfl
  unfold ScatterDims.start
  rw [dif_pos hm]
  congr 2
  funext b
  match b with
  | ⟨0, _⟩ =>

    unfold ScatterDims.siIdx
    rw [dif_neg (by rw [hiv]; simp)]
    unfold ScatterDims.siCoord
    apply Fin.ext
    simp only [Fin.val_cast]
    have e : ∀ X : Fin 1, ((ix1 n : (⟨1, ![N]⟩ : Shape).Idx) X).val = n.val := fun X => by
      have hX : X = 0 := Subsingleton.elim _ _
      subst hX; rfl
    exact e _
  | ⟨1, _⟩ =>

    unfold ScatterDims.siIdx
    rw [dif_pos (by rw [hiv])]
    apply Fin.ext
    show List.idxOf (0 : Fin 1) d.scatterDimsToOperandDims = 0
    rw [hsd]; simp

private theorem window_zero {K N : Nat} (d : ScatterDims ⟨1, ![K]⟩ ⟨2, ![N, 1]⟩ ⟨1, ![N]⟩)
    (hiw : d.insertedWindowDims = [0]) (i : (⟨1, ![N]⟩ : Shape).Idx) :
    d.window i 0 = 0 := by
  unfold ScatterDims.window
  rw [dif_neg]
  simp [ScatterDims.sKept, Shape.kept, hiw]

theorem resultIdx?_eq_some_iff {K N w : Nat} (d : ScatterDims ⟨1, ![K]⟩ ⟨2, ![N, 1]⟩ ⟨1, ![N]⟩)
    (hiw : d.insertedWindowDims = [0])
    (hsd : d.scatterDimsToOperandDims = [0]) (hiv : d.indexVectorDim = 1)
    (idx : IVec ⟨2, ![N, 1]⟩ w) (n : Fin N) (s : Fin K) :
    d.resultIdx? (ix1 n) idx = some (ix1 s) ↔ (idx (ix2 n (0 : Fin 1))).toInt = (s.val : Int) := by
  have hst0 := start_zero d hsd hiv idx n
  have hw0 := window_zero d hiw (ix1 n)
  have hK : (⟨1, ![K]⟩ : Shape).size (0 : Fin 1) = K := rfl
  have hs := s.isLt
  unfold ScatterDims.resultIdx?
  split
  · next h =>
    rw [Option.some.injEq]
    constructor
    · intro e
      have e0 := congrArg (fun f => (f (0 : Fin 1)).val) e
      simp only [hst0, hw0] at e0
      change ((idx (ix2 n (0 : Fin 1))).toInt + ((0 : Nat) : Int)).toNat = s.val at e0
      have h0 := h 0
      rw [hst0, hw0] at h0
      omega
    · intro e
      funext a
      match a with
      | ⟨0, _⟩ =>
        apply Fin.ext
        show (d.start (ix1 n) idx 0 + ((d.window (ix1 n) 0 : Nat) : Int)).toNat = s.val
        rw [hst0, hw0]; omega
  · next h =>
    constructor
    · intro e; exact absurd e (by simp)
    · intro e
      exfalso
      apply h
      intro a
      have ha : a = 0 := Subsingleton.elim _ _
      subst ha
      rw [hst0, hw0, hK, e]; omega

theorem scatterAdd_vec_apply {K N w : Nat} (d : ScatterDims ⟨1, ![K]⟩ ⟨2, ![N, 1]⟩ ⟨1, ![N]⟩)
    (_huw : d.updateWindowDims = []) (hiw : d.insertedWindowDims = [0])
    (hsd : d.scatterDimsToOperandDims = [0]) (hiv : d.indexVectorDim = 1)
    (x : FVec Ideal ⟨1, ![K]⟩ .f32) (idx : IVec ⟨2, ![N, 1]⟩ w) (upd : FVec Ideal ⟨1, ![N]⟩ .f32)
    (s : Fin K) :
    Host.scatterAdd (F := Ideal) d x idx upd (ix1 s)
      = x (ix1 s) + ∑ n : Fin N, if (idx (ix2 n (0 : Fin 1))).toInt = (s.val : Int) then upd (ix1 n) else 0 := by
  show Ideal.hostScatterAdd d x idx upd (ix1 s) = _
  unfold Ideal.hostScatterAdd
  congr 1

  rw [Finset.sum_filter, ← Equiv.sum_comp (idxEquiv1 (n := N)).symm]
  refine Finset.sum_congr rfl fun n _ => ?_
  show (if d.resultIdx? (ix1 n) idx = some (ix1 s) then upd (ix1 n) else 0) = _
  simp only [resultIdx?_eq_some_iff d hiw hsd hiv idx n s]

end Idealize.ShloMosaic.ScatterVec

end
-- ==== Proof.IdealHostA.lean ====
import proofs.«410242_j1185410974040_3_alg».proof.Proof.Gen.KernelIdeal.Launch
import proofs.«410242_j1185410974040_3_alg».proof.Proof.Glue
import proofs.«410242_j1185410974040_3_alg».proof.Proof.LibScatterVec
import Idealize.ShloMosaic.Lib.StableHlo.Run
import Idealize.ShloMosaic.Lib.StableHlo.Predicate
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.KernelIdeal.HandValue

open Cert.KernelIdeal Cert.KernelIdeal.Gen Cert.Gcn
open Idealize.ShloMosaic Idealize.ShloMosaic.TcCoe Idealize.ShloMosaic.ValueIdx
open Idealize.SL.Sem
open scoped BigOperators

theorem col_apply {α : Type} {k : Nat} (h : (⟨1, ![k]⟩ : Shape).BroadcastsInDim ⟨2, ![k, 1]⟩ ![0])
    (x : (⟨1, ![k]⟩ : Shape).Idx → α) (p : Fin k) :
    broadcastInDim ⟨2, ![k, 1]⟩ ![0] h x (ix2 p (0 : Fin 1)) = x (ix1 p) :=
  broadcastInDim_apply ![0] h x (ix2 p (0 : Fin 1)) (ix1 p) (fun a => match a with
    | ⟨0, _⟩ => by
      have hp := p.isLt
      show p.val = if k = 1 then 0 else p.val
      split <;> omega)

theorem splat_apply {T : Shape} (h : (⟨0, ![]⟩ : Shape).BroadcastsInDim T ![]) (b : BitVec 32) (j : T.Idx) :
    broadcastInDim T ![] h (constant (F := Ideal) ⟨0, ![]⟩ .f32 b) j = Ideal.ofBits .f32 b :=
  broadcastInDim_scalar_apply h _ j

theorem sum_ite_coe {N : Nat} (P : Fin N → Prop) [DecidablePred P] (s : Finset (Fin N)) :
    (∑ n ∈ s, if P n then (1 : EReal) else 0) = ((∑ n ∈ s, if P n then (1 : ℝ) else 0 : ℝ) : EReal) := by
  induction s using Finset.induction_on with
  | empty => simp
  | insert a s ha ih =>
    rw [Finset.sum_insert ha, Finset.sum_insert ha, ih, EReal.coe_add]
    split <;> simp

theorem count_real {N : Nat} (P : Fin N → Prop) [DecidablePred P] :
    ∃ r : ℝ, 0 ≤ r ∧ (0 + ∑ n : Fin N, if P n then (1 : EReal) else 0) = (r : EReal) :=
  ⟨∑ n : Fin N, if P n then (1 : ℝ) else 0, Finset.sum_nonneg fun n _ => by split <;> norm_num,
    by rw [zero_add, sum_ite_coe]⟩

theorem count_apply {K N : Nat} (d : ScatterDims ⟨1, ![K]⟩ ⟨2, ![N, 1]⟩ ⟨1, ![N]⟩)
    (huw : d.updateWindowDims = []) (hiw : d.insertedWindowDims = [0])
    (hsd : d.scatterDimsToOperandDims = [0]) (hiv : d.indexVectorDim = 1)
    (hx : (⟨0, ![]⟩ : Shape).BroadcastsInDim ⟨1, ![K]⟩ ![])
    (hi : (⟨1, ![N]⟩ : Shape).BroadcastsInDim ⟨2, ![N, 1]⟩ ![0])
    (hu : (⟨0, ![]⟩ : Shape).BroadcastsInDim ⟨1, ![N]⟩ ![])
    (x : IVec ⟨1, ![N]⟩ 32) (s : Fin K) :
    Host.scatterAdd (F := Ideal) d
        (broadcastInDim ⟨1, ![K]⟩ ![] hx (constant (F := Ideal) ⟨0, ![]⟩ .f32 0x00000000#32))
        (broadcastInDim ⟨2, ![N, 1]⟩ ![0] hi x)
        (broadcastInDim ⟨1, ![N]⟩ ![] hu (constant (F := Ideal) ⟨0, ![]⟩ .f32 0x3F800000#32)) (ix1 s)
      = 0 + ∑ n : Fin N, if (x (ix1 n)).toInt = (s.val : ℤ) then (1 : EReal) else 0 := by
  rw [ScatterVec.scatterAdd_vec_apply d huw hiw hsd hiv, splat_apply, Ideal.ofBits_zero_f32]
  refine congrArg (fun t => (0 : EReal) + t) (Finset.sum_congr rfl fun n _ => ?_)
  rw [col_apply, splat_apply, Ideal.ofBits_one_f32]

variable (W : Valuation τ sig (Elt Ideal))

theorem deg_real (v : Fin 100000) :
    ∃ r : ℝ, 0 ≤ r ∧ (StableHlo.after hostOps0 W (Proc.devRef .tc main_v10) : S100000.Idx → EReal) (ix1 v) = (r : EReal) := by
  have e : (StableHlo.after hostOps0 W (Proc.devRef .tc main_v10) : S100000.Idx → EReal)
      = Host.scatterAdd (F := Ideal) scatter_S100000_S3300000x1_S3300000_n_0_0_1
          (broadcastInDim S100000 ![] Facts₀.bcast_S_S100000 (constant (F := Ideal) S_ .f32 0x00000000#32))
          (broadcastInDim S3300000x1 ![0] Facts₀.bcast_S3300000_S3300000x1_0 (StableHlo.after hostOps0 W (Proc.devRef .tc main_v6) : IVec ⟨1, ![3300000]⟩ 32))
          (broadcastInDim S3300000 ![] Facts₀.bcast_S_S3300000 (constant (F := Ideal) S_ .f32 0x3F800000#32)) := by
    after_results <;> rfl
  rw [e, count_apply scatter_S100000_S3300000x1_S3300000_n_0_0_1 rfl rfl rfl rfl _ _ _ _ v]
  exact count_real _

theorem dinv_eq (W' : Valuation τ sig (Elt Ideal)) :
    (StableHlo.after hostOps0_1 W' (Proc.devRef .tc main_v14) : FVec Ideal S100000 .f32)
      = select (W' (Proc.devRef .tc main_v12) : IVec S100000 1) (W' (Proc.devRef .tc main_v13) : FVec Ideal S100000 .f32)
          (broadcastInDim S100000 ![] Facts₀.bcast_S_S100000 (W' (Proc.devRef .tc main_cst_2) : FVec Ideal S_ .f32)) := by
  after_results <;> rfl

theorem mask_eq :
    (StableHlo.after hostOps0 W (Proc.devRef .tc main_v12) : IVec S100000 1)
      = cmpf (F := Ideal) .ogt (StableHlo.after hostOps0 W (Proc.devRef .tc main_v10) : FVec Ideal S100000 .f32)
          (broadcastInDim S100000 ![] Facts₀.bcast_S_S100000 (constant (F := Ideal) S_ .f32 0x00000000#32)) := by
  after_results <;> rfl

theorem rsq_eq :
    (StableHlo.after hostOps0 W (Proc.devRef .tc main_v13) : FVec Ideal S100000 .f32)
      = Host.rsqrt (F := Ideal) (s := S100000) (φ := .f32) (StableHlo.after hostOps0 W (Proc.devRef .tc main_v10) : FVec Ideal S100000 .f32) := by
  after_results <;> rfl

theorem fill_eq :
    (StableHlo.after hostOps0 W (Proc.devRef .tc main_cst_2) : FVec Ideal S_ .f32)
      = constant (F := Ideal) S_ .f32 0x00000000#32 := by
  after_results <;> rfl

theorem dinv_scalar (r : ℝ) (hr : 0 ≤ r) :
    ∃ q : ℝ, Scalar.select (FloatOps.cmpf (F := Ideal) (φ := .f32) .ogt (r : EReal) (Ideal.ofBits .f32 0x00000000#32))
        (FloatOps.hostUnary (F := Ideal) (φ := .f32) .rsqrt (r : EReal)) (Ideal.ofBits .f32 0x00000000#32) = (q : EReal) := by
  rw [Ideal.ofBits_zero_f32]
  show ∃ q : ℝ, Scalar.select (BitVec.ofBool (decide ((0 : EReal) < (r : EReal)))) (Ideal.rsqrt (r : EReal)) 0 = (q : EReal)
  by_cases hp : 0 < r
  · rw [decide_eq_true (by exact_mod_cast hp), Ideal.rsqrt_coe, if_neg (not_lt.mpr hr), if_neg (ne_of_gt hp)]
    exact ⟨_, select_one _ _⟩
  · rw [decide_eq_false (by exact_mod_cast hp)]
    exact ⟨0, (select_zero _ _).trans EReal.coe_zero.symm⟩

theorem select_real (d : FVec Ideal S100000 .f32) (h : S_.BroadcastsInDim S100000 ![]) (u : Fin 100000) (r : ℝ) (hr : 0 ≤ r)
    (hd : d (ix1 u) = (r : EReal)) :
    ∃ q : ℝ, select (cmpf (F := Ideal) .ogt d (broadcastInDim S100000 ![] h (constant (F := Ideal) S_ .f32 0x00000000#32)))
        (Host.rsqrt (F := Ideal) d) (broadcastInDim S100000 ![] h (constant (F := Ideal) S_ .f32 0x00000000#32)) (ix1 u)
      = (q : EReal) := by
  show ∃ q : ℝ, Scalar.select (FloatOps.cmpf (F := Ideal) (φ := .f32) .ogt (d (ix1 u))
        (broadcastInDim S100000 ![] h (constant (F := Ideal) S_ .f32 0x00000000#32) (ix1 u)))
      (FloatOps.hostUnary (F := Ideal) (φ := .f32) .rsqrt (d (ix1 u)))
      (broadcastInDim S100000 ![] h (constant (F := Ideal) S_ .f32 0x00000000#32) (ix1 u)) = (q : EReal)
  rw [splat_apply, hd]
  exact dinv_scalar r hr

theorem dinv_real (u : Fin 100000) :
    ∃ r : ℝ, (StableHlo.after hostOps0_1 (StableHlo.after hostOps0 W) (Proc.devRef .tc main_v14) : FVec Ideal S100000 .f32) (ix1 u)
      = (r : EReal) := by
  obtain ⟨r, hr, hd⟩ := deg_real W u
  rw [dinv_eq, mask_eq, rsq_eq, fill_eq]
  exact select_real _ _ u r hr hd

theorem cnt_apply (g : Fin 128) :
    (StableHlo.after hostOps3 W (Proc.devRef .tc main_v48) : FVec Ideal S128x1 .f32) (ix2 g (0 : Fin 1))
      = 0 + ∑ v : Fin 100000, if ((W (Proc.devRef .tc main_arg2) : IVec S100000 32) (ix1 v)).toInt = (g.val : ℤ) then (1 : EReal) else 0 := by
  have e : (StableHlo.after hostOps3 W (Proc.devRef .tc main_v48) : FVec Ideal S128x1 .f32)
      = broadcastInDim S128x1 ![0] Facts₀.bcast_S128_S128x1_0
          (Host.scatterAdd (F := Ideal) scatter_S128_S100000x1_S100000_n_0_0_1
            (broadcastInDim S128 ![] Facts₀.bcast_S_S128 (constant (F := Ideal) S_ .f32 0x00000000#32))
            (broadcastInDim S100000x1 ![0] Facts₀.bcast_S100000_S100000x1_0 (W (Proc.devRef .tc main_arg2) : IVec S100000 32))
            (broadcastInDim S100000 ![] Facts₀.bcast_S_S100000 (constant (F := Ideal) S_ .f32 0x3F800000#32))) := by
    after_results <;> rfl
  rw [e, col_apply]
  exact count_apply scatter_S128_S100000x1_S100000_n_0_0_1 rfl rfl rfl rfl _ _ _ _ g

theorem bcol_apply (v : Fin 100000) :
    (StableHlo.after hostOps3 W (Proc.devRef .tc main_v49) : IVec S100000x1 32) (ix2 v (0 : Fin 1))
      = (W (Proc.devRef .tc main_arg2) : IVec S100000 32) (ix1 v) := by
  have e : (StableHlo.after hostOps3 W (Proc.devRef .tc main_v49) : IVec S100000x1 32)
      = broadcastInDim S100000x1 ![0] Facts₀.bcast_S100000_S100000x1_0 (W (Proc.devRef .tc main_arg2) : IVec S100000 32) := by
    after_results <;> rfl
  rw [e, col_apply]

theorem bcrow_apply (l : Fin 2) :
    (StableHlo.after hostOps3 W (Proc.devRef .tc main_v50) : FVec Ideal S1x2 .f32) (ix2 (0 : Fin 1) l)
      = (W (Proc.devRef .tc main_arg8) : FVec Ideal S2 .f32) (ix1 l) := by
  have e : (StableHlo.after hostOps3 W (Proc.devRef .tc main_v50) : FVec Ideal S1x2 .f32)
      = shapeCast S1x2 (W (Proc.devRef .tc main_arg8) : FVec Ideal S2 .f32) Facts₀.shapeCasts_S2_S1x2 := by
    after_results <;> rfl
  rw [e]
  exact shapeCast_a_1a_apply _ _ (0 : Fin 1) l

end Cert.KernelIdeal.HandValue

end
-- ==== Proof.LibGatherClamp.lean ====
import Idealize.ShloMosaic.PureOps.Dims
import Idealize.ShloMosaic.PureOps.ShapeOps
import Idealize.ShloMosaic.PureOps.Float
import Idealize.ShloMosaic.Lib.ValueIdx

namespace Idealize.ShloMosaic.GatherClamp

open Idealize.ShloMosaic Idealize.ShloMosaic.ValueIdx

theorem clamp_of_toInt_eq {k : Nat} (w : BitVec k) (n v : Nat) (hv : v < n) (h : w.toInt = (v : Int)) :
    min w.toInt.toNat (n - 1) = v := by
  rw [h, Int.toNat_natCast]
  exact Nat.min_eq_left (by omega)

theorem norm_of_toInt_eq {k : Nat} (w a : BitVec k) (v : Nat) (h : w.toInt = (v : Int)) :
    Scalar.select (IntOp.cmpi .slt w 0#k) a w = w := by
  have hs : w.slt 0#k = false := by
    rw [BitVec.slt, h, BitVec.toInt_zero]
    exact decide_eq_false (by omega)
  show (if BitVec.ofBool (w.slt 0#k) = 1 then a else w) = w
  rw [hs]
  exact if_neg (by decide)

private theorem zero_mem : (0 : Fin 2) ∈ ([0] : List (Fin 2)) := by decide
private theorem one_not_mem : (1 : Fin 2) ∉ ([0] : List (Fin 2)) := by decide

private abbrev rowsDims (N D B : Nat)
    (wf : GatherDims.WF ⟨2, ![N, D]⟩ ⟨2, ![B, 1]⟩ ⟨2, ![B, D]⟩ [1] [0] [] [0] [] 1 ![1, D]) :
    GatherDims ⟨2, ![N, D]⟩ ⟨2, ![B, 1]⟩ ⟨2, ![B, D]⟩ where
  offsetDims := [1]
  collapsedSliceDims := [0]
  operandBatchingDims := []
  startIndicesBatchingDims := []
  startIndexMap := [0]
  indexVectorDim := 1
  sliceSizes := ![1, D]
  wf := wf

private theorem rows_clamp {N D B w : Nat} {α : Type}
    (wf : GatherDims.WF ⟨2, ![N, D]⟩ ⟨2, ![B, 1]⟩ ⟨2, ![B, D]⟩ [1] [0] [] [0] [] 1 ![1, D])
    (x : (⟨2, ![N, D]⟩ : Shape).Idx → α) (idx : IVec ⟨2, ![B, 1]⟩ w) (b : Fin B) (c : Fin D) (hN : 0 < N) :
    Host.gather (rowsDims N D B wf) x idx (ix2 b c)
      = x (ix2 ⟨min (idx (ix2 b 0)).toInt.toNat (N - 1), by omega⟩ c) := by
  unfold Host.gather
  refine congrArg x ?_
  funext a
  refine Fin.ext ?_
  show (rowsDims N D B wf).start (ix2 b c) idx a + (rowsDims N D B wf).batchCoord (ix2 b c) a
      + (rowsDims N D B wf).offCoord (ix2 b c) a = _
  rw [GatherDims.batchCoord_eq_zero _ _ _ List.not_mem_nil, Nat.add_zero]
  match a with
  | ⟨0, _⟩ =>

    show (rowsDims N D B wf).start (ix2 b c) idx (0 : Fin 2) + (rowsDims N D B wf).offCoord (ix2 b c) (0 : Fin 2)
      = min (idx (ix2 b 0)).toInt.toNat (N - 1)
    rw [GatherDims.offCoord_eq_zero _ _ _ (fun h => ((GatherDims.mem_sKept _ _).mp h).1 zero_mem), Nat.add_zero]
    unfold GatherDims.start
    rw [dif_pos (show (0 : Fin 2) ∈ (rowsDims N D B wf).startIndexMap from zero_mem)]
    have hsi : (rowsDims N D B wf).siIdx (ix2 b c) ⟨List.idxOf (0 : Fin 2) (rowsDims N D B wf).startIndexMap,
        List.idxOf_lt_length_iff.2 zero_mem⟩ = ix2 b 0 := by
      funext k; refine Fin.ext ?_
      match k with
      | ⟨0, _⟩ => rfl
      | ⟨1, _⟩ => rfl
    rw [hsi]

    rfl
  | ⟨1, _⟩ =>

    show (rowsDims N D B wf).start (ix2 b c) idx (1 : Fin 2) + (rowsDims N D B wf).offCoord (ix2 b c) (1 : Fin 2)
      = c.val
    have hs : (rowsDims N D B wf).start (ix2 b c) idx (1 : Fin 2) = 0 := by
      unfold GatherDims.start
      rw [dif_neg (show (1 : Fin 2) ∉ (rowsDims N D B wf).startIndexMap from one_not_mem)]
    rw [hs, Nat.zero_add]
    rfl

theorem gather_rows_clamp {N D B w : Nat} {α : Type} (d : GatherDims ⟨2, ![N, D]⟩ ⟨2, ![B, 1]⟩ ⟨2, ![B, D]⟩)
    (h1 : d.offsetDims = [1]) (h2 : d.collapsedSliceDims = [0]) (h3 : d.operandBatchingDims = [])
    (h4 : d.startIndicesBatchingDims = [])
    (h5 : d.startIndexMap = [0]) (h6 : d.indexVectorDim = 1) (h7 : d.sliceSizes = ![1, D])
    (x : (⟨2, ![N, D]⟩ : Shape).Idx → α) (idx : IVec ⟨2, ![B, 1]⟩ w) (b : Fin B) (c : Fin D) (hN : 0 < N) :
    Host.gather d x idx (ix2 b c) = x (ix2 ⟨min (idx (ix2 b 0)).toInt.toNat (N - 1), by omega⟩ c) := by
  obtain ⟨od, cd, ob, sb, sm, iv, ss, wf⟩ := d
  dsimp only at h1 h2 h3 h4 h5 h6 h7
  subst h1 h2 h3 h4 h5 h6 h7
  exact rows_clamp wf x idx b c hN

end Idealize.ShloMosaic.GatherClamp
-- ==== Proof.LibSegmentRows.lean ====
import Idealize.ShloMosaic.PureOps.Ideal
import Idealize.ShloMosaic.PureOps.Ideal.Laws
import Idealize.ShloMosaic.Lib.ValueIdx

noncomputable section

open scoped BigOperators

namespace Idealize.ShloMosaic.SegmentRows

open Idealize.ShloMosaic Idealize.ShloMosaic.ValueIdx

private theorem uScatter_mem {K D N : Nat} (d : ScatterDims ⟨2, ![K, D]⟩ ⟨2, ![N, 1]⟩ ⟨2, ![N, D]⟩)
    (huw : d.updateWindowDims = [1]) (X : Fin 2) (hX : X ∈ d.uScatter) : X = 0 := by
  have h := (List.mem_filter.1 hX).2
  rw [huw] at h
  match X with
  | ⟨0, _⟩ => rfl
  | ⟨1, _⟩ => simp at h

private theorem start_zero {K D N w : Nat} (d : ScatterDims ⟨2, ![K, D]⟩ ⟨2, ![N, 1]⟩ ⟨2, ![N, D]⟩)
    (huw : d.updateWindowDims = [1])
    (hsd : d.scatterDimsToOperandDims = [0]) (hiv : d.indexVectorDim = 1)
    (idx : IVec ⟨2, ![N, 1]⟩ w) (n : Fin N) (j' : Fin D) :
    d.start (ix2 n j') idx 0 = (idx (ix2 n (0 : Fin 1))).toInt := by
  have hm : (0 : Fin 2) ∈ d.scatterDimsToOperandDims := by rw [hsd]; exact List.mem_singleton.mpr rfl
  unfold ScatterDims.start
  rw [dif_pos hm]
  congr 2
  funext b
  match b with
  | ⟨0, _⟩ =>

    unfold ScatterDims.siIdx
    rw [dif_neg (by rw [hiv]; simp)]
    unfold ScatterDims.siCoord
    apply Fin.ext
    simp only [Fin.val_cast]
    have e : ∀ X : Fin 2, X ∈ d.uScatter → ((ix2 n j' : (⟨2, ![N, D]⟩ : Shape).Idx) X).val = n.val := fun X hX => by
      obtain rfl := uScatter_mem d huw X hX
      rfl
    exact e _ (List.getElem_mem _)
  | ⟨1, _⟩ =>

    unfold ScatterDims.siIdx
    rw [dif_pos (by rw [hiv])]
    apply Fin.ext
    show List.idxOf (0 : Fin 2) d.scatterDimsToOperandDims = 0
    rw [hsd]; simp

private theorem start_one {K D N w : Nat} (d : ScatterDims ⟨2, ![K, D]⟩ ⟨2, ![N, 1]⟩ ⟨2, ![N, D]⟩)
    (hsd : d.scatterDimsToOperandDims = [0])
    (idx : IVec ⟨2, ![N, 1]⟩ w) (i : (⟨2, ![N, D]⟩ : Shape).Idx) :
    d.start i idx 1 = 0 := by
  unfold ScatterDims.start
  rw [dif_neg]
  rw [hsd]; simp

private theorem window_zero {K D N : Nat} (d : ScatterDims ⟨2, ![K, D]⟩ ⟨2, ![N, 1]⟩ ⟨2, ![N, D]⟩)
    (hiw : d.insertedWindowDims = [0]) (i : (⟨2, ![N, D]⟩ : Shape).Idx) :
    d.window i 0 = 0 := by
  unfold ScatterDims.window
  rw [dif_neg]
  simp [ScatterDims.sKept, Shape.kept, hiw]

private theorem window_one {K D N : Nat} (d : ScatterDims ⟨2, ![K, D]⟩ ⟨2, ![N, 1]⟩ ⟨2, ![N, D]⟩)
    (huw : d.updateWindowDims = [1]) (hiw : d.insertedWindowDims = [0]) (i : (⟨2, ![N, D]⟩ : Shape).Idx) :
    d.window i 1 = (i 1).val := by
  have hm : (1 : Fin 2) ∈ d.sKept := by
    simp [ScatterDims.sKept, Shape.kept, hiw]
  unfold ScatterDims.window
  rw [dif_pos hm]
  have e : ∀ X : Fin 2, X ∈ d.updateWindowDims → X = 1 := fun X hX => by
    rw [huw] at hX; exact List.mem_singleton.1 hX
  exact congrArg (fun X => (i X).val) (e _ (List.getElem_mem _))

theorem resultIdx?_eq_some_iff {K D N w : Nat} (d : ScatterDims ⟨2, ![K, D]⟩ ⟨2, ![N, 1]⟩ ⟨2, ![N, D]⟩)
    (huw : d.updateWindowDims = [1]) (hiw : d.insertedWindowDims = [0])
    (hsd : d.scatterDimsToOperandDims = [0]) (hiv : d.indexVectorDim = 1)
    (idx : IVec ⟨2, ![N, 1]⟩ w) (n : Fin N) (j' : Fin D) (s : Fin K) (j : Fin D) :
    d.resultIdx? (ix2 n j') idx = some (ix2 s j)
      ↔ (idx (ix2 n (0 : Fin 1))).toInt = (s.val : Int) ∧ j' = j := by
  have hst0 := start_zero d huw hsd hiv idx n j'
  have hst1 := start_one d hsd idx (ix2 n j')
  have hw0 := window_zero d hiw (ix2 n j')
  have hw1 : d.window (ix2 n j') 1 = j'.val := window_one d huw hiw (ix2 n j')
  have hK : (⟨2, ![K, D]⟩ : Shape).size (0 : Fin 2) = K := rfl
  have hD : (⟨2, ![K, D]⟩ : Shape).size (1 : Fin 2) = D := rfl
  have hs := s.isLt
  have hj := j.isLt
  have hj' := j'.isLt
  unfold ScatterDims.resultIdx?
  split
  · next h =>
    rw [Option.some.injEq]
    constructor
    · intro e
      have e0 := congrArg (fun f => (f (0 : Fin 2)).val) e
      have e1 := congrArg (fun f => (f (1 : Fin 2)).val) e
      simp only [hst0, hst1, hw0, hw1] at e0 e1
      change ((idx (ix2 n (0 : Fin 1))).toInt + ((0 : Nat) : Int)).toNat = s.val at e0
      change ((0 : Int) + ((j'.val : Nat) : Int)).toNat = j.val at e1
      have h0 := h 0
      rw [hst0, hw0] at h0
      exact ⟨by omega, Fin.ext (by omega)⟩
    · rintro ⟨e, rfl⟩
      funext a
      match a with
      | ⟨0, _⟩ =>
        apply Fin.ext
        show (d.start (ix2 n j') idx 0 + ((d.window (ix2 n j') 0 : Nat) : Int)).toNat = s.val
        rw [hst0, hw0]; omega
      | ⟨1, _⟩ =>
        apply Fin.ext
        show (d.start (ix2 n j') idx 1 + ((d.window (ix2 n j') 1 : Nat) : Int)).toNat = j'.val
        rw [hst1, hw1]; omega
  · next h =>
    constructor
    · intro e; exact absurd e (by simp)
    · rintro ⟨e, rfl⟩
      exfalso
      apply h
      rw [Fin.forall_fin_two]
      refine ⟨?_, ?_⟩
      · rw [hst0, hw0, hK, e]; omega
      · rw [hst1, hw1, hD]; omega

theorem scatterAdd_rows_apply {K D N w : Nat} (d : ScatterDims ⟨2, ![K, D]⟩ ⟨2, ![N, 1]⟩ ⟨2, ![N, D]⟩)
    (huw : d.updateWindowDims = [1]) (hiw : d.insertedWindowDims = [0])
    (hsd : d.scatterDimsToOperandDims = [0]) (hiv : d.indexVectorDim = 1)
    (x : FVec Ideal ⟨2, ![K, D]⟩ .f32) (idx : IVec ⟨2, ![N, 1]⟩ w) (upd : FVec Ideal ⟨2, ![N, D]⟩ .f32)
    (s : Fin K) (j : Fin D) :
    Host.scatterAdd (F := Ideal) d x idx upd (ix2 s j)
      = x (ix2 s j) + ∑ n : Fin N, if (idx (ix2 n (0 : Fin 1))).toInt = (s.val : Int) then upd (ix2 n j) else 0 := by
  show Ideal.hostScatterAdd d x idx upd (ix2 s j) = _
  unfold Ideal.hostScatterAdd
  congr 1

  rw [Finset.sum_filter, sum_idx2]
  refine Finset.sum_congr rfl fun n _ => ?_
  simp only [resultIdx?_eq_some_iff d huw hiw hsd hiv idx n _ s j]

  by_cases hA : (idx (ix2 n (0 : Fin 1))).toInt = (s.val : Int)
  · simp only [hA, true_and]
    rw [Finset.sum_ite_eq']
    simp
  · simp [hA]

end Idealize.ShloMosaic.SegmentRows

end
-- ==== Proof.IdealHostB.lean ====
import proofs.«410242_j1185410974040_3_alg».proof.Proof.Gen.KernelIdeal.Launch
import proofs.«410242_j1185410974040_3_alg».proof.Proof.Glue
import proofs.«410242_j1185410974040_3_alg».proof.Proof.LibScatterVec
import proofs.«410242_j1185410974040_3_alg».proof.Proof.LibGatherClamp
import proofs.«410242_j1185410974040_3_alg».proof.Proof.LibSegmentRows
import Idealize.ShloMosaic.Lib.StableHlo.Run
import Idealize.ShloMosaic.Lib.StableHlo.Predicate
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.HandValue

open Cert.KernelIdeal Cert.KernelIdeal.Gen Cert.Gcn
open Idealize.ShloMosaic Idealize.ShloMosaic.TcCoe Idealize.ShloMosaic.ValueIdx
open Idealize.SL.Sem

theorem ixP_eq {k : Nat} (p : Fin k) : StableHlo.Predicate.ixP p = ix2 p (0 : Fin 1) := by
  funext a; match a with | ⟨0, _⟩ => rfl | ⟨1, _⟩ => rfl

theorem ofFin_eq {k : Nat} (p : Fin k) : Shape.Idx.ofFin p = ix1 p := by
  funext a; match a with | ⟨0, _⟩ => exact Shape.Idx.ofFin_zero p

theorem col_apply {α : Type} {k : Nat} (h : (⟨1, ![k]⟩ : Shape).BroadcastsInDim ⟨2, ![k, 1]⟩ ![0])
    (v : (⟨1, ![k]⟩ : Shape).Idx → α) (p : Fin k) :
    broadcastInDim ⟨2, ![k, 1]⟩ ![0] h v (ix2 p (0 : Fin 1)) = v (ix1 p) := by
  rw [← ixP_eq, ← ofFin_eq]
  exact StableHlo.Predicate.bcast_col1 h v p

theorem uncol_apply {α : Type} {k : Nat} (h : (⟨2, ![k, 1]⟩ : Shape).ShapeCasts ⟨1, ![k]⟩)
    (x : (⟨2, ![k, 1]⟩ : Shape).Idx → α) (p : Fin k) :
    shapeCast ⟨1, ![k]⟩ x h (ix1 p) = x (ix2 p (0 : Fin 1)) :=
  shapeCast_apply x h _ _ (by
    rw [Shape.rowMajor_val_two, Shape.rowMajor_val_one]
    show p.val * 1 + 0 = p.val
    omega)

def normCol (s5 : IVec S3300000 32) : IVec S3300000x1 32 :=
  broadcastInDim S3300000x1 ![0] bcast_S3300000_S3300000x1_0
    (select (cmpi CmpIPredicate.slt s5 (broadcastInDim S3300000 ![] bcast_S_S3300000 (constantI S_ 32 0#32)))
      (addi s5 (broadcastInDim S3300000 ![] bcast_S_S3300000 (constantI S_ 32 100000#32))) s5)

theorem normCol_apply (s5 : IVec S3300000 32) (e : Fin 3300000) :
    normCol s5 (ix2 e (0 : Fin 1)) = normW (s5 (ix1 e)) := by
  unfold normCol
  exact (col_apply bcast_S3300000_S3300000x1_0 _ e).trans rfl

/-- The table row the clamped, normalised word of edge e reads is the specification's position of that word. -/
theorem pos_eq (s5 : IVec S3300000 32) (e : Fin 3300000) (j : S3300000x1.Idx) (hj : j = ix2 e (0 : Fin 1)) (h) :
    (⟨min ((normCol s5) j).toInt.toNat (100000 - 1), h⟩ : Fin 100000) = posOf (s5 (ix1 e)) := by
  subst hj
  exact Fin.ext (by
    show min ((normCol s5) (ix2 e (0 : Fin 1))).toInt.toNat (100000 - 1) = min (normW (s5 (ix1 e))).toInt.toNat (n - 1)
    rw [normCol_apply])

def tcolTerm (x0 : FVec Ideal S100000x1 .f32) (dv : FVec Ideal S100000 .f32) (s5 s6 : IVec S3300000 32) :
    FVec Ideal S100000x1 .f32 :=
  broadcastInDim S100000x1 ![0] bcast_S100000_S100000x1_0
    (Host.scatterAdd (F := Ideal) scatter_S100000_S3300000x1_S3300000_n_0_0_1
      (broadcastInDim S100000 ![] bcast_S_S100000 (constant (F := Ideal) S_ FTy.f32 0x00000000#32))
      (broadcastInDim S3300000x1 ![0] bcast_S3300000_S3300000x1_0 s6)
      (Host.gather gather_S100000_S3300000x1_S3300000_n_0_n_n_0_1_1
        (mulf (F := Ideal) (shapeCast S100000 x0 shapeCasts_S100000x1_S100000) dv)
        (normCol s5)))

theorem take_apply (x0 : FVec Ideal S100000x1 .f32) (dv : FVec Ideal S100000 .f32) (s5 : IVec S3300000 32)
    (e : Fin 3300000) :
    Host.gather gather_S100000_S3300000x1_S3300000_n_0_n_n_0_1_1
        (mulf (F := Ideal) (shapeCast S100000 x0 shapeCasts_S100000x1_S100000) dv) (normCol s5) (ix1 e)
      = x0 (ix2 (posOf (s5 (ix1 e))) (0 : Fin 1)) * dv (ix1 (posOf (s5 (ix1 e)))) := by
  refine (congrArg _ (ofFin_eq e).symm).trans ((StableHlo.Predicate.gather_take
    gather_S100000_S3300000x1_S3300000_n_0_n_n_0_1_1 rfl rfl rfl rfl _ (normCol s5) e (by decide)).trans ?_)
  rw [pos_eq s5 e _ (ixP_eq e), ofFin_eq]
  show shapeCast S100000 x0 shapeCasts_S100000x1_S100000 (ix1 (posOf (s5 (ix1 e)))) * dv (ix1 (posOf (s5 (ix1 e)))) = _
  rw [uncol_apply]

theorem tcolTerm_apply (x0 : FVec Ideal S100000x1 .f32) (dv : FVec Ideal S100000 .f32) (s5 s6 : IVec S3300000 32)
    (v : Fin 100000) :
    tcolTerm x0 dv s5 s6 (ix2 v (0 : Fin 1))
      = 0 + ∑ e : Fin 3300000, if (s6 (ix1 e)).toInt = (v.val : ℤ)
          then x0 (ix2 (posOf (s5 (ix1 e))) (0 : Fin 1)) * dv (ix1 (posOf (s5 (ix1 e)))) else 0 := by
  unfold tcolTerm
  refine (col_apply bcast_S100000_S100000x1_0 _ v).trans ?_
  refine (ScatterVec.scatterAdd_vec_apply scatter_S100000_S3300000x1_S3300000_n_0_0_1 rfl rfl rfl rfl _ _ _ v).trans ?_
  refine congrArg₂ (fun a b : EReal => a + b)
    ((show _ = Ideal.ofBits .f32 0x00000000#32 from rfl).trans Ideal.ofBits_zero_f32)
    (Finset.sum_congr rfl fun e _ => ?_)
  rw [col_apply bcast_S3300000_S3300000x1_0 s6 e, take_apply]

def s2Term (m : FVec Ideal S100000x50 .f32) (s5 s6 : IVec S3300000 32) : FVec Ideal S100000x50 .f32 :=
  Host.scatterAdd (F := Ideal) scatter_S100000x50_S3300000x1_S3300000x50_1_0_0_1
    (broadcastInDim S100000x50 ![] bcast_S_S100000x50 (constant (F := Ideal) S_ FTy.f32 0x00000000#32))
    (broadcastInDim S3300000x1 ![0] bcast_S3300000_S3300000x1_0 s6)
    (Host.gather gather_S100000x50_S3300000x1_S3300000x50_1_0_n_n_0_1_150 m (normCol s5))

theorem s2Term_apply (m : FVec Ideal S100000x50 .f32) (s5 s6 : IVec S3300000 32) (v : Fin 100000) (f : Fin 50) :
    s2Term m s5 s6 (ix2 v f)
      = 0 + ∑ e : Fin 3300000, if (s6 (ix1 e)).toInt = (v.val : ℤ) then m (ix2 (posOf (s5 (ix1 e))) f) else 0 := by
  unfold s2Term
  refine (SegmentRows.scatterAdd_rows_apply scatter_S100000x50_S3300000x1_S3300000x50_1_0_0_1 rfl rfl rfl rfl _ _ _ v f).trans ?_
  refine congrArg₂ (fun a b : EReal => a + b)
    ((show _ = Ideal.ofBits .f32 0x00000000#32 from rfl).trans Ideal.ofBits_zero_f32)
    (Finset.sum_congr rfl fun e _ => ?_)
  rw [col_apply bcast_S3300000_S3300000x1_0 s6 e, GatherClamp.gather_rows_clamp gather_S100000x50_S3300000x1_S3300000x50_1_0_n_n_0_1_150 rfl rfl rfl rfl rfl
    rfl rfl m (normCol s5) e f (by decide), pos_eq s5 e _ rfl]

variable (W : Valuation τ sig (Elt Ideal))

/-- A vector cast to a row reads, at lane f, the vector at f. -/
theorem row_of_cast {X : FVec Ideal S1x50 .f32} {Y : FVec Ideal S50 .f32} (e : X = shapeCast S1x50 Y shapeCasts_S50_S1x50) (f : Fin 50) :
    rowOf X f = vecOf Y f :=
  e ▸ shapeCast_a_1a_apply _ shapeCasts_S50_S1x50 (0 : Fin 1) f

theorem dcol_spec (u : Fin 100000) :
    colOf (StableHlo.after hostOps0_2 W (Proc.devRef .tc main_v15)) u = vecOf (W (Proc.devRef .tc main_v14)) u := by
  have e : (StableHlo.after hostOps0_2 W (Proc.devRef .tc main_v15) : S100000x1.Idx → EReal)
      = broadcastInDim S100000x1 ![0] bcast_S100000_S100000x1_0 (W (Proc.devRef .tc main_v14)) := by
    after_results_simp
  exact (congrFun e _).trans (col_apply bcast_S100000_S100000x1_0 _ u)

theorem tcol_spec (v : Fin 100000) :
    colOf (StableHlo.after hostOps0_2 W (Proc.devRef .tc main_v28)) v
      = kT (dstOf (W (Proc.devRef .tc main_v6))) (srcOf (W (Proc.devRef .tc main_v5)))
          (colOf (W (Proc.devRef .tc main_arg0))) (vecOf (W (Proc.devRef .tc main_v14))) v := by
  have e : (StableHlo.after hostOps0_2 W (Proc.devRef .tc main_v28) : S100000x1.Idx → EReal)
      = tcolTerm (W (Proc.devRef .tc main_arg0)) (W (Proc.devRef .tc main_v14)) (W (Proc.devRef .tc main_v5))
          (W (Proc.devRef .tc main_v6)) := by
    after_results_simp
    rfl
  exact (congrFun e _).trans (tcolTerm_apply _ _ _ _ v)

theorem b1row_spec (f : Fin 50) :
    rowOf (StableHlo.after hostOps0_2 W (Proc.devRef .tc main_v29)) f = vecOf (W (Proc.devRef .tc main_arg4)) f :=
  row_of_cast (by after_results_simp; rfl) f

theorem s2_spec (v : Fin 100000) (f : Fin 50) :
    matOf (StableHlo.after hostOps2 W (Proc.devRef .tc main_v41)) v f
      = 0 + ∑ e : Fin E, if dstOf (W (Proc.devRef .tc main_v6)) e = (v.val : ℤ)
          then matOf (W (Proc.devRef .tc main_v31)) (srcOf (W (Proc.devRef .tc main_v5)) e) f else 0 := by
  have e : (StableHlo.after hostOps2 W (Proc.devRef .tc main_v41) : S100000x50.Idx → EReal)
      = s2Term (W (Proc.devRef .tc main_v31)) (W (Proc.devRef .tc main_v5)) (W (Proc.devRef .tc main_v6)) := by
    after_results_simp
    rfl
  exact (congrFun e _).trans (s2Term_apply _ _ _ v f)

theorem b2row_spec (f : Fin 50) :
    rowOf (StableHlo.after hostOps2 W (Proc.devRef .tc main_v42)) f = vecOf (W (Proc.devRef .tc main_arg6)) f :=
  row_of_cast (by after_results_simp; rfl) f

end Cert.KernelIdeal.HandValue

end
-- ==== Proof.IdealChain.lean ====
import proofs.«410242_j1185410974040_3_alg».proof.Proof.IdealRun
import proofs.«410242_j1185410974040_3_alg».proof.Proof.IdealValue012
import proofs.«410242_j1185410974040_3_alg».proof.Proof.IdealHostA
import proofs.«410242_j1185410974040_3_alg».proof.Proof.IdealHostB
import proofs.«410242_j1185410974040_3_alg».proof.Proof.Glue

noncomputable section

namespace Cert.KernelIdeal.HandValue

open Cert.KernelIdeal Cert.KernelIdeal.Gen Cert.KernelIdeal.Hand Cert.Gcn
open Idealize.ShloMosaic Idealize.ShloMosaic.TcCoe Idealize.ShloMosaic.ValueIdx
open Idealize.SL.Sem
open Idealize.ShloMosaic.Pipeline (Dat Cfg Window)
open scoped BigOperators

variable (m : (ℓ : Loc nD τ sig) → Buf (Elt Ideal) ℓ) (ρ : Dev nD → PrngReg)

abbrev SRC (c : Dev nD) : IVec ⟨1, ![3300000]⟩ 32 := W1 m ρ c (Proc.devRef .tc main_v5)
abbrev DST (c : Dev nD) : IVec ⟨1, ![3300000]⟩ 32 := W1 m ρ c (Proc.devRef .tc main_v6)
abbrev DINV (c : Dev nD) : FVec Ideal ⟨1, ![100000]⟩ .f32 := W2 m ρ c (Proc.devRef .tc main_v14)
abbrev Xa (c : Dev nD) : FVec Ideal ⟨2, ![100000, 1]⟩ .f32 := m ((c : Thread nD τ).loc main_arg0)
abbrev W1a (c : Dev nD) : FVec Ideal ⟨2, ![1, 50]⟩ .f32 := m ((c : Thread nD τ).loc main_arg3)
abbrev B1a (c : Dev nD) : FVec Ideal ⟨1, ![50]⟩ .f32 := m ((c : Thread nD τ).loc main_arg4)
abbrev W2a (c : Dev nD) : FVec Ideal ⟨2, ![50, 50]⟩ .f32 := m ((c : Thread nD τ).loc main_arg5)
abbrev B2a (c : Dev nD) : FVec Ideal ⟨1, ![50]⟩ .f32 := m ((c : Thread nD τ).loc main_arg6)

theorem src2 (c : Dev nD) : W2 m ρ c (Proc.devRef .tc main_v5) = SRC m ρ c := W2_keep m ρ c main_v5 (by decide)
theorem dst2 (c : Dev nD) : W2 m ρ c (Proc.devRef .tc main_v6) = DST m ρ c := W2_keep m ρ c main_v6 (by decide)
theorem src5 (c : Dev nD) : W5 m ρ c (Proc.devRef .tc main_v5) = SRC m ρ c := by
  rw [W5_keep, W4_keep, W3_keep, W2_keep] <;> decide
theorem dst5 (c : Dev nD) : W5 m ρ c (Proc.devRef .tc main_v6) = DST m ρ c := by
  rw [W5_keep, W4_keep, W3_keep, W2_keep] <;> decide
theorem x2 (c : Dev nD) : W2 m ρ c (Proc.devRef .tc main_arg0) = Xa m c := by
  rw [W2_keep, W1_keep] <;> decide
theorem w1_3 (c : Dev nD) : W3 m ρ c (Proc.devRef .tc main_arg3) = W1a m c := by
  rw [W3_keep, W2_keep, W1_keep] <;> decide
theorem b1_2 (c : Dev nD) : W2 m ρ c (Proc.devRef .tc main_arg4) = B1a m c := by
  rw [W2_keep, W1_keep] <;> decide
theorem w2_4 (c : Dev nD) : W4 m ρ c (Proc.devRef .tc main_arg5) = W2a m c := by
  rw [W4_keep, W3_keep, W2_keep, W1_keep] <;> decide
theorem b2_5 (c : Dev nD) : W5 m ρ c (Proc.devRef .tc main_arg6) = B2a m c := by
  rw [W5_keep, W4_keep, W3_keep, W2_keep, W1_keep] <;> decide
theorem dcol3 (c : Dev nD) (u : Fin 100000) : colOf (V3 m ρ c main_v15) u = vecOf (DINV m ρ c) u :=
  dcol_spec (W2 m ρ c) u
theorem dcol4 (c : Dev nD) (u : Fin 100000) : colOf (V4 m ρ c main_v15) u = vecOf (DINV m ρ c) u :=
  (congrFun (W4_keep m ρ c main_v15 (by decide)) (ix2 u (0 : Fin 1))).trans (dcol3 m ρ c u)
theorem dcol6 (c : Dev nD) (u : Fin 100000) : colOf (V6 m ρ c main_v15) u = vecOf (DINV m ρ c) u :=
  (congrFun ((W6_keep m ρ c main_v15 (by decide)).trans (W5_keep m ρ c main_v15 (by decide))) (ix2 u (0 : Fin 1))).trans (dcol4 m ρ c u)

theorem t_apply (c : Dev nD) (v : Fin 100000) :
    colOf (V3 m ρ c main_v28) v = kT (dstOf (DST m ρ c)) (srcOf (SRC m ρ c)) (colOf (Xa m c)) (vecOf (DINV m ρ c)) v := by
  have h := tcol_spec (W2 m ρ c) v
  rw [dst2, src2, x2] at h
  exact h

theorem h1_apply (c : Dev nD) (u : Fin 100000) (k : Fin 50) :
    matOf (V4 m ρ c main_v30) u k
      = kH1 (dstOf (DST m ρ c)) (srcOf (SRC m ρ c)) (colOf (Xa m c)) (vecOf (DINV m ρ c)) (rowOf (W1a m c)) (vecOf (B1a m c)) u k := by
  refine ((congrFun (W4_out m ρ c) (ix2 u k)).trans (val0 (V3 m ρ) c u k)).trans ?_
  have hw : rowOf (V3 m ρ c main_arg3) k = rowOf (W1a m c) k := congrFun (w1_3 m ρ c) (ix2 (0 : Fin 1) k)
  have hb : rowOf (V3 m ρ c main_v29) k = vecOf (B1a m c) k :=
    (b1row_spec (W2 m ρ c) k).trans (congrFun (b1_2 m ρ c) (ix1 k))
  rw [dcol3, t_apply, hw, hb]
  rfl

theorem p_apply (c : Dev nD) (u : Fin 100000) (f : Fin 50) :
    matOf (V5 m ρ c main_v31) u f
      = kP (dstOf (DST m ρ c)) (srcOf (SRC m ρ c)) (colOf (Xa m c)) (vecOf (DINV m ρ c)) (rowOf (W1a m c)) (vecOf (B1a m c)) (matOf (W2a m c)) u f := by
  refine ((congrFun (W5_out m ρ c) (ix2 u f)).trans (val1 (V4 m ρ) c u f)).trans ?_
  rw [dcol4]
  unfold kP
  refine congrArg (· * vecOf (DINV m ρ c) u) (Finset.sum_congr rfl fun k _ => ?_)
  have hw : matOf (V4 m ρ c main_arg5) k f = matOf (W2a m c) k f := congrFun (w2_4 m ρ c) (ix2 k f)
  rw [h1_apply, hw]

theorem s2_eq (c : Dev nD) (v : Fin 100000) (f : Fin 50) :
    matOf (V6 m ρ c main_v41) v f
      = kS2 (dstOf (DST m ρ c)) (srcOf (SRC m ρ c)) (colOf (Xa m c)) (vecOf (DINV m ρ c)) (rowOf (W1a m c)) (vecOf (B1a m c)) (matOf (W2a m c)) v f := by
  have h := s2_spec (W5 m ρ c) v f
  rw [dst5, src5] at h
  refine h.trans ?_
  unfold kS2
  refine congrArg (0 + ·) (Finset.sum_congr rfl fun e _ => ?_)
  rw [← p_apply]

theorem h2_apply (c : Dev nD) (v : Fin 100000) (f : Fin 50) :
    matOf (V8 m ρ c main_v43) v f
      = kH2 (dstOf (DST m ρ c)) (srcOf (SRC m ρ c)) (colOf (Xa m c)) (vecOf (DINV m ρ c)) (rowOf (W1a m c)) (vecOf (B1a m c)) (matOf (W2a m c)) (vecOf (B2a m c)) v f := by
  refine ((congrFun ((W8_keep m ρ c main_v43 (by decide)).trans (W7_out m ρ c)) (ix2 v f)).trans (val2 (V6 m ρ) c v f)).trans ?_
  have hb : rowOf (V6 m ρ c main_v42) f = vecOf (B2a m c) f :=
    (b2row_spec (W5 m ρ c) f).trans (congrFun (b2_5 m ρ c) (ix1 f))
  rw [dcol6, s2_eq, hb]
  rfl

end Cert.KernelIdeal.HandValue

end
-- ==== Proof.IdealOut.lean ====
import proofs.«410242_j1185410974040_3_alg».proof.Proof.IdealVal3
import proofs.«410242_j1185410974040_3_alg».proof.Proof.IdealChain

noncomputable section

namespace Cert.KernelIdeal.HandValue

open Cert.KernelIdeal Cert.KernelIdeal.Gen Cert.KernelIdeal.Hand Cert.Gcn
open Idealize.ShloMosaic Idealize.ShloMosaic.TcCoe Idealize.ShloMosaic.ValueIdx
open Idealize.SL.Sem
open Idealize.ShloMosaic.Pipeline (Dat Cfg Window)
open scoped BigOperators

variable (m : (ℓ : Loc nD τ sig) → Buf (Elt Ideal) ℓ) (ρ : Dev nD → PrngReg)

abbrev BTa (c : Dev nD) : IVec ⟨1, ![100000]⟩ 32 := m ((c : Thread nD τ).loc main_arg2)
abbrev WCa (c : Dev nD) : FVec Ideal ⟨2, ![50, 2]⟩ .f32 := m ((c : Thread nD τ).loc main_arg7)
abbrev BCa (c : Dev nD) : FVec Ideal ⟨1, ![2]⟩ .f32 := m ((c : Thread nD τ).loc main_arg8)

/-- A reference outside every set written so far holds its initial contents. -/
theorem W7_arg (c : Dev nD) (b : Ref sig .tc) (h : b ≠ main_v43 ∧ b ∉ hostOps2_W ∧ b ≠ main_v31 ∧ b ≠ main_v30 ∧ b ∉ hostOps0_2_W
    ∧ b ∉ hostOps0_1_W ∧ b ∉ hostOps0_W) : W7 m ρ c (Proc.devRef .tc b) = m ((c : Thread nD τ).loc b) :=
  (W7_keep m ρ c b h.1).trans <| (W6_keep m ρ c b h.2.1).trans <| (W5_keep m ρ c b h.2.2.1).trans <| (W4_keep m ρ c b h.2.2.2.1).trans <|
  (W3_keep m ρ c b h.2.2.2.2.1).trans <| (W2_keep m ρ c b h.2.2.2.2.2.1).trans <| (W1_keep m ρ c b h.2.2.2.2.2.2).trans rfl

theorem grp_in (c : Dev nD) (v : Fin 100000) :
    ((V8 m ρ c main_v49 : IVec ⟨2, ![100000, 1]⟩ 32) (ix2 v (0 : Fin 1))).toInt = grpOf (BTa m c) v := by
  unfold grpOf
  refine congrArg BitVec.toInt ?_
  refine (bcol_apply (W7 m ρ c) v).trans ?_
  rw [W7_arg m ρ c main_arg2 (by decide)]

theorem wc_in (c : Dev nD) : V8 m ρ c main_arg7 = WCa m c :=
  (W8_keep m ρ c main_arg7 (by decide)).trans (W7_arg m ρ c main_arg7 (by decide))

theorem bc_in (c : Dev nD) (l : Fin 2) : rowOf (V8 m ρ c main_v50) l = vecOf (BCa m c) l := by
  unfold rowOf vecOf
  refine (bcrow_apply (W7 m ρ c) l).trans ?_
  rw [W7_arg m ρ c main_arg8 (by decide)]

theorem cnt_in (c : Dev nD) (g : Fin 128) :
    colOf (V8 m ρ c main_v48) g = 0 + ∑ v : Fin 100000, if grpOf (BTa m c) v = (g.val : ℤ) then (1 : EReal) else 0 := by
  unfold colOf grpOf
  refine (cnt_apply (W7 m ρ c) g).trans ?_
  rw [W7_arg m ρ c main_arg2 (by decide)]

theorem kernel_out (c : Dev nD) (g : Fin 128) (l : Fin 2) : (dat3 (F := Ideal) (V8 m ρ) c).arrAt 5 cfg3.N (ix2 g l)
      = Cert.Gcn.head (grpOf (BTa m c)) (matOf (WCa m c)) (vecOf (BCa m c)) (fun g => 0 + ∑ v : Fin 100000, if grpOf (BTa m c) v = (g.val : ℤ) then 1 else 0)
          (Cert.Gcn.kH2 (dstOf (DST m ρ c)) (srcOf (SRC m ρ c)) (colOf (Xa m c)) (vecOf (DINV m ρ c)) (rowOf (W1a m c)) (vecOf (B1a m c)) (matOf (W2a m c)) (vecOf (B2a m c))) g l := by
  have e5 : (fun v f => Cert.Gcn.matOf (V8 m ρ c main_v43) v f) = Cert.Gcn.kH2 (dstOf (DST m ρ c)) (srcOf (SRC m ρ c)) (colOf (Xa m c)) (vecOf (DINV m ρ c)) (rowOf (W1a m c)) (vecOf (B1a m c)) (matOf (W2a m c)) (vecOf (B2a m c)) :=
    funext fun v => funext fun f => h2_apply m ρ c v f
  rw [val3 (V8 m ρ) c g l, funext (grp_in m ρ c), wc_in, funext (bc_in m ρ c), funext (cnt_in m ρ c), e5]

end Cert.KernelIdeal.HandValue

end
-- ==== Proof.RefReadPatched.lean ====
import proofs.«410242_j1185410974040_3_alg».proof.Proof.RefRunPatched
import Idealize.ShloMosaic.Lib.Pipeline.Value
import Idealize.ShloMosaic.Lib.ValueIdx
import Idealize.ShloMosaic.PureOps.Ideal.Laws

noncomputable section

namespace Cert.ReferenceIdeal.ReadP

open Cert.ReferenceIdeal Cert.ReferenceIdeal.Gen Idealize.ShloMosaic Idealize.ShloMosaic.TcCoe Idealize.SL.Sem Idealize.ShloMosaic.StableHlo

variable {F : FTy → Type} [FloatOps F]

def val_main_v0 (x1 : (⟨S2x3200000, .i32⟩ : BufTy).Contents (Elt F)) : (⟨S1x3200000, .i32⟩ : BufTy).Contents (Elt F) :=
  extractStridedSlice S1x3200000 ![0, 0] (x1) slices_S2x3200000_S1x3200000_0_0
def val_main_v1 (x1 : (⟨S2x3200000, .i32⟩ : BufTy).Contents (Elt F)) : (⟨S3200000, .i32⟩ : BufTy).Contents (Elt F) :=
  shapeCast _ (val_main_v0 (F := F) x1) shapeCasts_S1x3200000_S3200000
def val_main_v2 (x1 : (⟨S2x3200000, .i32⟩ : BufTy).Contents (Elt F)) : (⟨S1x3200000, .i32⟩ : BufTy).Contents (Elt F) :=
  extractStridedSlice S1x3200000 ![1, 0] (x1) slices_S2x3200000_S1x3200000_1_0
def val_main_v3 (x1 : (⟨S2x3200000, .i32⟩ : BufTy).Contents (Elt F)) : (⟨S3200000, .i32⟩ : BufTy).Contents (Elt F) :=
  shapeCast _ (val_main_v2 (F := F) x1) shapeCasts_S1x3200000_S3200000
def val_main_v4 (x0 : (⟨S100000x1, .f32⟩ : BufTy).Contents (Elt F)) (x3 : (⟨S1x50, .f32⟩ : BufTy).Contents (Elt F)) : (⟨S100000x50, .f32⟩ : BufTy).Contents (Elt F) :=
  Host.dotGeneral dot_S100000x1_S1x50_S100000x50_1_0_0_1_n_n none (x0) (x3)
theorem lhs_main_v4_0 (i : S100000x50.Idx) (q : dot_S100000x1_S1x50_S100000x50_1_0_0_1_n_n.contr.Idx) :
    (dot_S100000x1_S1x50_S100000x50_1_0_0_1_n_n.lhsIdx i q 0).val = (i 0).val := by
  unfold DotDims.lhsIdx
  rw [dif_neg (show ¬(0 : Fin S100000x1.rank) ∈ dot_S100000x1_S1x50_S100000x50_1_0_0_1_n_n.lhsBatch by decide), dif_pos (show (0 : Fin S100000x1.rank) ∈ dot_S100000x1_S1x50_S100000x50_1_0_0_1_n_n.lhsNonContracting by decide)]
  rfl
theorem lhs_main_v4_1 (i : S100000x50.Idx) (q : dot_S100000x1_S1x50_S100000x50_1_0_0_1_n_n.contr.Idx) :
    (dot_S100000x1_S1x50_S100000x50_1_0_0_1_n_n.lhsIdx i q 1).val = (q ⟨0, by decide⟩).val :=
  dot_S100000x1_S1x50_S100000x50_1_0_0_1_n_n.lhsIdx_val_of_single rfl i q
theorem rhs_main_v4_0 (i : S100000x50.Idx) (q : dot_S100000x1_S1x50_S100000x50_1_0_0_1_n_n.contr.Idx) :
    (dot_S100000x1_S1x50_S100000x50_1_0_0_1_n_n.rhsIdx i q 0).val = (q ⟨0, by decide⟩).val :=
  dot_S100000x1_S1x50_S100000x50_1_0_0_1_n_n.rhsIdx_val_of_single rfl i q
theorem rhs_main_v4_1 (i : S100000x50.Idx) (q : dot_S100000x1_S1x50_S100000x50_1_0_0_1_n_n.contr.Idx) :
    (dot_S100000x1_S1x50_S100000x50_1_0_0_1_n_n.rhsIdx i q 1).val = (i 1).val := by
  unfold DotDims.rhsIdx
  rw [dif_neg (show ¬(1 : Fin S1x50.rank) ∈ dot_S100000x1_S1x50_S100000x50_1_0_0_1_n_n.rhsBatch by decide), dif_pos (show (1 : Fin S1x50.rank) ∈ dot_S100000x1_S1x50_S100000x50_1_0_0_1_n_n.rhsNonContracting by decide)]
  rfl
abbrev lidx_main_v4 (i : S100000x50.Idx) (k : Fin 1) : S100000x1.Idx := fun a => match a with
  | ⟨0, _⟩ => ⟨(i 0).val, (i 0).isLt⟩
  | ⟨1, _⟩ => ⟨k.val, k.isLt⟩
abbrev ridx_main_v4 (i : S100000x50.Idx) (k : Fin 1) : S1x50.Idx := fun a => match a with
  | ⟨0, _⟩ => ⟨k.val, k.isLt⟩
  | ⟨1, _⟩ => ⟨(i 1).val, (i 1).isLt⟩
theorem val_main_v4_apply (x0 : (⟨S100000x1, .f32⟩ : BufTy).Contents (Elt Ideal)) (x3 : (⟨S1x50, .f32⟩ : BufTy).Contents (Elt Ideal)) (i : S100000x50.Idx) :
    val_main_v4 (F := Ideal) x0 x3 i = ∑ k : Fin 1, x0 (lidx_main_v4 i k) * x3 (ridx_main_v4 i k) := by
  unfold val_main_v4
  simp only [Host.dotGeneral]
  rw [Ideal.dotGeneral_apply, ← Equiv.sum_comp (ValueIdx.contrEquiv1 dot_S100000x1_S1x50_S100000x50_1_0_0_1_n_n 1 rfl rfl).symm]
  refine Finset.sum_congr rfl fun k _ => ?_
  have hk := ValueIdx.contrEquiv1_symm_val dot_S100000x1_S1x50_S100000x50_1_0_0_1_n_n 1 rfl rfl k
  have el : dot_S100000x1_S1x50_S100000x50_1_0_0_1_n_n.lhsIdx i ((ValueIdx.contrEquiv1 dot_S100000x1_S1x50_S100000x50_1_0_0_1_n_n 1 rfl rfl).symm k) = lidx_main_v4 i k := funext fun a => Fin.ext (by
    match a with
    | ⟨0, _⟩ => exact lhs_main_v4_0 _ _
    | ⟨1, _⟩ => exact (lhs_main_v4_1 _ _).trans hk)
  have er : dot_S100000x1_S1x50_S100000x50_1_0_0_1_n_n.rhsIdx i ((ValueIdx.contrEquiv1 dot_S100000x1_S1x50_S100000x50_1_0_0_1_n_n 1 rfl rfl).symm k) = ridx_main_v4 i k := funext fun a => Fin.ext (by
    match a with
    | ⟨0, _⟩ => exact (rhs_main_v4_0 _ _).trans hk
    | ⟨1, _⟩ => exact rhs_main_v4_1 _ _)
  rw [el, er]

def val_main_v5 : (⟨S100000, .i32⟩ : BufTy).Contents (Elt F) :=
  iotaInDim S100000 32 0
def val_main_v6 (x1 : (⟨S2x3200000, .i32⟩ : BufTy).Contents (Elt F)) : (⟨S3300000, .i32⟩ : BufTy).Contents (Elt F) :=
  concatenate S3300000 0 [⟨S3200000, (val_main_v1 (F := F) x1)⟩, ⟨S100000, (val_main_v5 (F := F))⟩] concatenates_S3200000_S100000_S3300000_d0

def val_main_v7 (x1 : (⟨S2x3200000, .i32⟩ : BufTy).Contents (Elt F)) : (⟨S3300000, .i32⟩ : BufTy).Contents (Elt F) :=
  concatenate S3300000 0 [⟨S3200000, (val_main_v3 (F := F) x1)⟩, ⟨S100000, (val_main_v5 (F := F))⟩] concatenates_S3200000_S100000_S3300000_d0

def val_main_cst : (⟨S_, .f32⟩ : BufTy).Contents (Elt F) :=
  constant S_ .f32 0x3F800000#32
def val_main_v8 : (⟨S3300000, .f32⟩ : BufTy).Contents (Elt F) :=
  broadcastInDim S3300000 ![] bcast_S_S3300000 (val_main_cst (F := F))
def val_main_cst_0 : (⟨S_, .f32⟩ : BufTy).Contents (Elt F) :=
  constant S_ .f32 0x00000000#32
def val_main_v9 : (⟨S100000, .f32⟩ : BufTy).Contents (Elt F) :=
  broadcastInDim S100000 ![] bcast_S_S100000 (val_main_cst_0 (F := F))
def val_main_v10 (x1 : (⟨S2x3200000, .i32⟩ : BufTy).Contents (Elt F)) : (⟨S3300000x1, .i32⟩ : BufTy).Contents (Elt F) :=
  broadcastInDim S3300000x1 ![0] bcast_S3300000_S3300000x1_0 (val_main_v7 (F := F) x1)
def val_main_v11 (x1 : (⟨S2x3200000, .i32⟩ : BufTy).Contents (Elt F)) : (⟨S100000, .f32⟩ : BufTy).Contents (Elt F) :=
  Host.scatterAdd scatter_S100000_S3300000x1_S3300000_n_0_0_1 (val_main_v9 (F := F)) (val_main_v10 (F := F) x1) (val_main_v8 (F := F))

def val_main_cst_1 : (⟨S_, .f32⟩ : BufTy).Contents (Elt F) :=
  constant S_ .f32 0x00000000#32
def val_main_v12 : (⟨S100000, .f32⟩ : BufTy).Contents (Elt F) :=
  broadcastInDim S100000 ![] bcast_S_S100000 (val_main_cst_1 (F := F))
def val_main_v13 (x1 : (⟨S2x3200000, .i32⟩ : BufTy).Contents (Elt F)) : (⟨S100000, .i1⟩ : BufTy).Contents (Elt F) :=
  cmpf (F := F) .ogt (val_main_v11 (F := F) x1) (val_main_v12 (F := F))
def val_main_v14 (x1 : (⟨S2x3200000, .i32⟩ : BufTy).Contents (Elt F)) : (⟨S100000, .f32⟩ : BufTy).Contents (Elt F) :=
  Host.rsqrt (val_main_v11 (F := F) x1)
def val_main_cst_2 : (⟨S_, .f32⟩ : BufTy).Contents (Elt F) :=
  constant S_ .f32 0x00000000#32
def val_main_call0_v0 : (⟨S_, .f32⟩ : BufTy).Contents (Elt F) :=
  id (val_main_cst_2 (F := F))
def val_main_call0_v1 : (⟨S100000, .f32⟩ : BufTy).Contents (Elt F) :=
  broadcastInDim S100000 ![] bcast_S_S100000 (val_main_call0_v0 (F := F))
def val_main_v15 (x1 : (⟨S2x3200000, .i32⟩ : BufTy).Contents (Elt F)) : (⟨S100000, .f32⟩ : BufTy).Contents (Elt F) :=
  select (val_main_v13 (F := F) x1) (val_main_v14 (F := F) x1) (val_main_call0_v1 (F := F))
def val_main_c : (⟨S_, .i32⟩ : BufTy).Contents (Elt F) :=
  constantI S_ 32 0#32
def val_main_v16 : (⟨S3300000, .i32⟩ : BufTy).Contents (Elt F) :=
  broadcastInDim S3300000 ![] bcast_S_S3300000 (val_main_c (F := F))
def val_main_v17 (x1 : (⟨S2x3200000, .i32⟩ : BufTy).Contents (Elt F)) : (⟨S3300000, .i1⟩ : BufTy).Contents (Elt F) :=
  cmpi .slt (val_main_v6 (F := F) x1) (val_main_v16 (F := F))
def val_main_c_3 : (⟨S_, .i32⟩ : BufTy).Contents (Elt F) :=
  constantI S_ 32 100000#32
def val_main_v18 : (⟨S3300000, .i32⟩ : BufTy).Contents (Elt F) :=
  broadcastInDim S3300000 ![] bcast_S_S3300000 (val_main_c_3 (F := F))
def val_main_v19 (x1 : (⟨S2x3200000, .i32⟩ : BufTy).Contents (Elt F)) : (⟨S3300000, .i32⟩ : BufTy).Contents (Elt F) :=
  addi (val_main_v6 (F := F) x1) (val_main_v18 (F := F))
def val_main_v20 (x1 : (⟨S2x3200000, .i32⟩ : BufTy).Contents (Elt F)) : (⟨S3300000, .i32⟩ : BufTy).Contents (Elt F) :=
  select (val_main_v17 (F := F) x1) (val_main_v19 (F := F) x1) (val_main_v6 (F := F) x1)
def val_main_v21 (x1 : (⟨S2x3200000, .i32⟩ : BufTy).Contents (Elt F)) : (⟨S3300000x1, .i32⟩ : BufTy).Contents (Elt F) :=
  broadcastInDim S3300000x1 ![0] bcast_S3300000_S3300000x1_0 (val_main_v20 (F := F) x1)
def val_main_v22 (x1 : (⟨S2x3200000, .i32⟩ : BufTy).Contents (Elt F)) : (⟨S3300000, .f32⟩ : BufTy).Contents (Elt F) :=
  Host.gather gather_S100000_S3300000x1_S3300000_n_0_n_n_0_1_1 (val_main_v15 (F := F) x1) (val_main_v21 (F := F) x1)

def val_main_c_4 : (⟨S_, .i32⟩ : BufTy).Contents (Elt F) :=
  constantI S_ 32 0#32
def val_main_v23 : (⟨S3300000, .i32⟩ : BufTy).Contents (Elt F) :=
  broadcastInDim S3300000 ![] bcast_S_S3300000 (val_main_c_4 (F := F))
def val_main_v24 (x1 : (⟨S2x3200000, .i32⟩ : BufTy).Contents (Elt F)) : (⟨S3300000, .i1⟩ : BufTy).Contents (Elt F) :=
  cmpi .slt (val_main_v7 (F := F) x1) (val_main_v23 (F := F))
def val_main_c_5 : (⟨S_, .i32⟩ : BufTy).Contents (Elt F) :=
  constantI S_ 32 100000#32
def val_main_v25 : (⟨S3300000, .i32⟩ : BufTy).Contents (Elt F) :=
  broadcastInDim S3300000 ![] bcast_S_S3300000 (val_main_c_5 (F := F))
def val_main_v26 (x1 : (⟨S2x3200000, .i32⟩ : BufTy).Contents (Elt F)) : (⟨S3300000, .i32⟩ : BufTy).Contents (Elt F) :=
  addi (val_main_v7 (F := F) x1) (val_main_v25 (F := F))
def val_main_v27 (x1 : (⟨S2x3200000, .i32⟩ : BufTy).Contents (Elt F)) : (⟨S3300000, .i32⟩ : BufTy).Contents (Elt F) :=
  select (val_main_v24 (F := F) x1) (val_main_v26 (F := F) x1) (val_main_v7 (F := F) x1)
def val_main_v28 (x1 : (⟨S2x3200000, .i32⟩ : BufTy).Contents (Elt F)) : (⟨S3300000x1, .i32⟩ : BufTy).Contents (Elt F) :=
  broadcastInDim S3300000x1 ![0] bcast_S3300000_S3300000x1_0 (val_main_v27 (F := F) x1)
def val_main_v29 (x1 : (⟨S2x3200000, .i32⟩ : BufTy).Contents (Elt F)) : (⟨S3300000, .f32⟩ : BufTy).Contents (Elt F) :=
  Host.gather gather_S100000_S3300000x1_S3300000_n_0_n_n_0_1_1 (val_main_v15 (F := F) x1) (val_main_v28 (F := F) x1)

def val_main_v30 (x1 : (⟨S2x3200000, .i32⟩ : BufTy).Contents (Elt F)) : (⟨S3300000, .f32⟩ : BufTy).Contents (Elt F) :=
  mulf (val_main_v22 (F := F) x1) (val_main_v29 (F := F) x1)
def val_main_c_6 : (⟨S_, .i32⟩ : BufTy).Contents (Elt F) :=
  constantI S_ 32 0#32
def val_main_v31 : (⟨S3300000, .i32⟩ : BufTy).Contents (Elt F) :=
  broadcastInDim S3300000 ![] bcast_S_S3300000 (val_main_c_6 (F := F))
def val_main_v32 (x1 : (⟨S2x3200000, .i32⟩ : BufTy).Contents (Elt F)) : (⟨S3300000, .i1⟩ : BufTy).Contents (Elt F) :=
  cmpi .slt (val_main_v6 (F := F) x1) (val_main_v31 (F := F))
def val_main_c_7 : (⟨S_, .i32⟩ : BufTy).Contents (Elt F) :=
  constantI S_ 32 100000#32
def val_main_v33 : (⟨S3300000, .i32⟩ : BufTy).Contents (Elt F) :=
  broadcastInDim S3300000 ![] bcast_S_S3300000 (val_main_c_7 (F := F))
def val_main_v34 (x1 : (⟨S2x3200000, .i32⟩ : BufTy).Contents (Elt F)) : (⟨S3300000, .i32⟩ : BufTy).Contents (Elt F) :=
  addi (val_main_v6 (F := F) x1) (val_main_v33 (F := F))
def val_main_v35 (x1 : (⟨S2x3200000, .i32⟩ : BufTy).Contents (Elt F)) : (⟨S3300000, .i32⟩ : BufTy).Contents (Elt F) :=
  select (val_main_v32 (F := F) x1) (val_main_v34 (F := F) x1) (val_main_v6 (F := F) x1)
def val_main_v36 (x1 : (⟨S2x3200000, .i32⟩ : BufTy).Contents (Elt F)) : (⟨S3300000x1, .i32⟩ : BufTy).Contents (Elt F) :=
  broadcastInDim S3300000x1 ![0] bcast_S3300000_S3300000x1_0 (val_main_v35 (F := F) x1)
def val_main_v37 (x0 : (⟨S100000x1, .f32⟩ : BufTy).Contents (Elt F)) (x1 : (⟨S2x3200000, .i32⟩ : BufTy).Contents (Elt F)) (x3 : (⟨S1x50, .f32⟩ : BufTy).Contents (Elt F)) : (⟨S3300000x50, .f32⟩ : BufTy).Contents (Elt F) :=
  Host.gather gather_S100000x50_S3300000x1_S3300000x50_1_0_n_n_0_1_150 (val_main_v4 (F := F) x0 x3) (val_main_v36 (F := F) x1)

def val_main_v38 (x1 : (⟨S2x3200000, .i32⟩ : BufTy).Contents (Elt F)) : (⟨S3300000x1, .f32⟩ : BufTy).Contents (Elt F) :=
  broadcastInDim S3300000x1 ![0] bcast_S3300000_S3300000x1_0 (val_main_v30 (F := F) x1)
def val_main_v39 (x1 : (⟨S2x3200000, .i32⟩ : BufTy).Contents (Elt F)) : (⟨S3300000x50, .f32⟩ : BufTy).Contents (Elt F) :=
  broadcastInDim S3300000x50 ![0, 1] bcast_S3300000x1_S3300000x50_0_1 (val_main_v38 (F := F) x1)
def val_main_v40 (x0 : (⟨S100000x1, .f32⟩ : BufTy).Contents (Elt F)) (x1 : (⟨S2x3200000, .i32⟩ : BufTy).Contents (Elt F)) (x3 : (⟨S1x50, .f32⟩ : BufTy).Contents (Elt F)) : (⟨S3300000x50, .f32⟩ : BufTy).Contents (Elt F) :=
  mulf (val_main_v37 (F := F) x0 x1 x3) (val_main_v39 (F := F) x1)
def val_main_cst_8 : (⟨S_, .f32⟩ : BufTy).Contents (Elt F) :=
  constant S_ .f32 0x00000000#32
def val_main_v41 : (⟨S100000x50, .f32⟩ : BufTy).Contents (Elt F) :=
  broadcastInDim S100000x50 ![] bcast_S_S100000x50 (val_main_cst_8 (F := F))
def val_main_v42 (x1 : (⟨S2x3200000, .i32⟩ : BufTy).Contents (Elt F)) : (⟨S3300000x1, .i32⟩ : BufTy).Contents (Elt F) :=
  broadcastInDim S3300000x1 ![0] bcast_S3300000_S3300000x1_0 (val_main_v7 (F := F) x1)
def val_main_v43 (x0 : (⟨S100000x1, .f32⟩ : BufTy).Contents (Elt F)) (x1 : (⟨S2x3200000, .i32⟩ : BufTy).Contents (Elt F)) (x3 : (⟨S1x50, .f32⟩ : BufTy).Contents (Elt F)) : (⟨S100000x50, .f32⟩ : BufTy).Contents (Elt F) :=
  Host.scatterAdd scatter_S100000x50_S3300000x1_S3300000x50_1_0_0_1 (val_main_v41 (F := F)) (val_main_v42 (F := F) x1) (val_main_v40 (F := F) x0 x1 x3)

def val_main_v44 (x4 : (⟨S50, .f32⟩ : BufTy).Contents (Elt F)) : (⟨S1x50, .f32⟩ : BufTy).Contents (Elt F) :=
  broadcastInDim S1x50 ![1] bcast_S50_S1x50_1 (x4)
abbrev idx_main_v44 (i : S1x50.Idx) : S50.Idx := fun a => match a with
  | ⟨0, _⟩ => ⟨(i 1).val, (i 1).isLt⟩
theorem val_main_v44_apply (x4 : (⟨S50, .f32⟩ : BufTy).Contents (Elt F)) (i : S1x50.Idx) :
    val_main_v44 (F := F) x4 i = x4 (idx_main_v44 i) := by
  unfold val_main_v44
  exact broadcastInDim_apply _ bcast_S50_S1x50_1 x4 i (idx_main_v44 i) (fun a => match a with
    | ⟨0, _⟩ => by show (i 1).val = if (50 : Nat) = 1 then 0 else (i 1).val; rw [if_neg (by decide)])

def val_main_v45 (x4 : (⟨S50, .f32⟩ : BufTy).Contents (Elt F)) : (⟨S100000x50, .f32⟩ : BufTy).Contents (Elt F) :=
  broadcastInDim S100000x50 ![0, 1] bcast_S1x50_S100000x50_0_1 (val_main_v44 (F := F) x4)
abbrev idx_main_v45 (i : S100000x50.Idx) : S1x50.Idx := fun a => match a with
  | ⟨0, _⟩ => ⟨0, Nat.one_pos⟩
  | ⟨1, _⟩ => ⟨(i 1).val, (i 1).isLt⟩
theorem val_main_v45_apply (x4 : (⟨S50, .f32⟩ : BufTy).Contents (Elt F)) (i : S100000x50.Idx) :
    val_main_v45 (F := F) x4 i = val_main_v44 (F := F) x4 (idx_main_v45 i) := by
  unfold val_main_v45
  generalize val_main_v44 (F := F) x4 = y
  exact broadcastInDim_apply _ bcast_S1x50_S100000x50_0_1 y i (idx_main_v45 i) (fun a => match a with
    | ⟨0, _⟩ => by show 0 = if (1 : Nat) = 1 then 0 else (i 0).val; rw [if_pos rfl]
    | ⟨1, _⟩ => by show (i 1).val = if (50 : Nat) = 1 then 0 else (i 1).val; rw [if_neg (by decide)])

def val_main_v46 (x0 : (⟨S100000x1, .f32⟩ : BufTy).Contents (Elt F)) (x1 : (⟨S2x3200000, .i32⟩ : BufTy).Contents (Elt F)) (x3 : (⟨S1x50, .f32⟩ : BufTy).Contents (Elt F)) (x4 : (⟨S50, .f32⟩ : BufTy).Contents (Elt F)) : (⟨S100000x50, .f32⟩ : BufTy).Contents (Elt F) :=
  addf (val_main_v43 (F := F) x0 x1 x3) (val_main_v45 (F := F) x4)
theorem val_main_v46_apply (x0 : (⟨S100000x1, .f32⟩ : BufTy).Contents (Elt F)) (x1 : (⟨S2x3200000, .i32⟩ : BufTy).Contents (Elt F)) (x3 : (⟨S1x50, .f32⟩ : BufTy).Contents (Elt F)) (x4 : (⟨S50, .f32⟩ : BufTy).Contents (Elt F)) (i : S100000x50.Idx) :
    val_main_v46 (F := F) x0 x1 x3 x4 i = FloatOps.addf (val_main_v43 (F := F) x0 x1 x3 i) (val_main_v45 (F := F) x4 i) := rfl

def val_main_call1_cst : (⟨S_, .f32⟩ : BufTy).Contents (Elt F) :=
  constant S_ .f32 0x00000000#32
theorem val_main_call1_cst_apply (i : S_.Idx) :
    val_main_call1_cst (F := F) i = FloatOps.ofBits .f32 0x00000000#32 := rfl

def val_main_call1_v0 : (⟨S100000x50, .f32⟩ : BufTy).Contents (Elt F) :=
  broadcastInDim S100000x50 ![] bcast_S_S100000x50 (val_main_call1_cst (F := F))
abbrev idx_main_call1_v0 (i : S100000x50.Idx) : S_.Idx := fun a => a.elim0
theorem val_main_call1_v0_apply (i : S100000x50.Idx) :
    val_main_call1_v0 (F := F) i = val_main_call1_cst (F := F) (idx_main_call1_v0 i) := by
  unfold val_main_call1_v0
  generalize val_main_call1_cst (F := F) = y
  exact broadcastInDim_apply _ bcast_S_S100000x50 y i (idx_main_call1_v0 i) (fun a => a.elim0)

def val_main_v47 (x0 : (⟨S100000x1, .f32⟩ : BufTy).Contents (Elt F)) (x1 : (⟨S2x3200000, .i32⟩ : BufTy).Contents (Elt F)) (x3 : (⟨S1x50, .f32⟩ : BufTy).Contents (Elt F)) (x4 : (⟨S50, .f32⟩ : BufTy).Contents (Elt F)) : (⟨S100000x50, .f32⟩ : BufTy).Contents (Elt F) :=
  maximumf (val_main_v46 (F := F) x0 x1 x3 x4) (val_main_call1_v0 (F := F))
theorem val_main_v47_apply (x0 : (⟨S100000x1, .f32⟩ : BufTy).Contents (Elt F)) (x1 : (⟨S2x3200000, .i32⟩ : BufTy).Contents (Elt F)) (x3 : (⟨S1x50, .f32⟩ : BufTy).Contents (Elt F)) (x4 : (⟨S50, .f32⟩ : BufTy).Contents (Elt F)) (i : S100000x50.Idx) :
    val_main_v47 (F := F) x0 x1 x3 x4 i = FloatOps.maximumf (val_main_v46 (F := F) x0 x1 x3 x4 i) (val_main_call1_v0 (F := F) i) := rfl

def val_main_v48 (x0 : (⟨S100000x1, .f32⟩ : BufTy).Contents (Elt F)) (x1 : (⟨S2x3200000, .i32⟩ : BufTy).Contents (Elt F)) (x3 : (⟨S1x50, .f32⟩ : BufTy).Contents (Elt F)) (x4 : (⟨S50, .f32⟩ : BufTy).Contents (Elt F)) (x5 : (⟨S50x50, .f32⟩ : BufTy).Contents (Elt F)) : (⟨S100000x50, .f32⟩ : BufTy).Contents (Elt F) :=
  Host.dotGeneral dot_S100000x50_S50x50_S100000x50_1_0_0_1_n_n none (val_main_v47 (F := F) x0 x1 x3 x4) (x5)
theorem lhs_main_v48_0 (i : S100000x50.Idx) (q : dot_S100000x50_S50x50_S100000x50_1_0_0_1_n_n.contr.Idx) :
    (dot_S100000x50_S50x50_S100000x50_1_0_0_1_n_n.lhsIdx i q 0).val = (i 0).val := by
  unfold DotDims.lhsIdx
  rw [dif_neg (show ¬(0 : Fin S100000x50.rank) ∈ dot_S100000x50_S50x50_S100000x50_1_0_0_1_n_n.lhsBatch by decide), dif_pos (show (0 : Fin S100000x50.rank) ∈ dot_S100000x50_S50x50_S100000x50_1_0_0_1_n_n.lhsNonContracting by decide)]
  rfl
theorem lhs_main_v48_1 (i : S100000x50.Idx) (q : dot_S100000x50_S50x50_S100000x50_1_0_0_1_n_n.contr.Idx) :
    (dot_S100000x50_S50x50_S100000x50_1_0_0_1_n_n.lhsIdx i q 1).val = (q ⟨0, by decide⟩).val :=
  dot_S100000x50_S50x50_S100000x50_1_0_0_1_n_n.lhsIdx_val_of_single rfl i q
theorem rhs_main_v48_0 (i : S100000x50.Idx) (q : dot_S100000x50_S50x50_S100000x50_1_0_0_1_n_n.contr.Idx) :
    (dot_S100000x50_S50x50_S100000x50_1_0_0_1_n_n.rhsIdx i q 0).val = (q ⟨0, by decide⟩).val :=
  dot_S100000x50_S50x50_S100000x50_1_0_0_1_n_n.rhsIdx_val_of_single rfl i q
theorem rhs_main_v48_1 (i : S100000x50.Idx) (q : dot_S100000x50_S50x50_S100000x50_1_0_0_1_n_n.contr.Idx) :
    (dot_S100000x50_S50x50_S100000x50_1_0_0_1_n_n.rhsIdx i q 1).val = (i 1).val := by
  unfold DotDims.rhsIdx
  rw [dif_neg (show ¬(1 : Fin S50x50.rank) ∈ dot_S100000x50_S50x50_S100000x50_1_0_0_1_n_n.rhsBatch by decide), dif_pos (show (1 : Fin S50x50.rank) ∈ dot_S100000x50_S50x50_S100000x50_1_0_0_1_n_n.rhsNonContracting by decide)]
  rfl
abbrev lidx_main_v48 (i : S100000x50.Idx) (k : Fin 50) : S100000x50.Idx := fun a => match a with
  | ⟨0, _⟩ => ⟨(i 0).val, (i 0).isLt⟩
  | ⟨1, _⟩ => ⟨k.val, k.isLt⟩
abbrev ridx_main_v48 (i : S100000x50.Idx) (k : Fin 50) : S50x50.Idx := fun a => match a with
  | ⟨0, _⟩ => ⟨k.val, k.isLt⟩
  | ⟨1, _⟩ => ⟨(i 1).val, (i 1).isLt⟩
theorem val_main_v48_apply (x0 : (⟨S100000x1, .f32⟩ : BufTy).Contents (Elt Ideal)) (x1 : (⟨S2x3200000, .i32⟩ : BufTy).Contents (Elt Ideal)) (x3 : (⟨S1x50, .f32⟩ : BufTy).Contents (Elt Ideal)) (x4 : (⟨S50, .f32⟩ : BufTy).Contents (Elt Ideal)) (x5 : (⟨S50x50, .f32⟩ : BufTy).Contents (Elt Ideal)) (i : S100000x50.Idx) :
    val_main_v48 (F := Ideal) x0 x1 x3 x4 x5 i = ∑ k : Fin 50, (val_main_v47 (F := Ideal) x0 x1 x3 x4) (lidx_main_v48 i k) * x5 (ridx_main_v48 i k) := by
  unfold val_main_v48
  generalize val_main_v47 (F := Ideal) x0 x1 x3 x4 = y0
  simp only [Host.dotGeneral]
  rw [Ideal.dotGeneral_apply, ← Equiv.sum_comp (ValueIdx.contrEquiv1 dot_S100000x50_S50x50_S100000x50_1_0_0_1_n_n 50 rfl rfl).symm]
  refine Finset.sum_congr rfl fun k _ => ?_
  have hk := ValueIdx.contrEquiv1_symm_val dot_S100000x50_S50x50_S100000x50_1_0_0_1_n_n 50 rfl rfl k
  have el : dot_S100000x50_S50x50_S100000x50_1_0_0_1_n_n.lhsIdx i ((ValueIdx.contrEquiv1 dot_S100000x50_S50x50_S100000x50_1_0_0_1_n_n 50 rfl rfl).symm k) = lidx_main_v48 i k := funext fun a => Fin.ext (by
    match a with
    | ⟨0, _⟩ => exact lhs_main_v48_0 _ _
    | ⟨1, _⟩ => exact (lhs_main_v48_1 _ _).trans hk)
  have er : dot_S100000x50_S50x50_S100000x50_1_0_0_1_n_n.rhsIdx i ((ValueIdx.contrEquiv1 dot_S100000x50_S50x50_S100000x50_1_0_0_1_n_n 50 rfl rfl).symm k) = ridx_main_v48 i k := funext fun a => Fin.ext (by
    match a with
    | ⟨0, _⟩ => exact (rhs_main_v48_0 _ _).trans hk
    | ⟨1, _⟩ => exact rhs_main_v48_1 _ _)
  rw [el, er]

def val_main_v49 : (⟨S100000, .i32⟩ : BufTy).Contents (Elt F) :=
  iotaInDim S100000 32 0
def val_main_v50 (x1 : (⟨S2x3200000, .i32⟩ : BufTy).Contents (Elt F)) : (⟨S3300000, .i32⟩ : BufTy).Contents (Elt F) :=
  concatenate S3300000 0 [⟨S3200000, (val_main_v1 (F := F) x1)⟩, ⟨S100000, (val_main_v49 (F := F))⟩] concatenates_S3200000_S100000_S3300000_d0

def val_main_v51 (x1 : (⟨S2x3200000, .i32⟩ : BufTy).Contents (Elt F)) : (⟨S3300000, .i32⟩ : BufTy).Contents (Elt F) :=
  concatenate S3300000 0 [⟨S3200000, (val_main_v3 (F := F) x1)⟩, ⟨S100000, (val_main_v49 (F := F))⟩] concatenates_S3200000_S100000_S3300000_d0

def val_main_cst_9 : (⟨S_, .f32⟩ : BufTy).Contents (Elt F) :=
  constant S_ .f32 0x3F800000#32
def val_main_v52 : (⟨S3300000, .f32⟩ : BufTy).Contents (Elt F) :=
  broadcastInDim S3300000 ![] bcast_S_S3300000 (val_main_cst_9 (F := F))
def val_main_cst_10 : (⟨S_, .f32⟩ : BufTy).Contents (Elt F) :=
  constant S_ .f32 0x00000000#32
def val_main_v53 : (⟨S100000, .f32⟩ : BufTy).Contents (Elt F) :=
  broadcastInDim S100000 ![] bcast_S_S100000 (val_main_cst_10 (F := F))
def val_main_v54 (x1 : (⟨S2x3200000, .i32⟩ : BufTy).Contents (Elt F)) : (⟨S3300000x1, .i32⟩ : BufTy).Contents (Elt F) :=
  broadcastInDim S3300000x1 ![0] bcast_S3300000_S3300000x1_0 (val_main_v51 (F := F) x1)
def val_main_v55 (x1 : (⟨S2x3200000, .i32⟩ : BufTy).Contents (Elt F)) : (⟨S100000, .f32⟩ : BufTy).Contents (Elt F) :=
  Host.scatterAdd scatter_S100000_S3300000x1_S3300000_n_0_0_1 (val_main_v53 (F := F)) (val_main_v54 (F := F) x1) (val_main_v52 (F := F))

def val_main_cst_11 : (⟨S_, .f32⟩ : BufTy).Contents (Elt F) :=
  constant S_ .f32 0x00000000#32
def val_main_v56 : (⟨S100000, .f32⟩ : BufTy).Contents (Elt F) :=
  broadcastInDim S100000 ![] bcast_S_S100000 (val_main_cst_11 (F := F))
def val_main_v57 (x1 : (⟨S2x3200000, .i32⟩ : BufTy).Contents (Elt F)) : (⟨S100000, .i1⟩ : BufTy).Contents (Elt F) :=
  cmpf (F := F) .ogt (val_main_v55 (F := F) x1) (val_main_v56 (F := F))
def val_main_v58 (x1 : (⟨S2x3200000, .i32⟩ : BufTy).Contents (Elt F)) : (⟨S100000, .f32⟩ : BufTy).Contents (Elt F) :=
  Host.rsqrt (val_main_v55 (F := F) x1)
def val_main_cst_12 : (⟨S_, .f32⟩ : BufTy).Contents (Elt F) :=
  constant S_ .f32 0x00000000#32
def val_main_call2_v0 : (⟨S_, .f32⟩ : BufTy).Contents (Elt F) :=
  id (val_main_cst_12 (F := F))
def val_main_call2_v1 : (⟨S100000, .f32⟩ : BufTy).Contents (Elt F) :=
  broadcastInDim S100000 ![] bcast_S_S100000 (val_main_call2_v0 (F := F))
def val_main_v59 (x1 : (⟨S2x3200000, .i32⟩ : BufTy).Contents (Elt F)) : (⟨S100000, .f32⟩ : BufTy).Contents (Elt F) :=
  select (val_main_v57 (F := F) x1) (val_main_v58 (F := F) x1) (val_main_call2_v1 (F := F))
def val_main_c_13 : (⟨S_, .i32⟩ : BufTy).Contents (Elt F) :=
  constantI S_ 32 0#32
def val_main_v60 : (⟨S3300000, .i32⟩ : BufTy).Contents (Elt F) :=
  broadcastInDim S3300000 ![] bcast_S_S3300000 (val_main_c_13 (F := F))
def val_main_v61 (x1 : (⟨S2x3200000, .i32⟩ : BufTy).Contents (Elt F)) : (⟨S3300000, .i1⟩ : BufTy).Contents (Elt F) :=
  cmpi .slt (val_main_v50 (F := F) x1) (val_main_v60 (F := F))
def val_main_c_14 : (⟨S_, .i32⟩ : BufTy).Contents (Elt F) :=
  constantI S_ 32 100000#32
def val_main_v62 : (⟨S3300000, .i32⟩ : BufTy).Contents (Elt F) :=
  broadcastInDim S3300000 ![] bcast_S_S3300000 (val_main_c_14 (F := F))
def val_main_v63 (x1 : (⟨S2x3200000, .i32⟩ : BufTy).Contents (Elt F)) : (⟨S3300000, .i32⟩ : BufTy).Contents (Elt F) :=
  addi (val_main_v50 (F := F) x1) (val_main_v62 (F := F))
def val_main_v64 (x1 : (⟨S2x3200000, .i32⟩ : BufTy).Contents (Elt F)) : (⟨S3300000, .i32⟩ : BufTy).Contents (Elt F) :=
  select (val_main_v61 (F := F) x1) (val_main_v63 (F := F) x1) (val_main_v50 (F := F) x1)
def val_main_v65 (x1 : (⟨S2x3200000, .i32⟩ : BufTy).Contents (Elt F)) : (⟨S3300000x1, .i32⟩ : BufTy).Contents (Elt F) :=
  broadcastInDim S3300000x1 ![0] bcast_S3300000_S3300000x1_0 (val_main_v64 (F := F) x1)
def val_main_v66 (x1 : (⟨S2x3200000, .i32⟩ : BufTy).Contents (Elt F)) : (⟨S3300000, .f32⟩ : BufTy).Contents (Elt F) :=
  Host.gather gather_S100000_S3300000x1_S3300000_n_0_n_n_0_1_1 (val_main_v59 (F := F) x1) (val_main_v65 (F := F) x1)

def val_main_c_15 : (⟨S_, .i32⟩ : BufTy).Contents (Elt F) :=
  constantI S_ 32 0#32
def val_main_v67 : (⟨S3300000, .i32⟩ : BufTy).Contents (Elt F) :=
  broadcastInDim S3300000 ![] bcast_S_S3300000 (val_main_c_15 (F := F))
def val_main_v68 (x1 : (⟨S2x3200000, .i32⟩ : BufTy).Contents (Elt F)) : (⟨S3300000, .i1⟩ : BufTy).Contents (Elt F) :=
  cmpi .slt (val_main_v51 (F := F) x1) (val_main_v67 (F := F))
def val_main_c_16 : (⟨S_, .i32⟩ : BufTy).Contents (Elt F) :=
  constantI S_ 32 100000#32
def val_main_v69 : (⟨S3300000, .i32⟩ : BufTy).Contents (Elt F) :=
  broadcastInDim S3300000 ![] bcast_S_S3300000 (val_main_c_16 (F := F))
def val_main_v70 (x1 : (⟨S2x3200000, .i32⟩ : BufTy).Contents (Elt F)) : (⟨S3300000, .i32⟩ : BufTy).Contents (Elt F) :=
  addi (val_main_v51 (F := F) x1) (val_main_v69 (F := F))
def val_main_v71 (x1 : (⟨S2x3200000, .i32⟩ : BufTy).Contents (Elt F)) : (⟨S3300000, .i32⟩ : BufTy).Contents (Elt F) :=
  select (val_main_v68 (F := F) x1) (val_main_v70 (F := F) x1) (val_main_v51 (F := F) x1)
def val_main_v72 (x1 : (⟨S2x3200000, .i32⟩ : BufTy).Contents (Elt F)) : (⟨S3300000x1, .i32⟩ : BufTy).Contents (Elt F) :=
  broadcastInDim S3300000x1 ![0] bcast_S3300000_S3300000x1_0 (val_main_v71 (F := F) x1)
def val_main_v73 (x1 : (⟨S2x3200000, .i32⟩ : BufTy).Contents (Elt F)) : (⟨S3300000, .f32⟩ : BufTy).Contents (Elt F) :=
  Host.gather gather_S100000_S3300000x1_S3300000_n_0_n_n_0_1_1 (val_main_v59 (F := F) x1) (val_main_v72 (F := F) x1)

def val_main_v74 (x1 : (⟨S2x3200000, .i32⟩ : BufTy).Contents (Elt F)) : (⟨S3300000, .f32⟩ : BufTy).Contents (Elt F) :=
  mulf (val_main_v66 (F := F) x1) (val_main_v73 (F := F) x1)
def val_main_c_17 : (⟨S_, .i32⟩ : BufTy).Contents (Elt F) :=
  constantI S_ 32 0#32
def val_main_v75 : (⟨S3300000, .i32⟩ : BufTy).Contents (Elt F) :=
  broadcastInDim S3300000 ![] bcast_S_S3300000 (val_main_c_17 (F := F))
def val_main_v76 (x1 : (⟨S2x3200000, .i32⟩ : BufTy).Contents (Elt F)) : (⟨S3300000, .i1⟩ : BufTy).Contents (Elt F) :=
  cmpi .slt (val_main_v50 (F := F) x1) (val_main_v75 (F := F))
def val_main_c_18 : (⟨S_, .i32⟩ : BufTy).Contents (Elt F) :=
  constantI S_ 32 100000#32
def val_main_v77 : (⟨S3300000, .i32⟩ : BufTy).Contents (Elt F) :=
  broadcastInDim S3300000 ![] bcast_S_S3300000 (val_main_c_18 (F := F))
def val_main_v78 (x1 : (⟨S2x3200000, .i32⟩ : BufTy).Contents (Elt F)) : (⟨S3300000, .i32⟩ : BufTy).Contents (Elt F) :=
  addi (val_main_v50 (F := F) x1) (val_main_v77 (F := F))
def val_main_v79 (x1 : (⟨S2x3200000, .i32⟩ : BufTy).Contents (Elt F)) : (⟨S3300000, .i32⟩ : BufTy).Contents (Elt F) :=
  select (val_main_v76 (F := F) x1) (val_main_v78 (F := F) x1) (val_main_v50 (F := F) x1)
def val_main_v80 (x1 : (⟨S2x3200000, .i32⟩ : BufTy).Contents (Elt F)) : (⟨S3300000x1, .i32⟩ : BufTy).Contents (Elt F) :=
  broadcastInDim S3300000x1 ![0] bcast_S3300000_S3300000x1_0 (val_main_v79 (F := F) x1)
def val_main_v81 (x0 : (⟨S100000x1, .f32⟩ : BufTy).Contents (Elt F)) (x1 : (⟨S2x3200000, .i32⟩ : BufTy).Contents (Elt F)) (x3 : (⟨S1x50, .f32⟩ : BufTy).Contents (Elt F)) (x4 : (⟨S50, .f32⟩ : BufTy).Contents (Elt F)) (x5 : (⟨S50x50, .f32⟩ : BufTy).Contents (Elt F)) : (⟨S3300000x50, .f32⟩ : BufTy).Contents (Elt F) :=
  Host.gather gather_S100000x50_S3300000x1_S3300000x50_1_0_n_n_0_1_150 (val_main_v48 (F := F) x0 x1 x3 x4 x5) (val_main_v80 (F := F) x1)

def val_main_v82 (x1 : (⟨S2x3200000, .i32⟩ : BufTy).Contents (Elt F)) : (⟨S3300000x1, .f32⟩ : BufTy).Contents (Elt F) :=
  broadcastInDim S3300000x1 ![0] bcast_S3300000_S3300000x1_0 (val_main_v74 (F := F) x1)
def val_main_v83 (x1 : (⟨S2x3200000, .i32⟩ : BufTy).Contents (Elt F)) : (⟨S3300000x50, .f32⟩ : BufTy).Contents (Elt F) :=
  broadcastInDim S3300000x50 ![0, 1] bcast_S3300000x1_S3300000x50_0_1 (val_main_v82 (F := F) x1)
def val_main_v84 (x0 : (⟨S100000x1, .f32⟩ : BufTy).Contents (Elt F)) (x1 : (⟨S2x3200000, .i32⟩ : BufTy).Contents (Elt F)) (x3 : (⟨S1x50, .f32⟩ : BufTy).Contents (Elt F)) (x4 : (⟨S50, .f32⟩ : BufTy).Contents (Elt F)) (x5 : (⟨S50x50, .f32⟩ : BufTy).Contents (Elt F)) : (⟨S3300000x50, .f32⟩ : BufTy).Contents (Elt F) :=
  mulf (val_main_v81 (F := F) x0 x1 x3 x4 x5) (val_main_v83 (F := F) x1)
def val_main_cst_19 : (⟨S_, .f32⟩ : BufTy).Contents (Elt F) :=
  constant S_ .f32 0x00000000#32
def val_main_v85 : (⟨S100000x50, .f32⟩ : BufTy).Contents (Elt F) :=
  broadcastInDim S100000x50 ![] bcast_S_S100000x50 (val_main_cst_19 (F := F))
def val_main_v86 (x1 : (⟨S2x3200000, .i32⟩ : BufTy).Contents (Elt F)) : (⟨S3300000x1, .i32⟩ : BufTy).Contents (Elt F) :=
  broadcastInDim S3300000x1 ![0] bcast_S3300000_S3300000x1_0 (val_main_v51 (F := F) x1)
def val_main_v87 (x0 : (⟨S100000x1, .f32⟩ : BufTy).Contents (Elt F)) (x1 : (⟨S2x3200000, .i32⟩ : BufTy).Contents (Elt F)) (x3 : (⟨S1x50, .f32⟩ : BufTy).Contents (Elt F)) (x4 : (⟨S50, .f32⟩ : BufTy).Contents (Elt F)) (x5 : (⟨S50x50, .f32⟩ : BufTy).Contents (Elt F)) : (⟨S100000x50, .f32⟩ : BufTy).Contents (Elt F) :=
  Host.scatterAdd scatter_S100000x50_S3300000x1_S3300000x50_1_0_0_1 (val_main_v85 (F := F)) (val_main_v86 (F := F) x1) (val_main_v84 (F := F) x0 x1 x3 x4 x5)

def val_main_v88 (x6 : (⟨S50, .f32⟩ : BufTy).Contents (Elt F)) : (⟨S1x50, .f32⟩ : BufTy).Contents (Elt F) :=
  broadcastInDim S1x50 ![1] bcast_S50_S1x50_1 (x6)
abbrev idx_main_v88 (i : S1x50.Idx) : S50.Idx := fun a => match a with
  | ⟨0, _⟩ => ⟨(i 1).val, (i 1).isLt⟩
theorem val_main_v88_apply (x6 : (⟨S50, .f32⟩ : BufTy).Contents (Elt F)) (i : S1x50.Idx) :
    val_main_v88 (F := F) x6 i = x6 (idx_main_v88 i) := by
  unfold val_main_v88
  exact broadcastInDim_apply _ bcast_S50_S1x50_1 x6 i (idx_main_v88 i) (fun a => match a with
    | ⟨0, _⟩ => by show (i 1).val = if (50 : Nat) = 1 then 0 else (i 1).val; rw [if_neg (by decide)])

def val_main_v89 (x6 : (⟨S50, .f32⟩ : BufTy).Contents (Elt F)) : (⟨S100000x50, .f32⟩ : BufTy).Contents (Elt F) :=
  broadcastInDim S100000x50 ![0, 1] bcast_S1x50_S100000x50_0_1 (val_main_v88 (F := F) x6)
abbrev idx_main_v89 (i : S100000x50.Idx) : S1x50.Idx := fun a => match a with
  | ⟨0, _⟩ => ⟨0, Nat.one_pos⟩
  | ⟨1, _⟩ => ⟨(i 1).val, (i 1).isLt⟩
theorem val_main_v89_apply (x6 : (⟨S50, .f32⟩ : BufTy).Contents (Elt F)) (i : S100000x50.Idx) :
    val_main_v89 (F := F) x6 i = val_main_v88 (F := F) x6 (idx_main_v89 i) := by
  unfold val_main_v89
  generalize val_main_v88 (F := F) x6 = y
  exact broadcastInDim_apply _ bcast_S1x50_S100000x50_0_1 y i (idx_main_v89 i) (fun a => match a with
    | ⟨0, _⟩ => by show 0 = if (1 : Nat) = 1 then 0 else (i 0).val; rw [if_pos rfl]
    | ⟨1, _⟩ => by show (i 1).val = if (50 : Nat) = 1 then 0 else (i 1).val; rw [if_neg (by decide)])

def val_main_v90 (x0 : (⟨S100000x1, .f32⟩ : BufTy).Contents (Elt F)) (x1 : (⟨S2x3200000, .i32⟩ : BufTy).Contents (Elt F)) (x3 : (⟨S1x50, .f32⟩ : BufTy).Contents (Elt F)) (x4 : (⟨S50, .f32⟩ : BufTy).Contents (Elt F)) (x5 : (⟨S50x50, .f32⟩ : BufTy).Contents (Elt F)) (x6 : (⟨S50, .f32⟩ : BufTy).Contents (Elt F)) : (⟨S100000x50, .f32⟩ : BufTy).Contents (Elt F) :=
  addf (val_main_v87 (F := F) x0 x1 x3 x4 x5) (val_main_v89 (F := F) x6)
theorem val_main_v90_apply (x0 : (⟨S100000x1, .f32⟩ : BufTy).Contents (Elt F)) (x1 : (⟨S2x3200000, .i32⟩ : BufTy).Contents (Elt F)) (x3 : (⟨S1x50, .f32⟩ : BufTy).Contents (Elt F)) (x4 : (⟨S50, .f32⟩ : BufTy).Contents (Elt F)) (x5 : (⟨S50x50, .f32⟩ : BufTy).Contents (Elt F)) (x6 : (⟨S50, .f32⟩ : BufTy).Contents (Elt F)) (i : S100000x50.Idx) :
    val_main_v90 (F := F) x0 x1 x3 x4 x5 x6 i = FloatOps.addf (val_main_v87 (F := F) x0 x1 x3 x4 x5 i) (val_main_v89 (F := F) x6 i) := rfl

def val_main_call3_cst : (⟨S_, .f32⟩ : BufTy).Contents (Elt F) :=
  constant S_ .f32 0x00000000#32
theorem val_main_call3_cst_apply (i : S_.Idx) :
    val_main_call3_cst (F := F) i = FloatOps.ofBits .f32 0x00000000#32 := rfl

def val_main_call3_v0 : (⟨S100000x50, .f32⟩ : BufTy).Contents (Elt F) :=
  broadcastInDim S100000x50 ![] bcast_S_S100000x50 (val_main_call3_cst (F := F))
abbrev idx_main_call3_v0 (i : S100000x50.Idx) : S_.Idx := fun a => a.elim0
theorem val_main_call3_v0_apply (i : S100000x50.Idx) :
    val_main_call3_v0 (F := F) i = val_main_call3_cst (F := F) (idx_main_call3_v0 i) := by
  unfold val_main_call3_v0
  generalize val_main_call3_cst (F := F) = y
  exact broadcastInDim_apply _ bcast_S_S100000x50 y i (idx_main_call3_v0 i) (fun a => a.elim0)

def val_main_v91 (x0 : (⟨S100000x1, .f32⟩ : BufTy).Contents (Elt F)) (x1 : (⟨S2x3200000, .i32⟩ : BufTy).Contents (Elt F)) (x3 : (⟨S1x50, .f32⟩ : BufTy).Contents (Elt F)) (x4 : (⟨S50, .f32⟩ : BufTy).Contents (Elt F)) (x5 : (⟨S50x50, .f32⟩ : BufTy).Contents (Elt F)) (x6 : (⟨S50, .f32⟩ : BufTy).Contents (Elt F)) : (⟨S100000x50, .f32⟩ : BufTy).Contents (Elt F) :=
  maximumf (val_main_v90 (F := F) x0 x1 x3 x4 x5 x6) (val_main_call3_v0 (F := F))
theorem val_main_v91_apply (x0 : (⟨S100000x1, .f32⟩ : BufTy).Contents (Elt F)) (x1 : (⟨S2x3200000, .i32⟩ : BufTy).Contents (Elt F)) (x3 : (⟨S1x50, .f32⟩ : BufTy).Contents (Elt F)) (x4 : (⟨S50, .f32⟩ : BufTy).Contents (Elt F)) (x5 : (⟨S50x50, .f32⟩ : BufTy).Contents (Elt F)) (x6 : (⟨S50, .f32⟩ : BufTy).Contents (Elt F)) (i : S100000x50.Idx) :
    val_main_v91 (F := F) x0 x1 x3 x4 x5 x6 i = FloatOps.maximumf (val_main_v90 (F := F) x0 x1 x3 x4 x5 x6 i) (val_main_call3_v0 (F := F) i) := rfl

def val_main_cst_20 : (⟨S_, .f32⟩ : BufTy).Contents (Elt F) :=
  constant S_ .f32 0x00000000#32
theorem val_main_cst_20_apply (i : S_.Idx) :
    val_main_cst_20 (F := F) i = FloatOps.ofBits .f32 0x00000000#32 := rfl

def val_main_v92 : (⟨S128x50, .f32⟩ : BufTy).Contents (Elt F) :=
  broadcastInDim S128x50 ![] bcast_S_S128x50 (val_main_cst_20 (F := F))
abbrev idx_main_v92 (i : S128x50.Idx) : S_.Idx := fun a => a.elim0
theorem val_main_v92_apply (i : S128x50.Idx) :
    val_main_v92 (F := F) i = val_main_cst_20 (F := F) (idx_main_v92 i) := by
  unfold val_main_v92
  generalize val_main_cst_20 (F := F) = y
  exact broadcastInDim_apply _ bcast_S_S128x50 y i (idx_main_v92 i) (fun a => a.elim0)

def val_main_v93 (x2 : (⟨S100000, .i32⟩ : BufTy).Contents (Elt F)) : (⟨S100000x1, .i32⟩ : BufTy).Contents (Elt F) :=
  broadcastInDim S100000x1 ![0] bcast_S100000_S100000x1_0 (x2)
abbrev idx_main_v93 (i : S100000x1.Idx) : S100000.Idx := fun a => match a with
  | ⟨0, _⟩ => ⟨(i 0).val, (i 0).isLt⟩
theorem val_main_v93_apply (x2 : (⟨S100000, .i32⟩ : BufTy).Contents (Elt F)) (i : S100000x1.Idx) :
    val_main_v93 (F := F) x2 i = x2 (idx_main_v93 i) := by
  unfold val_main_v93
  exact broadcastInDim_apply _ bcast_S100000_S100000x1_0 x2 i (idx_main_v93 i) (fun a => match a with
    | ⟨0, _⟩ => by show (i 0).val = if (100000 : Nat) = 1 then 0 else (i 0).val; rw [if_neg (by decide)])

def val_main_v94 (x0 : (⟨S100000x1, .f32⟩ : BufTy).Contents (Elt F)) (x1 : (⟨S2x3200000, .i32⟩ : BufTy).Contents (Elt F)) (x2 : (⟨S100000, .i32⟩ : BufTy).Contents (Elt F)) (x3 : (⟨S1x50, .f32⟩ : BufTy).Contents (Elt F)) (x4 : (⟨S50, .f32⟩ : BufTy).Contents (Elt F)) (x5 : (⟨S50x50, .f32⟩ : BufTy).Contents (Elt F)) (x6 : (⟨S50, .f32⟩ : BufTy).Contents (Elt F)) : (⟨S128x50, .f32⟩ : BufTy).Contents (Elt F) :=
  Host.scatterAdd scatter_S128x50_S100000x1_S100000x50_1_0_0_1 (val_main_v92 (F := F)) (val_main_v93 (F := F) x2) (val_main_v91 (F := F) x0 x1 x3 x4 x5 x6)

def val_main_cst_21 : (⟨S_, .f32⟩ : BufTy).Contents (Elt F) :=
  constant S_ .f32 0x3F800000#32
theorem val_main_cst_21_apply (i : S_.Idx) :
    val_main_cst_21 (F := F) i = FloatOps.ofBits .f32 0x3F800000#32 := rfl

def val_main_v95 : (⟨S100000, .f32⟩ : BufTy).Contents (Elt F) :=
  broadcastInDim S100000 ![] bcast_S_S100000 (val_main_cst_21 (F := F))
abbrev idx_main_v95 (i : S100000.Idx) : S_.Idx := fun a => a.elim0
theorem val_main_v95_apply (i : S100000.Idx) :
    val_main_v95 (F := F) i = val_main_cst_21 (F := F) (idx_main_v95 i) := by
  unfold val_main_v95
  generalize val_main_cst_21 (F := F) = y
  exact broadcastInDim_apply _ bcast_S_S100000 y i (idx_main_v95 i) (fun a => a.elim0)

def val_main_cst_22 : (⟨S_, .f32⟩ : BufTy).Contents (Elt F) :=
  constant S_ .f32 0x00000000#32
theorem val_main_cst_22_apply (i : S_.Idx) :
    val_main_cst_22 (F := F) i = FloatOps.ofBits .f32 0x00000000#32 := rfl

def val_main_v96 : (⟨S128, .f32⟩ : BufTy).Contents (Elt F) :=
  broadcastInDim S128 ![] bcast_S_S128 (val_main_cst_22 (F := F))
abbrev idx_main_v96 (i : S128.Idx) : S_.Idx := fun a => a.elim0
theorem val_main_v96_apply (i : S128.Idx) :
    val_main_v96 (F := F) i = val_main_cst_22 (F := F) (idx_main_v96 i) := by
  unfold val_main_v96
  generalize val_main_cst_22 (F := F) = y
  exact broadcastInDim_apply _ bcast_S_S128 y i (idx_main_v96 i) (fun a => a.elim0)

def val_main_v97 (x2 : (⟨S100000, .i32⟩ : BufTy).Contents (Elt F)) : (⟨S100000x1, .i32⟩ : BufTy).Contents (Elt F) :=
  broadcastInDim S100000x1 ![0] bcast_S100000_S100000x1_0 (x2)
abbrev idx_main_v97 (i : S100000x1.Idx) : S100000.Idx := fun a => match a with
  | ⟨0, _⟩ => ⟨(i 0).val, (i 0).isLt⟩
theorem val_main_v97_apply (x2 : (⟨S100000, .i32⟩ : BufTy).Contents (Elt F)) (i : S100000x1.Idx) :
    val_main_v97 (F := F) x2 i = x2 (idx_main_v97 i) := by
  unfold val_main_v97
  exact broadcastInDim_apply _ bcast_S100000_S100000x1_0 x2 i (idx_main_v97 i) (fun a => match a with
    | ⟨0, _⟩ => by show (i 0).val = if (100000 : Nat) = 1 then 0 else (i 0).val; rw [if_neg (by decide)])

def val_main_v98 (x2 : (⟨S100000, .i32⟩ : BufTy).Contents (Elt F)) : (⟨S128, .f32⟩ : BufTy).Contents (Elt F) :=
  Host.scatterAdd scatter_S128_S100000x1_S100000_n_0_0_1 (val_main_v96 (F := F)) (val_main_v97 (F := F) x2) (val_main_v95 (F := F))

def val_main_cst_23 : (⟨S_, .f32⟩ : BufTy).Contents (Elt F) :=
  constant S_ .f32 0x3F800000#32
theorem val_main_cst_23_apply (i : S_.Idx) :
    val_main_cst_23 (F := F) i = FloatOps.ofBits .f32 0x3F800000#32 := rfl

def val_main_v99 : (⟨S128, .f32⟩ : BufTy).Contents (Elt F) :=
  broadcastInDim S128 ![] bcast_S_S128 (val_main_cst_23 (F := F))
abbrev idx_main_v99 (i : S128.Idx) : S_.Idx := fun a => a.elim0
theorem val_main_v99_apply (i : S128.Idx) :
    val_main_v99 (F := F) i = val_main_cst_23 (F := F) (idx_main_v99 i) := by
  unfold val_main_v99
  generalize val_main_cst_23 (F := F) = y
  exact broadcastInDim_apply _ bcast_S_S128 y i (idx_main_v99 i) (fun a => a.elim0)

def val_main_v100 (x2 : (⟨S100000, .i32⟩ : BufTy).Contents (Elt F)) : (⟨S128, .f32⟩ : BufTy).Contents (Elt F) :=
  maximumf (val_main_v98 (F := F) x2) (val_main_v99 (F := F))
theorem val_main_v100_apply (x2 : (⟨S100000, .i32⟩ : BufTy).Contents (Elt F)) (i : S128.Idx) :
    val_main_v100 (F := F) x2 i = FloatOps.maximumf (val_main_v98 (F := F) x2 i) (val_main_v99 (F := F) i) := rfl

def val_main_v101 (x2 : (⟨S100000, .i32⟩ : BufTy).Contents (Elt F)) : (⟨S128x1, .f32⟩ : BufTy).Contents (Elt F) :=
  broadcastInDim S128x1 ![0] bcast_S128_S128x1_0 (val_main_v100 (F := F) x2)
abbrev idx_main_v101 (i : S128x1.Idx) : S128.Idx := fun a => match a with
  | ⟨0, _⟩ => ⟨(i 0).val, (i 0).isLt⟩
theorem val_main_v101_apply (x2 : (⟨S100000, .i32⟩ : BufTy).Contents (Elt F)) (i : S128x1.Idx) :
    val_main_v101 (F := F) x2 i = val_main_v100 (F := F) x2 (idx_main_v101 i) := by
  unfold val_main_v101
  generalize val_main_v100 (F := F) x2 = y
  exact broadcastInDim_apply _ bcast_S128_S128x1_0 y i (idx_main_v101 i) (fun a => match a with
    | ⟨0, _⟩ => by show (i 0).val = if (128 : Nat) = 1 then 0 else (i 0).val; rw [if_neg (by decide)])

def val_main_v102 (x2 : (⟨S100000, .i32⟩ : BufTy).Contents (Elt F)) : (⟨S128x50, .f32⟩ : BufTy).Contents (Elt F) :=
  broadcastInDim S128x50 ![0, 1] bcast_S128x1_S128x50_0_1 (val_main_v101 (F := F) x2)
abbrev idx_main_v102 (i : S128x50.Idx) : S128x1.Idx := fun a => match a with
  | ⟨0, _⟩ => ⟨(i 0).val, (i 0).isLt⟩
  | ⟨1, _⟩ => ⟨0, Nat.one_pos⟩
theorem val_main_v102_apply (x2 : (⟨S100000, .i32⟩ : BufTy).Contents (Elt F)) (i : S128x50.Idx) :
    val_main_v102 (F := F) x2 i = val_main_v101 (F := F) x2 (idx_main_v102 i) := by
  unfold val_main_v102
  generalize val_main_v101 (F := F) x2 = y
  exact broadcastInDim_apply _ bcast_S128x1_S128x50_0_1 y i (idx_main_v102 i) (fun a => match a with
    | ⟨0, _⟩ => by show (i 0).val = if (128 : Nat) = 1 then 0 else (i 0).val; rw [if_neg (by decide)]
    | ⟨1, _⟩ => by show 0 = if (1 : Nat) = 1 then 0 else (i 1).val; rw [if_pos rfl])

def val_main_v103 (x0 : (⟨S100000x1, .f32⟩ : BufTy).Contents (Elt F)) (x1 : (⟨S2x3200000, .i32⟩ : BufTy).Contents (Elt F)) (x2 : (⟨S100000, .i32⟩ : BufTy).Contents (Elt F)) (x3 : (⟨S1x50, .f32⟩ : BufTy).Contents (Elt F)) (x4 : (⟨S50, .f32⟩ : BufTy).Contents (Elt F)) (x5 : (⟨S50x50, .f32⟩ : BufTy).Contents (Elt F)) (x6 : (⟨S50, .f32⟩ : BufTy).Contents (Elt F)) : (⟨S128x50, .f32⟩ : BufTy).Contents (Elt F) :=
  Host.divf (val_main_v94 (F := F) x0 x1 x2 x3 x4 x5 x6) (val_main_v102 (F := F) x2)
theorem val_main_v103_apply (x0 : (⟨S100000x1, .f32⟩ : BufTy).Contents (Elt F)) (x1 : (⟨S2x3200000, .i32⟩ : BufTy).Contents (Elt F)) (x2 : (⟨S100000, .i32⟩ : BufTy).Contents (Elt F)) (x3 : (⟨S1x50, .f32⟩ : BufTy).Contents (Elt F)) (x4 : (⟨S50, .f32⟩ : BufTy).Contents (Elt F)) (x5 : (⟨S50x50, .f32⟩ : BufTy).Contents (Elt F)) (x6 : (⟨S50, .f32⟩ : BufTy).Contents (Elt F)) (i : S128x50.Idx) :
    val_main_v103 (F := F) x0 x1 x2 x3 x4 x5 x6 i = FloatOps.hostDivf (val_main_v94 (F := F) x0 x1 x2 x3 x4 x5 x6 i) (val_main_v102 (F := F) x2 i) := rfl

def val_main_v104 (x0 : (⟨S100000x1, .f32⟩ : BufTy).Contents (Elt F)) (x1 : (⟨S2x3200000, .i32⟩ : BufTy).Contents (Elt F)) (x2 : (⟨S100000, .i32⟩ : BufTy).Contents (Elt F)) (x3 : (⟨S1x50, .f32⟩ : BufTy).Contents (Elt F)) (x4 : (⟨S50, .f32⟩ : BufTy).Contents (Elt F)) (x5 : (⟨S50x50, .f32⟩ : BufTy).Contents (Elt F)) (x6 : (⟨S50, .f32⟩ : BufTy).Contents (Elt F)) (x7 : (⟨S50x2, .f32⟩ : BufTy).Contents (Elt F)) : (⟨S128x2, .f32⟩ : BufTy).Contents (Elt F) :=
  Host.dotGeneral dot_S128x50_S50x2_S128x2_1_0_0_1_n_n none (val_main_v103 (F := F) x0 x1 x2 x3 x4 x5 x6) (x7)
theorem lhs_main_v104_0 (i : S128x2.Idx) (q : dot_S128x50_S50x2_S128x2_1_0_0_1_n_n.contr.Idx) :
    (dot_S128x50_S50x2_S128x2_1_0_0_1_n_n.lhsIdx i q 0).val = (i 0).val := by
  unfold DotDims.lhsIdx
  rw [dif_neg (show ¬(0 : Fin S128x50.rank) ∈ dot_S128x50_S50x2_S128x2_1_0_0_1_n_n.lhsBatch by decide), dif_pos (show (0 : Fin S128x50.rank) ∈ dot_S128x50_S50x2_S128x2_1_0_0_1_n_n.lhsNonContracting by decide)]
  rfl
theorem lhs_main_v104_1 (i : S128x2.Idx) (q : dot_S128x50_S50x2_S128x2_1_0_0_1_n_n.contr.Idx) :
    (dot_S128x50_S50x2_S128x2_1_0_0_1_n_n.lhsIdx i q 1).val = (q ⟨0, by decide⟩).val :=
  dot_S128x50_S50x2_S128x2_1_0_0_1_n_n.lhsIdx_val_of_single rfl i q
theorem rhs_main_v104_0 (i : S128x2.Idx) (q : dot_S128x50_S50x2_S128x2_1_0_0_1_n_n.contr.Idx) :
    (dot_S128x50_S50x2_S128x2_1_0_0_1_n_n.rhsIdx i q 0).val = (q ⟨0, by decide⟩).val :=
  dot_S128x50_S50x2_S128x2_1_0_0_1_n_n.rhsIdx_val_of_single rfl i q
theorem rhs_main_v104_1 (i : S128x2.Idx) (q : dot_S128x50_S50x2_S128x2_1_0_0_1_n_n.contr.Idx) :
    (dot_S128x50_S50x2_S128x2_1_0_0_1_n_n.rhsIdx i q 1).val = (i 1).val := by
  unfold DotDims.rhsIdx
  rw [dif_neg (show ¬(1 : Fin S50x2.rank) ∈ dot_S128x50_S50x2_S128x2_1_0_0_1_n_n.rhsBatch by decide), dif_pos (show (1 : Fin S50x2.rank) ∈ dot_S128x50_S50x2_S128x2_1_0_0_1_n_n.rhsNonContracting by decide)]
  rfl
abbrev lidx_main_v104 (i : S128x2.Idx) (k : Fin 50) : S128x50.Idx := fun a => match a with
  | ⟨0, _⟩ => ⟨(i 0).val, (i 0).isLt⟩
  | ⟨1, _⟩ => ⟨k.val, k.isLt⟩
abbrev ridx_main_v104 (i : S128x2.Idx) (k : Fin 50) : S50x2.Idx := fun a => match a with
  | ⟨0, _⟩ => ⟨k.val, k.isLt⟩
  | ⟨1, _⟩ => ⟨(i 1).val, (i 1).isLt⟩
theorem val_main_v104_apply (x0 : (⟨S100000x1, .f32⟩ : BufTy).Contents (Elt Ideal)) (x1 : (⟨S2x3200000, .i32⟩ : BufTy).Contents (Elt Ideal)) (x2 : (⟨S100000, .i32⟩ : BufTy).Contents (Elt Ideal)) (x3 : (⟨S1x50, .f32⟩ : BufTy).Contents (Elt Ideal)) (x4 : (⟨S50, .f32⟩ : BufTy).Contents (Elt Ideal)) (x5 : (⟨S50x50, .f32⟩ : BufTy).Contents (Elt Ideal)) (x6 : (⟨S50, .f32⟩ : BufTy).Contents (Elt Ideal)) (x7 : (⟨S50x2, .f32⟩ : BufTy).Contents (Elt Ideal)) (i : S128x2.Idx) :
    val_main_v104 (F := Ideal) x0 x1 x2 x3 x4 x5 x6 x7 i = ∑ k : Fin 50, (val_main_v103 (F := Ideal) x0 x1 x2 x3 x4 x5 x6) (lidx_main_v104 i k) * x7 (ridx_main_v104 i k) := by
  unfold val_main_v104
  generalize val_main_v103 (F := Ideal) x0 x1 x2 x3 x4 x5 x6 = y0
  simp only [Host.dotGeneral]
  rw [Ideal.dotGeneral_apply, ← Equiv.sum_comp (ValueIdx.contrEquiv1 dot_S128x50_S50x2_S128x2_1_0_0_1_n_n 50 rfl rfl).symm]
  refine Finset.sum_congr rfl fun k _ => ?_
  have hk := ValueIdx.contrEquiv1_symm_val dot_S128x50_S50x2_S128x2_1_0_0_1_n_n 50 rfl rfl k
  have el : dot_S128x50_S50x2_S128x2_1_0_0_1_n_n.lhsIdx i ((ValueIdx.contrEquiv1 dot_S128x50_S50x2_S128x2_1_0_0_1_n_n 50 rfl rfl).symm k) = lidx_main_v104 i k := funext fun a => Fin.ext (by
    match a with
    | ⟨0, _⟩ => exact lhs_main_v104_0 _ _
    | ⟨1, _⟩ => exact (lhs_main_v104_1 _ _).trans hk)
  have er : dot_S128x50_S50x2_S128x2_1_0_0_1_n_n.rhsIdx i ((ValueIdx.contrEquiv1 dot_S128x50_S50x2_S128x2_1_0_0_1_n_n 50 rfl rfl).symm k) = ridx_main_v104 i k := funext fun a => Fin.ext (by
    match a with
    | ⟨0, _⟩ => exact (rhs_main_v104_0 _ _).trans hk
    | ⟨1, _⟩ => exact rhs_main_v104_1 _ _)
  rw [el, er]

def val_main_v105 (x8 : (⟨S2, .f32⟩ : BufTy).Contents (Elt F)) : (⟨S1x2, .f32⟩ : BufTy).Contents (Elt F) :=
  broadcastInDim S1x2 ![1] bcast_S2_S1x2_1 (x8)
abbrev idx_main_v105 (i : S1x2.Idx) : S2.Idx := fun a => match a with
  | ⟨0, _⟩ => ⟨(i 1).val, (i 1).isLt⟩
theorem val_main_v105_apply (x8 : (⟨S2, .f32⟩ : BufTy).Contents (Elt F)) (i : S1x2.Idx) :
    val_main_v105 (F := F) x8 i = x8 (idx_main_v105 i) := by
  unfold val_main_v105
  exact broadcastInDim_apply _ bcast_S2_S1x2_1 x8 i (idx_main_v105 i) (fun a => match a with
    | ⟨0, _⟩ => by show (i 1).val = if (2 : Nat) = 1 then 0 else (i 1).val; rw [if_neg (by decide)])

def val_main_v106 (x8 : (⟨S2, .f32⟩ : BufTy).Contents (Elt F)) : (⟨S128x2, .f32⟩ : BufTy).Contents (Elt F) :=
  broadcastInDim S128x2 ![0, 1] bcast_S1x2_S128x2_0_1 (val_main_v105 (F := F) x8)
abbrev idx_main_v106 (i : S128x2.Idx) : S1x2.Idx := fun a => match a with
  | ⟨0, _⟩ => ⟨0, Nat.one_pos⟩
  | ⟨1, _⟩ => ⟨(i 1).val, (i 1).isLt⟩
theorem val_main_v106_apply (x8 : (⟨S2, .f32⟩ : BufTy).Contents (Elt F)) (i : S128x2.Idx) :
    val_main_v106 (F := F) x8 i = val_main_v105 (F := F) x8 (idx_main_v106 i) := by
  unfold val_main_v106
  generalize val_main_v105 (F := F) x8 = y
  exact broadcastInDim_apply _ bcast_S1x2_S128x2_0_1 y i (idx_main_v106 i) (fun a => match a with
    | ⟨0, _⟩ => by show 0 = if (1 : Nat) = 1 then 0 else (i 0).val; rw [if_pos rfl]
    | ⟨1, _⟩ => by show (i 1).val = if (2 : Nat) = 1 then 0 else (i 1).val; rw [if_neg (by decide)])

def val_main_v107 (x0 : (⟨S100000x1, .f32⟩ : BufTy).Contents (Elt F)) (x1 : (⟨S2x3200000, .i32⟩ : BufTy).Contents (Elt F)) (x2 : (⟨S100000, .i32⟩ : BufTy).Contents (Elt F)) (x3 : (⟨S1x50, .f32⟩ : BufTy).Contents (Elt F)) (x4 : (⟨S50, .f32⟩ : BufTy).Contents (Elt F)) (x5 : (⟨S50x50, .f32⟩ : BufTy).Contents (Elt F)) (x6 : (⟨S50, .f32⟩ : BufTy).Contents (Elt F)) (x7 : (⟨S50x2, .f32⟩ : BufTy).Contents (Elt F)) (x8 : (⟨S2, .f32⟩ : BufTy).Contents (Elt F)) : (⟨S128x2, .f32⟩ : BufTy).Contents (Elt F) :=
  addf (val_main_v104 (F := F) x0 x1 x2 x3 x4 x5 x6 x7) (val_main_v106 (F := F) x8)
theorem val_main_v107_apply (x0 : (⟨S100000x1, .f32⟩ : BufTy).Contents (Elt F)) (x1 : (⟨S2x3200000, .i32⟩ : BufTy).Contents (Elt F)) (x2 : (⟨S100000, .i32⟩ : BufTy).Contents (Elt F)) (x3 : (⟨S1x50, .f32⟩ : BufTy).Contents (Elt F)) (x4 : (⟨S50, .f32⟩ : BufTy).Contents (Elt F)) (x5 : (⟨S50x50, .f32⟩ : BufTy).Contents (Elt F)) (x6 : (⟨S50, .f32⟩ : BufTy).Contents (Elt F)) (x7 : (⟨S50x2, .f32⟩ : BufTy).Contents (Elt F)) (x8 : (⟨S2, .f32⟩ : BufTy).Contents (Elt F)) (i : S128x2.Idx) :
    val_main_v107 (F := F) x0 x1 x2 x3 x4 x5 x6 x7 x8 i = FloatOps.addf (val_main_v104 (F := F) x0 x1 x2 x3 x4 x5 x6 x7 i) (val_main_v106 (F := F) x8 i) := rfl

theorem val_main_v107_eq (m : (ℓ : Loc nD τ sig) → Buf (Elt F) ℓ) (c : Dev nD) :
    Cert.ReferenceIdeal.ValueP.res_main_v107 m c = val_main_v107 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  unfold Cert.ReferenceIdeal.ValueP.res_main_v107; rfl

end Cert.ReferenceIdeal.ReadP

end
-- ==== Proof.RefHead.lean ====
import proofs.«410242_j1185410974040_3_alg».proof.Proof.RefReadPatched
import proofs.«410242_j1185410974040_3_alg».proof.Proof.Glue
import proofs.«410242_j1185410974040_3_alg».proof.Proof.LibScatterVec
import proofs.«410242_j1185410974040_3_alg».proof.Proof.LibSegmentRows
import Idealize.ShloMosaic.Lib.IdealHost

noncomputable section

open scoped BigOperators

namespace Cert.ReferenceIdeal.RefValue

open Cert.ReferenceIdeal Cert.ReferenceIdeal.Gen Cert.Gcn Idealize.ShloMosaic Idealize.ShloMosaic.ValueIdx

theorem cnt_apply (x2 : (⟨S100000, .i32⟩ : BufTy).Contents (Elt Ideal)) (g : Fin 128) :
    ReadP.val_main_v98 (F := Ideal) x2 (ix1 g)
      = 0 + ∑ v : Fin 100000, if (x2 (ix1 v)).toInt = (g.val : ℤ) then 1 else 0 := by
  unfold ReadP.val_main_v98
  refine (ScatterVec.scatterAdd_vec_apply scatter_S128_S100000x1_S100000_n_0_0_1 rfl rfl rfl rfl _ _ _ g).trans
    (congrArg₂ (· + ·) ?_ (Finset.sum_congr rfl fun v _ => ?_))
  · rw [ReadP.val_main_v96_apply, ReadP.val_main_cst_22_apply]
    exact Ideal.ofBits_zero_f32
  · rw [ReadP.val_main_v97_apply, ReadP.val_main_v95_apply, ReadP.val_main_cst_21_apply,
      show ReadP.idx_main_v97 (ix2 v (0 : Fin 1)) = ix1 v from (eq_ix1 _).trans rfl]
    exact congrArg (fun t => if (x2 (ix1 v)).toInt = (g.val : ℤ) then t else 0) Ideal.ofBits_one_f32

theorem pool_apply (x0 : (⟨S100000x1, .f32⟩ : BufTy).Contents (Elt Ideal)) (x1 : (⟨S2x3200000, .i32⟩ : BufTy).Contents (Elt Ideal))
    (x2 : (⟨S100000, .i32⟩ : BufTy).Contents (Elt Ideal)) (x3 : (⟨S1x50, .f32⟩ : BufTy).Contents (Elt Ideal))
    (x4 : (⟨S50, .f32⟩ : BufTy).Contents (Elt Ideal)) (x5 : (⟨S50x50, .f32⟩ : BufTy).Contents (Elt Ideal))
    (x6 : (⟨S50, .f32⟩ : BufTy).Contents (Elt Ideal)) (g : Fin 128) (k : Fin 50) :
    ReadP.val_main_v94 (F := Ideal) x0 x1 x2 x3 x4 x5 x6 (ix2 g k)
      = Gcn.pool (Gcn.grpOf x2) (fun v f => ReadP.val_main_v91 (F := Ideal) x0 x1 x3 x4 x5 x6 (ix2 v f)) g k := by
  unfold ReadP.val_main_v94 Gcn.pool Gcn.grpOf
  refine (SegmentRows.scatterAdd_rows_apply scatter_S128x50_S100000x1_S100000x50_1_0_0_1 rfl rfl rfl rfl _ _ _ g k).trans
    (congrArg₂ (· + ·) ?_ (Finset.sum_congr rfl fun v _ => ?_))
  · rw [ReadP.val_main_v92_apply, ReadP.val_main_cst_20_apply]
    exact Ideal.ofBits_zero_f32
  · rw [ReadP.val_main_v93_apply, show ReadP.idx_main_v93 (ix2 v (0 : Fin 1)) = ix1 v from (eq_ix1 _).trans rfl]

theorem out_apply (x0 : (⟨S100000x1, .f32⟩ : BufTy).Contents (Elt Ideal)) (x1 : (⟨S2x3200000, .i32⟩ : BufTy).Contents (Elt Ideal))
    (x2 : (⟨S100000, .i32⟩ : BufTy).Contents (Elt Ideal)) (x3 : (⟨S1x50, .f32⟩ : BufTy).Contents (Elt Ideal))
    (x4 : (⟨S50, .f32⟩ : BufTy).Contents (Elt Ideal)) (x5 : (⟨S50x50, .f32⟩ : BufTy).Contents (Elt Ideal))
    (x6 : (⟨S50, .f32⟩ : BufTy).Contents (Elt Ideal)) (x7 : (⟨S50x2, .f32⟩ : BufTy).Contents (Elt Ideal))
    (x8 : (⟨S2, .f32⟩ : BufTy).Contents (Elt Ideal)) (g : Fin 128) (l : Fin 2) :
    ReadP.val_main_v107 (F := Ideal) x0 x1 x2 x3 x4 x5 x6 x7 x8 (ix2 g l)
      = Gcn.head (Gcn.grpOf x2) (Gcn.matOf x7) (Gcn.vecOf x8) (fun g => ReadP.val_main_v98 (F := Ideal) x2 (ix1 g))
          (fun v f => ReadP.val_main_v91 (F := Ideal) x0 x1 x3 x4 x5 x6 (ix2 v f)) g l := by

  rw [ReadP.val_main_v107_apply, Ideal.addf_def, ReadP.val_main_v104_apply, ReadP.val_main_v106_apply,
    ReadP.val_main_v105_apply, show ReadP.idx_main_v105 (ReadP.idx_main_v106 (ix2 g l)) = ix1 l from (eq_ix1 _).trans rfl]
  unfold Gcn.head Gcn.matOf Gcn.vecOf
  refine congrArg₂ (· + ·) (Finset.sum_congr rfl fun k _ => ?_) rfl
  rw [show ReadP.lidx_main_v104 (ix2 g l) k = ix2 g k from (eq_ix2 _).trans rfl,
    show ReadP.ridx_main_v104 (ix2 g l) k = ix2 k l from (eq_ix2 _).trans rfl, ReadP.val_main_v103_apply, pool_apply,
    ReadP.val_main_v102_apply, ReadP.val_main_v101_apply,
    show ReadP.idx_main_v101 (ReadP.idx_main_v102 (ix2 g k)) = ix1 g from (eq_ix1 _).trans rfl, ReadP.val_main_v100_apply,
    ReadP.val_main_v99_apply, ReadP.val_main_cst_23_apply, Ideal.hostDivf_def, Ideal.maximumf_def, Ideal.ofBits_def,
    Ideal.ofBits_one_f32]

end Cert.ReferenceIdeal.RefValue

end
-- ==== Proof.RefLayers.lean ====
import proofs.«410242_j1185410974040_3_alg».proof.Proof.RefReadPatched
import proofs.«410242_j1185410974040_3_alg».proof.Proof.Glue
import proofs.«410242_j1185410974040_3_alg».proof.Proof.LibGatherClamp
import proofs.«410242_j1185410974040_3_alg».proof.Proof.LibSegmentRows
import Idealize.ShloMosaic.Lib.StableHlo.Predicate
import Idealize.ShloMosaic.Lib.ValueLayout

noncomputable section

open scoped BigOperators

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx Cert.Gcn

def normCol (w : (⟨S3300000, .i32⟩ : BufTy).Contents (Elt Ideal)) : (⟨S3300000x1, .i32⟩ : BufTy).Contents (Elt Ideal) :=
  broadcastInDim S3300000x1 ![0] bcast_S3300000_S3300000x1_0
    (select (cmpi .slt w (broadcastInDim S3300000 ![] bcast_S_S3300000 (constantI S_ 32 0#32)))
      (addi w (broadcastInDim S3300000 ![] bcast_S_S3300000 (constantI S_ 32 100000#32))) w)

theorem col_apply {α : Type} (y : S3300000.Idx → α) (e : Fin 3300000) :
    broadcastInDim S3300000x1 ![0] bcast_S3300000_S3300000x1_0 y (ix2 e (0 : Fin 1)) = y (ix1 e) :=
  broadcastInDim_apply _ _ y _ (ix1 e) fun a => match a with | ⟨0, _⟩ => rfl

theorem normCol_apply (w : (⟨S3300000, .i32⟩ : BufTy).Contents (Elt Ideal)) (e : Fin 3300000) :
    normCol w (ix2 e (0 : Fin 1)) = normW (w (ix1 e)) :=
  (col_apply _ e).trans rfl

theorem ofFin_eq_ix1 {k : Nat} (p : Fin k) : Shape.Idx.ofFin p = ix1 p := (eq_ix1 _).trans rfl

theorem gatherVec_apply (dvec : (⟨S100000, .f32⟩ : BufTy).Contents (Elt Ideal))
    (w : (⟨S3300000, .i32⟩ : BufTy).Contents (Elt Ideal)) (e : Fin 3300000) :
    Host.gather gather_S100000_S3300000x1_S3300000_n_0_n_n_0_1_1 dvec (normCol w) (ix1 e)
      = dvec (ix1 (posOf (w (ix1 e)))) := by
  have h := Predicate.gather_take gather_S100000_S3300000x1_S3300000_n_0_n_n_0_1_1 rfl rfl rfl rfl dvec (normCol w) e
    (by decide)
  simp only [show Predicate.ixP e = ix2 e (0 : Fin 1) from (eq_ix2 _).trans rfl, normCol_apply, ofFin_eq_ix1] at h
  exact h

theorem gatherRows_apply (hrows : (⟨S100000x50, .f32⟩ : BufTy).Contents (Elt Ideal))
    (w : (⟨S3300000, .i32⟩ : BufTy).Contents (Elt Ideal)) (e : Fin 3300000) (f : Fin 50) :
    Host.gather gather_S100000x50_S3300000x1_S3300000x50_1_0_n_n_0_1_150 hrows (normCol w) (ix2 e f)
      = hrows (ix2 (posOf (w (ix1 e))) f) := by
  have h := GatherClamp.gather_rows_clamp gather_S100000x50_S3300000x1_S3300000x50_1_0_n_n_0_1_150 rfl rfl rfl rfl rfl rfl
    rfl hrows (normCol w) e f (by decide)
  simp only [normCol_apply] at h
  exact h

def msgs (hrows : (⟨S100000x50, .f32⟩ : BufTy).Contents (Elt Ideal)) (dvec : (⟨S100000, .f32⟩ : BufTy).Contents (Elt Ideal))
    (sw dw : (⟨S3300000, .i32⟩ : BufTy).Contents (Elt Ideal)) : (⟨S100000x50, .f32⟩ : BufTy).Contents (Elt Ideal) :=
  Host.scatterAdd (F := Ideal) scatter_S100000x50_S3300000x1_S3300000x50_1_0_0_1
    (broadcastInDim S100000x50 ![] bcast_S_S100000x50 (constant (F := Ideal) S_ .f32 0x00000000#32))
    (broadcastInDim S3300000x1 ![0] bcast_S3300000_S3300000x1_0 dw)
    (mulf (F := Ideal) (Host.gather gather_S100000x50_S3300000x1_S3300000x50_1_0_n_n_0_1_150 hrows (normCol sw))
      (broadcastInDim S3300000x50 ![0, 1] bcast_S3300000x1_S3300000x50_0_1
        (broadcastInDim S3300000x1 ![0] bcast_S3300000_S3300000x1_0
          (mulf (F := Ideal) (Host.gather gather_S100000_S3300000x1_S3300000_n_0_n_n_0_1_1 dvec (normCol sw))
            (Host.gather gather_S100000_S3300000x1_S3300000_n_0_n_n_0_1_1 dvec (normCol dw))))))

theorem rep_apply {α : Type} (y : S3300000x1.Idx → α) (e : Fin 3300000) (f : Fin 50) :
    broadcastInDim S3300000x50 ![0, 1] bcast_S3300000x1_S3300000x50_0_1 y (ix2 e f) = y (ix2 e (0 : Fin 1)) :=
  broadcastInDim_apply _ _ y _ (ix2 e (0 : Fin 1)) fun a => match a with | ⟨0, _⟩ => rfl | ⟨1, _⟩ => rfl

theorem msgs_apply (hrows : (⟨S100000x50, .f32⟩ : BufTy).Contents (Elt Ideal))
    (dvec : (⟨S100000, .f32⟩ : BufTy).Contents (Elt Ideal))
    (sw dw : (⟨S3300000, .i32⟩ : BufTy).Contents (Elt Ideal)) (v : Fin 100000) (f : Fin 50) :
    msgs hrows dvec sw dw (ix2 v f)
      = 0 + ∑ e : Fin 3300000, if (dw (ix1 e)).toInt = (v.val : ℤ) then
          hrows (ix2 (posOf (sw (ix1 e))) f) * (dvec (ix1 (posOf (sw (ix1 e)))) * dvec (ix1 (posOf (dw (ix1 e)))))
        else 0 := by
  unfold msgs
  refine (SegmentRows.scatterAdd_rows_apply scatter_S100000x50_S3300000x1_S3300000x50_1_0_0_1 rfl rfl rfl rfl _ _ _ v f).trans
    (congrArg₂ (· + ·) Ideal.ofBits_zero_f32 (Finset.sum_congr rfl fun e _ => ?_))
  rw [col_apply dw e, mulf_apply, gatherRows_apply, rep_apply, col_apply, mulf_apply,
    gatherVec_apply, gatherVec_apply]

variable (x0 : (⟨S100000x1, .f32⟩ : BufTy).Contents (Elt Ideal)) (x1 : (⟨S2x3200000, .i32⟩ : BufTy).Contents (Elt Ideal))
  (x3 : (⟨S1x50, .f32⟩ : BufTy).Contents (Elt Ideal)) (x4 : (⟨S50, .f32⟩ : BufTy).Contents (Elt Ideal))
  (x5 : (⟨S50x50, .f32⟩ : BufTy).Contents (Elt Ideal)) (x6 : (⟨S50, .f32⟩ : BufTy).Contents (Elt Ideal))

theorem v4_apply (u : Fin 100000) (f : Fin 50) :
    ReadP.val_main_v4 (F := Ideal) x0 x3 (ix2 u f) = rH (colOf x0) (rowOf x3) u f := by
  rw [ReadP.val_main_v4_apply]
  refine Finset.sum_congr rfl fun k _ => ?_
  obtain rfl : k = 0 := Subsingleton.elim _ _
  exact congrArg₂ (x0 · * x3 ·) ((eq_ix2 _).trans rfl) ((eq_ix2 _).trans rfl)

theorem bias1_apply (v : Fin 100000) (f : Fin 50) : ReadP.val_main_v45 (F := Ideal) x4 (ix2 v f) = vecOf x4 f := by
  rw [ReadP.val_main_v45_apply, ReadP.val_main_v44_apply]
  exact congrArg x4 ((eq_ix1 _).trans rfl)

/-- One layer after its messages: the scattered sum plus the bias row, clipped below at zero. -/
theorem layer_apply (H : (⟨S100000x50, .f32⟩ : BufTy).Contents (Elt Ideal)) (dvec : (⟨S100000, .f32⟩ : BufTy).Contents (Elt Ideal))
    (sw dw : (⟨S3300000, .i32⟩ : BufTy).Contents (Elt Ideal)) (hH : Fin n → Fin 50 → EReal)
    (hHe : ∀ u f, H (ix2 u f) = hH u f) (v : Fin 100000) (f : Fin 50) :
    FloatOps.maximumf (F := Ideal) (φ := .f32) (FloatOps.addf (F := Ideal) (φ := .f32) (msgs H dvec sw dw (ix2 v f)) (ReadP.val_main_v45 (F := Ideal) x4 (ix2 v f))) (ReadP.val_main_call1_v0 (F := Ideal) (ix2 v f))
      = max ((0 + ∑ e : Fin E, if dstOf dw e = (v.val : ℤ) then
          hH (srcOf sw e) f * (vecOf dvec (srcOf sw e) * vecOf dvec (dstgOf dw e)) else 0) + vecOf x4 f) 0 := by
  rw [msgs_apply, bias1_apply, ReadP.val_main_call1_v0_apply, ReadP.val_main_call1_cst_apply]
  simp only [hHe]
  exact congrArg (max _) Ideal.ofBits_zero_f32

theorem layer1_apply (v : Fin 100000) (f : Fin 50) :
    ReadP.val_main_v47 (F := Ideal) x0 x1 x3 x4 (ix2 v f)
      = rH1 (dstOf (ReadP.val_main_v7 (F := Ideal) x1)) (srcOf (ReadP.val_main_v6 (F := Ideal) x1))
          (dstgOf (ReadP.val_main_v7 (F := Ideal) x1)) (colOf x0) (vecOf (ReadP.val_main_v15 (F := Ideal) x1))
          (rowOf x3) (vecOf x4) v f := by
  rw [ReadP.val_main_v47_apply, ReadP.val_main_v46_apply]
  exact layer_apply x4 _ _ _ _ _ (v4_apply x0 x3) v f

theorem v48_apply (u : Fin 100000) (f : Fin 50) :
    ReadP.val_main_v48 (F := Ideal) x0 x1 x3 x4 x5 (ix2 u f)
      = rHp (dstOf (ReadP.val_main_v7 (F := Ideal) x1)) (srcOf (ReadP.val_main_v6 (F := Ideal) x1))
          (dstgOf (ReadP.val_main_v7 (F := Ideal) x1)) (colOf x0) (vecOf (ReadP.val_main_v15 (F := Ideal) x1))
          (rowOf x3) (vecOf x4) (matOf x5) u f := by
  rw [ReadP.val_main_v48_apply]
  refine Finset.sum_congr rfl fun k _ => ?_
  rw [show ReadP.lidx_main_v48 (ix2 u f) k = ix2 u k from (eq_ix2 _).trans rfl, layer1_apply]
  exact congrArg (_ * x5 ·) ((eq_ix2 _).trans rfl)

theorem layer2_apply (v : Fin 100000) (f : Fin 50) :
    ReadP.val_main_v91 (F := Ideal) x0 x1 x3 x4 x5 x6 (ix2 v f)
      = rH2 (dstOf (ReadP.val_main_v7 (F := Ideal) x1)) (srcOf (ReadP.val_main_v6 (F := Ideal) x1))
          (dstgOf (ReadP.val_main_v7 (F := Ideal) x1)) (colOf x0) (vecOf (ReadP.val_main_v15 (F := Ideal) x1))
          (rowOf x3) (vecOf x4) (matOf x5) (vecOf x6) v f := by
  rw [ReadP.val_main_v91_apply, ReadP.val_main_v90_apply]
  exact layer_apply x6 _ _ _ _ _ (v48_apply x0 x1 x3 x4 x5) v f

end Cert.ReferenceIdeal.RefValue

end
-- ==== Proof.Cross.lean ====
import proofs.«410242_j1185410974040_3_alg».proof.Proof.Gen.KernelIdeal.Launch
import proofs.«410242_j1185410974040_3_alg».proof.Proof.RefReadPatched
import Idealize.ShloMosaic.Lib.StableHlo.Run

noncomputable section

open Idealize.ShloMosaic Idealize.ShloMosaic.TcCoe Idealize.SL.Sem Idealize.ShloMosaic.StableHlo

namespace Cert.KernelIdeal.HandValue.Cross

open Cert.KernelIdeal Cert.KernelIdeal.Gen

variable (W : Valuation τ sig (Elt Ideal))

theorem src_eq :
    (StableHlo.after (hostOps0 (F := Ideal)) W (Proc.devRef .tc main_v5) : IVec ⟨1, ![3300000]⟩ 32)
      = Cert.ReferenceIdeal.ReadP.val_main_v6 (F := Ideal) (W (Proc.devRef .tc main_arg1)) := by
  after_results
  rfl

theorem dst_eq :
    (StableHlo.after (hostOps0 (F := Ideal)) W (Proc.devRef .tc main_v6) : IVec ⟨1, ![3300000]⟩ 32)
      = Cert.ReferenceIdeal.ReadP.val_main_v7 (F := Ideal) (W (Proc.devRef .tc main_arg1)) := by
  after_results
  rfl

theorem pos_eq :
    (StableHlo.after (hostOps0 (F := Ideal)) W (Proc.devRef .tc main_v12) : IVec ⟨1, ![100000]⟩ 1)
      = Cert.ReferenceIdeal.ReadP.val_main_v13 (F := Ideal) (W (Proc.devRef .tc main_arg1)) := by
  after_results
  rfl

theorem rsqrt_eq :
    (StableHlo.after (hostOps0 (F := Ideal)) W (Proc.devRef .tc main_v13) : FVec Ideal ⟨1, ![100000]⟩ .f32)
      = Cert.ReferenceIdeal.ReadP.val_main_v14 (F := Ideal) (W (Proc.devRef .tc main_arg1)) := by
  after_results
  rfl

theorem zero_eq :
    (StableHlo.after (hostOps0 (F := Ideal)) W (Proc.devRef .tc main_cst_2) : FVec Ideal ⟨0, ![]⟩ .f32)
      = Cert.ReferenceIdeal.ReadP.val_main_cst_2 (F := Ideal) := by
  after_results
  rfl

theorem select_step :
    (StableHlo.after (hostOps0_1 (F := Ideal)) W (Proc.devRef .tc main_v14) : FVec Ideal ⟨1, ![100000]⟩ .f32)
      = select (W (Proc.devRef .tc main_v12) : IVec ⟨1, ![100000]⟩ 1) (W (Proc.devRef .tc main_v13) : FVec Ideal ⟨1, ![100000]⟩ .f32)
          (broadcastInDim S100000 ![] bcast_S_S100000 (id (W (Proc.devRef .tc main_cst_2) : FVec Ideal ⟨0, ![]⟩ .f32))) := by
  after_results
  first
    | rfl
    | (simp only [TRef.ofBuf, TRef.toBuf, cast_eq]; try rfl)

theorem dinv_eq :
    (StableHlo.after (hostOps0_1 (F := Ideal)) (StableHlo.after (hostOps0 (F := Ideal)) W) (Proc.devRef .tc main_v14) : FVec Ideal ⟨1, ![100000]⟩ .f32)
      = Cert.ReferenceIdeal.ReadP.val_main_v15 (F := Ideal) (W (Proc.devRef .tc main_arg1)) := by
  rw [select_step (StableHlo.after (hostOps0 (F := Ideal)) W), pos_eq W, rsqrt_eq W, zero_eq W]
  rfl

end Cert.KernelIdeal.HandValue.Cross

end
-- ==== Proof.Finite.lean ====
import proofs.«410242_j1185410974040_3_alg».proof.Pre_finite_inputs
import proofs.«410242_j1185410974040_3_alg».proof.Proof.Gen.Pre_finite_inputs
import Idealize.ShloMosaic.Lib.ReduceAll
import Idealize.ShloMosaic.Lib.ValueIdx
import Idealize.ShloMosaic.PureOps.Ideal.Laws

noncomputable section

namespace Cert.Gcn.Finite

open Idealize.ShloMosaic Cert.Pre_finite_inputs

instance : Subsingleton S_.Idx := ⟨fun a b => funext fun d => d.elim0⟩

theorem real_of_max_neg_lt_top (x : EReal) (h : max x (-x) < ⊤) : ∃ r : ℝ, x = (r : EReal) := by
  induction x using EReal.rec with
  | bot => exact absurd h (by simp)
  | coe r => exact ⟨r, rfl⟩
  | top => exact absurd h (by simp)

theorem real_of_abs_lt (x : Ideal .f32)
    (h : FloatOps.cmpf .olt (FloatOps.hostAbsf x) (FloatOps.ofBits (F := Ideal) .f32 0x7F800000#32) = 1#1) :
    ∃ r : ℝ, x = (r : EReal) := by
  have htop : Ideal.ofBits .f32 0x7F800000#32 = (⊤ : EReal) := by simp [Ideal.ofBits, Ideal.ieee]
  change Ideal.cmp .olt (max x (-x)) (Ideal.ofBits .f32 0x7F800000#32) = 1#1 at h
  rw [htop] at h
  unfold Ideal.cmp at h
  dsimp only at h
  refine real_of_max_neg_lt_top x ?_
  by_contra hn
  rw [decide_eq_false hn] at h
  exact absurd h (by decide)

theorem real_of_all {s : Shape} {axes : List (Fin s.rank)} (a : FVec Ideal s .f32)
    (hb : S_.BroadcastsInDim s (![] : Fin 0 → Fin s.rank)) (hr : s.ReducesTo axes S_) (hu : 0 < S_.numel) (init : IVec S_ 1) (j : S_.Idx)
    (e : Host.reduce IntOp.andi (cmpf .olt (Host.absf a) (broadcastInDim s ![] hb (constant S_ .f32 0x7F800000#32))) init hr hu j = 1#1)
    (i : s.Idx) : ∃ r : ℝ, a i = (r : EReal) :=
  real_of_abs_lt (a i) (Host.reduce_andi_all _ init hr hu j e i)

theorem real_of_pre [Cert.Pre_finite_inputs.Facts] (a0 : FVec Ideal S100000x1 .f32) (a1 : IVec S2x3200000 32) (a2 : IVec S100000 32)
    (a3 : FVec Ideal S1x50 .f32) (a4 : FVec Ideal S50 .f32) (a5 : FVec Ideal S50x50 .f32) (a6 : FVec Ideal S50 .f32)
    (a7 : FVec Ideal S50x2 .f32) (a8 : FVec Ideal S2 .f32)
    (h : Cert.Pre_finite_inputs.fn (F := Ideal) a0 a1 a2 a3 a4 a5 a6 a7 a8 = fun _ => 1#1) :
    (∀ i, ∃ r : ℝ, a0 i = (r : EReal)) ∧ (∀ i, ∃ r : ℝ, a3 i = (r : EReal)) ∧ (∀ i, ∃ r : ℝ, a4 i = (r : EReal))
      ∧ (∀ i, ∃ r : ℝ, a5 i = (r : EReal)) := by
  have h0 := congrFun h ValueIdx.ix0
  dsimp only [fn, fn_part1, andi] at h0
  simp only [IntOp.andi_eq_one] at h0
  obtain ⟨⟨⟨⟨⟨⟨h3, h7⟩, h12⟩, h17⟩, -⟩, -⟩, -⟩ := h0
  exact ⟨real_of_all a0 _ _ _ _ _ h3, real_of_all a3 _ _ _ _ _ h7, real_of_all a4 _ _ _ _ _ h12, real_of_all a5 _ _ _ _ _ h17⟩

end Cert.Gcn.Finite

end
-- ==== Proof.Algebraic.lean ====
import proofs.«410242_j1185410974040_3_alg».proof.Defs
import proofs.«410242_j1185410974040_3_alg».proof.Proof.Gen.KernelIdeal
import proofs.«410242_j1185410974040_3_alg».proof.Proof.Gen.ReferenceIdeal
import proofs.«410242_j1185410974040_3_alg».proof.Proof.Gen.Pre_finite_inputs
import proofs.«410242_j1185410974040_3_alg».proof.Proof.IdealRun
import proofs.«410242_j1185410974040_3_alg».proof.Proof.IdealOut
import proofs.«410242_j1185410974040_3_alg».proof.Proof.IdealHostA
import proofs.«410242_j1185410974040_3_alg».proof.Proof.RefHead
import proofs.«410242_j1185410974040_3_alg».proof.Proof.RefLayers
import proofs.«410242_j1185410974040_3_alg».proof.Proof.Cross
import proofs.«410242_j1185410974040_3_alg».proof.Proof.Finite
import proofs.«410242_j1185410974040_3_alg».proof.Proof.LibGatherClamp

noncomputable section

namespace Cert.Proof.Alg

open Idealize.ShloMosaic Idealize.ShloMosaic.TcCoe Idealize.SL.Sem Idealize.ShloMosaic.ValueIdx
open Cert.KernelIdeal Cert.KernelIdeal.Gen Cert.KernelIdeal.Hand Cert.KernelIdeal.HandValue Cert.Gcn

variable (m : (ℓ : Loc nD τ sig) → Buf (Elt Ideal) ℓ) (ρ : Dev nD → PrngReg)

abbrev EIa (c : Dev nD) : IVec ⟨2, ![2, 3200000]⟩ 32 := m ((c : Thread nD τ).loc main_arg1)

theorem dstg_of_dst (dstf : IVec ⟨1, ![3300000]⟩ 32) (e : Fin E) (v : Fin n) (h : dstOf dstf e = (v.val : ℤ)) : dstgOf dstf e = v := by
  apply Fin.ext
  show min (normW (dstf (ix1 e))).toInt.toNat (n - 1) = v.val
  rw [show normW (dstf (ix1 e)) = dstf (ix1 e) from GatherClamp.norm_of_toInt_eq _ _ v.val h]
  exact GatherClamp.clamp_of_toInt_eq _ n v.val v.isLt h

theorem src_eq (c : Dev nD) : SRC m ρ c = Cert.ReferenceIdeal.ReadP.val_main_v6 (F := Ideal) (EIa m c) :=
  Cross.src_eq (W0 m ρ c)
theorem dst_eq (c : Dev nD) : DST m ρ c = Cert.ReferenceIdeal.ReadP.val_main_v7 (F := Ideal) (EIa m c) :=
  Cross.dst_eq (W0 m ρ c)
theorem dinv_eq (c : Dev nD) : DINV m ρ c = Cert.ReferenceIdeal.ReadP.val_main_v15 (F := Ideal) (EIa m c) :=
  Cross.dinv_eq (W0 m ρ c)

theorem reals_of_pre (hpre : Cert.Pre_KernelIdeal m) (c : Dev nD) :
    (∀ u, ∃ r : ℝ, colOf (Xa m c) u = (r : EReal)) ∧ (∀ f, ∃ r : ℝ, rowOf (W1a m c) f = (r : EReal))
      ∧ (∀ f, ∃ r : ℝ, vecOf (B1a m c) f = (r : EReal)) ∧ (∀ k f, ∃ r : ℝ, matOf (W2a m c) k f = (r : EReal)) := by
  obtain ⟨h0, h3, h4, h5⟩ := Cert.Gcn.Finite.real_of_pre _ _ _ _ _ _ _ _ _ (hpre c)
  exact ⟨fun u => h0 (ix2 u 0), fun f => h3 (ix2 0 f), fun f => h4 (ix1 f), fun k f => h5 (ix2 k f)⟩

theorem algebraic : Cert.algebraic_KernelIdeal_ReferenceIdeal := by
  intro m ρ m' ρ' hpre hagree
  refine ⟨fun c => (dat3 (F := Ideal) (V8 m ρ) c).arrAt 5 cfg3.N, run_out m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v107_eq]
  obtain ⟨e0, e1, e2, e3, e4, e5, e6, e7, e8⟩ := hagree c
  rw [e0, e1, e2, e3, e4, e5, e6, e7, e8]
  obtain ⟨hx, hW1, hb1, hW2⟩ := reals_of_pre m hpre c
  have hd : ∀ u, ∃ r : ℝ, vecOf (DINV m ρ c) u = (r : EReal) := fun u => dinv_real (W0 m ρ c) u
  have hlaw := Cert.Gcn.kH2_eq_rH2 (dstOf (DST m ρ c)) (srcOf (SRC m ρ c)) (dstgOf (DST m ρ c)) (colOf (Xa m c)) (vecOf (DINV m ρ c))
    (rowOf (W1a m c)) (vecOf (B1a m c)) (matOf (W2a m c)) (vecOf (B2a m c)) (dstg_of_dst (DST m ρ c)) hx hd hW1 hb1 hW2
  funext i
  obtain ⟨g, l, rfl⟩ : ∃ (g : Fin 128) (l : Fin 2), i = ix2 g l := ⟨i 0, i 1, eq_ix2 i⟩
  refine (Cert.ReferenceIdeal.RefValue.out_apply _ _ _ _ _ _ _ _ _ g l).trans ?_
  refine Eq.trans ?_ (kernel_out m ρ c g l).symm
  have hcnt : (fun g : Fin G => Cert.ReferenceIdeal.ReadP.val_main_v98 (F := Ideal) (BTa m c) (ix1 g))
      = fun g : Fin G => 0 + ∑ v : Fin 100000, if grpOf (BTa m c) v = (g.val : ℤ) then (1 : EReal) else 0 := by
    funext g; exact Cert.ReferenceIdeal.RefValue.cnt_apply (BTa m c) g
  have hh : (fun (v : Fin n) (f : Fin 50) => Cert.ReferenceIdeal.ReadP.val_main_v91 (F := Ideal) (Xa m c) (EIa m c) (W1a m c) (B1a m c) (W2a m c) (B2a m c) (ix2 v f))
      = Cert.Gcn.kH2 (dstOf (DST m ρ c)) (srcOf (SRC m ρ c)) (colOf (Xa m c)) (vecOf (DINV m ρ c)) (rowOf (W1a m c)) (vecOf (B1a m c)) (matOf (W2a m c)) (vecOf (B2a m c)) := by
    funext v f
    rw [Cert.ReferenceIdeal.RefValue.layer2_apply, ← src_eq m ρ c, ← dst_eq m ρ c, ← dinv_eq m ρ c, hlaw]
  exact congrArg₂ (fun a b => Cert.Gcn.head (grpOf (BTa m c)) (matOf (WCa m c)) (vecOf (BCa m c)) a b g l) hcnt hh

end Cert.Proof.Alg

end
-- ==== Proof.lean ====
import proofs.«410242_j1185410974040_3_alg».proof.Defs
import proofs.«410242_j1185410974040_3_alg».proof.Proof.Gen.Kernel
import proofs.«410242_j1185410974040_3_alg».proof.Proof.Gen.KernelIdeal
import proofs.«410242_j1185410974040_3_alg».proof.Proof.Gen.ReferenceIdeal
import proofs.«410242_j1185410974040_3_alg».proof.Proof.Gen.Pre_finite_inputs
import proofs.«410242_j1185410974040_3_alg».proof.Proof.Frames
import proofs.«410242_j1185410974040_3_alg».proof.Proof.Algebraic

noncomputable section

namespace Cert.Proof

-- A two-layer graph convolution with a group-mean pool and a linear map, against the same network with the scales on the edges.
theorem claim : Cert.Claim :=
  ⟨Cert.Kernel.Gen.facts, Cert.KernelIdeal.Gen.facts, Cert.ReferenceIdeal.Gen.facts, Cert.Pre_finite_inputs.Gen.facts,
    Claims.frame_p, Claims.frame_pi, Claims.frame_ri, Claims.preserves, Alg.algebraic⟩

end Cert.Proof

end
